-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S10x128 : Shape := ⟨2, ![10, 128]⟩
abbrev S_ : Shape := ⟨0, ![]⟩
abbrev S1x1600000 : Shape := ⟨2, ![1, 1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v14 : IVec S_ 1) (main_v16 : IVec S1600000 32) (main_c_4 : IVec S_ 32) : IVec S_ 1 :=
  let main_v17 : IVec S1600000 32 := broadcastInDim S1600000 ![] bcast_S_S1600000 main_c_4
  let main_v18 : IVec S1600000 1 := cmpi .slt main_v16 main_v17
  let main_c_5 : IVec S_ 1 := constantI S_ 1 1#1
  let main_v19 : IVec S_ 1 := (fun x v => Host.reduce IntOp.andi x v reducesTo_S1600000_S_d0 h_S_) main_v18 main_c_5
  let main_v20 : IVec S_ 1 := andi main_v14 main_v19
  main_v20

def fn {F : FTy → Type} [FloatOps F] (main_arg0 : FVec F S50000x128 .f32) (main_arg1 : IVec S2x1600000 32) (main_arg2 : IVec S1600000 32) (main_arg3 : FVec F S10x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S10x128 .f32 := Host.absf main_arg3
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : IVec S1x1600000 32 := (extractStridedSlice S1x1600000 ![1, 0] · slices_S2x1600000_S1x1600000_1_0) main_arg1
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_c_3 : IVec S_ 1 := constantI S_ 1 1#1
  let main_v13 : IVec S_ 1 := (fun x v => Host.reduce IntOp.andi x v reducesTo_S1600000_S_d0 h_S_) main_v12 main_c_3
  let main_v14 : IVec S_ 1 := andi main_v8 main_v13
  let main_v15 : IVec S1x1600000 32 := (extractStridedSlice S1x1600000 ![1, 0] · slices_S2x1600000_S1x1600000_1_0) main_arg1
  let main_v16 : IVec S1600000 32 := shapeCast S1600000 main_v15 shapeCasts_S1x1600000_S1600000
  let main_c_4 : IVec S_ 32 := constantI S_ 32 50000#32
  fn_part1 (F := F) main_v14 main_v16 main_c_4
-- ==== Kernel.lean ====
abbrev S50000x128 : Shape := ⟨2, ![50000, 128]⟩
abbrev S2x1600000 : Shape := ⟨2, ![2, 1600000]⟩
abbrev S1600000 : Shape := ⟨1, ![1600000]⟩
abbrev S10x128 : Shape := ⟨2, ![10, 128]⟩
abbrev S1x1600000 : Shape := ⟨2, ![1, 1600000]⟩
abbrev S_ : Shape := ⟨0, ![]⟩
abbrev S1601536 : Shape := ⟨1, ![1601536]⟩
abbrev S1601536x1 : Shape := ⟨2, ![1601536, 1]⟩
abbrev S1601536x128 : Shape := ⟨2, ![1601536, 128]⟩
abbrev S51200 : Shape := ⟨1, ![51200]⟩
abbrev S51200x1 : Shape := ⟨2, ![51200, 1]⟩
abbrev S51200x128 : Shape := ⟨2, ![51200, 128]⟩
abbrev S1x1601536 : Shape := ⟨2, ![1, 1601536]⟩
abbrev S1x4096 : Shape := ⟨2, ![1, 4096]⟩
abbrev S2048x128 : Shape := ⟨2, ![2048, 128]⟩
abbrev S4096x128 : Shape := ⟨2, ![4096, 128]⟩
abbrev S2048x1 : Shape := ⟨2, ![2048, 1]⟩
abbrev S2048x4096 : Shape := ⟨2, ![2048, 4096]⟩
abbrev S2048 : Shape := ⟨1, ![2048]⟩

abbrev nBuf : Space → Nat
  | .hbm => 60
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .i32⟩
  | .hbm, ⟨3, _⟩ => ⟨S10x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S_, .i32⟩
  | .hbm, ⟨10, _⟩ => ⟨S1601536, .i32⟩
  | .hbm, ⟨11, _⟩ => ⟨S_, .i32⟩
  | .hbm, ⟨12, _⟩ => ⟨S_, .i32⟩
  | .hbm, ⟨13, _⟩ => ⟨S1601536, .i32⟩
  | .hbm, ⟨14, _⟩ => ⟨S_, .i32⟩
  | .hbm, ⟨15, _⟩ => ⟨S_, .i32⟩
  | .hbm, ⟨16, _⟩ => ⟨S1601536, .i32⟩
  | .hbm, ⟨17, _⟩ => ⟨S_, .i32⟩
  | .hbm, ⟨18, _⟩ => ⟨S1601536, .i32⟩
  | .hbm, ⟨19, _⟩ => ⟨S1601536, .i32⟩
  | .hbm, ⟨20, _⟩ => ⟨S_, .i32⟩
  | .hbm, ⟨21, _⟩ => ⟨S1601536, .i32⟩
  | .hbm, ⟨22, _⟩ => ⟨S1601536, .i1⟩
  | .hbm, ⟨23, _⟩ => ⟨S_, .i32⟩
  | .hbm, ⟨24, _⟩ => ⟨S1601536, .i32⟩
  | .hbm, ⟨25, _⟩ => ⟨S1601536, .i32⟩
  | .hbm, ⟨26, _⟩ => ⟨S1601536, .i32⟩
  | .hbm, ⟨27, _⟩ => ⟨S1601536x1, .i32⟩
  | .hbm, ⟨28, _⟩ => ⟨S1601536x128, .f32⟩
  | .hbm, ⟨29, _⟩ => ⟨S1601536x128, .bf16⟩
  | .hbm, ⟨30, _⟩ => ⟨S_, .f32⟩
  | .hbm, ⟨31, _⟩ => ⟨S1601536, .f32⟩
  | .hbm, ⟨32, _⟩ => ⟨S_, .f32⟩
  | .hbm, ⟨33, _⟩ => ⟨S51200, .f32⟩
  | .hbm, ⟨34, _⟩ => ⟨S1601536x1, .i32⟩
  | .hbm, ⟨35, _⟩ => ⟨S51200, .f32⟩
  | .hbm, ⟨36, _⟩ => ⟨S_, .f32⟩
  | .hbm, ⟨37, _⟩ => ⟨S51200, .f32⟩
  | .hbm, ⟨38, _⟩ => ⟨S51200, .f32⟩
  | .hbm, ⟨39, _⟩ => ⟨S51200x1, .f32⟩
  | .hbm, ⟨40, _⟩ => ⟨S_, .i32⟩
  | .hbm, ⟨41, _⟩ => ⟨S_, .f32⟩
  | .hbm, ⟨42, _⟩ => ⟨S51200x128, .f32⟩
  | .hbm, ⟨43, _⟩ => ⟨S1x1601536, .i32⟩
  | .hbm, ⟨44, _⟩ => ⟨S1x1601536, .i32⟩
  | .hbm, ⟨45, _⟩ => ⟨S51200x128, .bf16⟩
  | .hbm, ⟨46, _⟩ => ⟨S1601536x128, .bf16⟩
  | .hbm, ⟨47, _⟩ => ⟨S51200x128, .f32⟩
  | .hbm, ⟨48, _⟩ => ⟨S50000x128, .f32⟩
  | .hbm, ⟨49, _⟩ => ⟨S50000x128, .f32⟩
  | .hbm, ⟨50, _⟩ => ⟨S51200x128, .bf16⟩
  | .hbm, ⟨51, _⟩ => ⟨S1601536x128, .bf16⟩
  | .hbm, ⟨52, _⟩ => ⟨S51200x128, .f32⟩
  | .hbm, ⟨53, _⟩ => ⟨S50000x128, .f32⟩
  | .hbm, ⟨54, _⟩ => ⟨S50000x128, .f32⟩
  | .hbm, ⟨55, _⟩ => ⟨S51200x128, .bf16⟩
  | .hbm, ⟨56, _⟩ => ⟨S1601536x128, .bf16⟩
  | .hbm, ⟨57, _⟩ => ⟨S51200x128, .f32⟩
  | .hbm, ⟨58, _⟩ => ⟨S50000x128, .f32⟩
  | .hbm, ⟨59, _⟩ => ⟨S50000x128, .f32⟩
  | .local _ .vmem, ⟨0, _⟩ => ⟨S1x4096, .i32⟩
  | .local _ .vmem, ⟨1, _⟩ => ⟨S1x4096, .i32⟩
  | .local _ .vmem, ⟨2, _⟩ => ⟨S2048x128, .bf16⟩
  | .local _ .vmem, ⟨3, _⟩ => ⟨S2048x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S1x4096, .i32⟩
  | .local _ .vmem, ⟨10, _⟩ => ⟨S1x4096, .i32⟩
  | .local _ .vmem, ⟨11, _⟩ => ⟨S4096x128, .bf16⟩
  | .local _ .vmem, ⟨12, _⟩ => ⟨S4096x128, .bf16⟩
  | .local _ .vmem, ⟨13, _⟩ => ⟨S2048x1, .f32⟩
  | .local _ .vmem, ⟨14, _⟩ => ⟨S2048x1, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S1x4096, .i32⟩
  | .local _ .vmem, ⟨19, _⟩ => ⟨S1x4096, .i32⟩
  | .local _ .vmem, ⟨20, _⟩ => ⟨S2048x128, .bf16⟩
  | .local _ .vmem, ⟨21, _⟩ => ⟨S2048x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .bf16⟩
  | .local _ .vmem, ⟨25, _⟩ => ⟨S4096x128, .bf16⟩
  | .local _ .vmem, ⟨26, _⟩ => ⟨S4096x128, .f32⟩
  | .local _ .vmem, ⟨27, _⟩ => ⟨S1x4096, .i32⟩
  | .local _ .vmem, ⟨28, _⟩ => ⟨S1x4096, .i32⟩
  | .local _ .vmem, ⟨29, _⟩ => ⟨S4096x128, .bf16⟩
  | .local _ .vmem, ⟨30, _⟩ => ⟨S4096x128, .bf16⟩
  | .local _ .vmem, ⟨31, _⟩ => ⟨S2048x1, .f32⟩
  | .local _ .vmem, ⟨32, _⟩ => ⟨S2048x1, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S1x4096, .i32⟩
  | .local _ .vmem, ⟨37, _⟩ => ⟨S1x4096, .i32⟩
  | .local _ .vmem, ⟨38, _⟩ => ⟨S2048x128, .bf16⟩
  | .local _ .vmem, ⟨39, _⟩ => ⟨S2048x128, .bf16⟩
  | .local _ .vmem, ⟨40, _⟩ => ⟨S4096x128, .bf16⟩
  | .local _ .vmem, ⟨41, _⟩ => ⟨S4096x128, .bf16⟩
  | .local _ .vmem, ⟨42, _⟩ => ⟨S4096x128, .bf16⟩
  | .local _ .vmem, ⟨43, _⟩ => ⟨S4096x128, .bf16⟩
  | .local _ .vmem, ⟨44, _⟩ => ⟨S4096x128, .f32⟩
  | .local _ .vmem, ⟨45, _⟩ => ⟨S1x4096, .i32⟩
  | .local _ .vmem, ⟨46, _⟩ => ⟨S1x4096, .i32⟩
  | .local _ .vmem, ⟨47, _⟩ => ⟨S4096x128, .bf16⟩
  | .local _ .vmem, ⟨48, _⟩ => ⟨S4096x128, .bf16⟩
  | .local _ .vmem, ⟨49, _⟩ => ⟨S2048x1, .f32⟩
  | .local _ .vmem, ⟨50, _⟩ => ⟨S2048x1, .f32⟩
  | .local _ .vmem, ⟨51, _⟩ => ⟨S2048x128, .f32⟩
  | .local _ .vmem, ⟨52, _⟩ => ⟨S2048x128, .f32⟩
  | .local _ .vmem, ⟨53, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_call3_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨2, ![391, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![391, 25], ![false, false]⟩

def k2_cond2 (i : grid2.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 391], ![false, false]⟩

def k3_cond2 (i : grid3.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![391, 25], ![false, false]⟩

def k4_cond2 (i : grid4.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4096x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S4096x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 391], ![false, false]⟩

def k5_cond2 (i : grid5.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  bcast_S_S1601536 : S_.BroadcastsInDim S1601536 (![] : Fin 0 → Fin S1601536.rank)
  bcast_S1601536_S1601536x1_0 : S1601536.BroadcastsInDim S1601536x1 (![0] : Fin 1 → Fin S1601536x1.rank)
  bitsLt_bf16_f32 : FTy.bits .bf16 < FTy.bits .f32
  bcast_S_S51200 : S_.BroadcastsInDim S51200 (![] : Fin 0 → Fin S51200.rank)
  shapeCasts_S51200_S51200x1 : S51200.ShapeCasts S51200x1
  pads_S50000x128_S51200x128_012000_000 : S50000x128.Pads (![0, 0] : Fin 2 → Nat) ![1200, 0] ![0, 0] S51200x128
  shapeCasts_S1601536_S1x1601536 : S1601536.ShapeCasts S1x1601536
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S2048x1_d0_w32 : S2048x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S2048x1_S2048x4096 : S2048x1.Broadcasts S2048x4096
  broadcasts_S1x4096_S2048x4096 : S1x4096.Broadcasts S2048x4096
  natLt_1_32 : 1 < 32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S4096x128_S4096x128_0_0 : (Rect.unit (s := S4096x128) ![0, 0] S4096x128.size inb_S4096x128_S4096x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  reduces_S2048x128_S2048 : S2048x128.Reduces [1] S2048
  shapeCasts_S2048_S2048x1 : S2048.ShapeCasts S2048x1
  slices_S51200x128_S50000x128_0_0 : S51200x128.Slices ![0, 0] S50000x128
  gather_S10x128_S1601536x1_S1601536x128_1_0_n_n_0_1_1128_wf : GatherDims.WF S10x128 S1601536x1 S1601536x128 [1] [0] [] [0] [] 1 ![1, 128]
  scatter_S51200_S1601536x1_S1601536_n_0_0_1_wf : ScatterDims.WF S51200 S1601536x1 S1601536 [] [0] [0] 1
  dot_S2048x4096_S2048x128_S4096x128_0_0_1_1_n_n_wf : DotDims.WF S2048x4096 S2048x128 S4096x128 [0] [0] [1] [1] [] []
  dot_S2048x4096_S4096x128_S2048x128_1_0_0_1_n_n_wf : DotDims.WF S2048x4096 S4096x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x1601536.size a
  hwx0_0 : ∀ i : grid0.Coords, EltTy.bits .i32 = 32 ∨ (Rect.block (s := S1x1601536) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .bf16 = 32 ∨ (Rect.block (s := S51200x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S1601536x128.size a
  hwx0_2 : ∀ i : grid0.Coords, EltTy.bits .bf16 = 32 ∨ (Rect.block (s := S1601536x128) S4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S1601536x128.size a
  hwx0_3 : ∀ i : grid0.Coords, EltTy.bits .bf16 = 32 ∨ (Rect.block (s := S1601536x128) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1601536.size a
  hwx1_0 : ∀ i : grid1.Coords, EltTy.bits .i32 = 32 ∨ (Rect.block (s := S1x1601536) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S1601536x128.size a
  hwx1_1 : ∀ i : grid1.Coords, EltTy.bits .bf16 = 32 ∨ (Rect.block (s := S1601536x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S51200x1.size a
  hwx1_2 : ∀ i : grid1.Coords, EltTy.bits .f32 = 32 ∨ (Rect.block (s := S51200x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S51200x128.size a
  hwx1_3 : ∀ i : grid1.Coords, EltTy.bits .f32 = 32 ∨ (Rect.block (s := S51200x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x1601536.size a
  hwx2_0 : ∀ i : grid2.Coords, EltTy.bits .i32 = 32 ∨ (Rect.block (s := S1x1601536) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .bf16 = 32 ∨ (Rect.block (s := S51200x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S1601536x128.size a
  hwx2_2 : ∀ i : grid2.Coords, EltTy.bits .bf16 = 32 ∨ (Rect.block (s := S1601536x128) S4096x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S1601536x128.size a
  hwx2_3 : ∀ i : grid2.Coords, EltTy.bits .bf16 = 32 ∨ (Rect.block (s := S1601536x128) S4096x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x1601536.size a
  hwx3_0 : ∀ i : grid3.Coords, EltTy.bits .i32 = 32 ∨ (Rect.block (s := S1x1601536) S1x4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S1601536x128.size a
  hwx3_1 : ∀ i : grid3.Coords, EltTy.bits .bf16 = 32 ∨ (Rect.block (s := S1601536x128) S4096x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S51200x1.size a
  hwx3_2 : ∀ i : grid3.Coords, EltTy.bits .f32 = 32 ∨ (Rect.block (s := S51200x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S51200x128.size a
  hwx3_3 : ∀ i : grid3.Coords, EltTy.bits .f32 = 32 ∨ (Rect.block (s := S51200x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x1601536.size a
  hwx4_0 : ∀ i : grid4.Coords, EltTy.bits .i32 = 32 ∨ (Rect.block (s := S1x1601536) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S51200x128.size a
  hwx4_1 : ∀ i : grid4.Coords, EltTy.bits .bf16 = 32 ∨ (Rect.block (s := S51200x128) S2048x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x128.size a ≤ S1601536x128.size a
  hwx4_2 : ∀ i : grid4.Coords, EltTy.bits .bf16 = 32 ∨ (Rect.block (s := S1601536x128) S4096x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S1601536x128.size a
  hwx4_3 : ∀ i : grid4.Coords, EltTy.bits .bf16 = 32 ∨ (Rect.block (s := S1601536x128) S4096x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x1601536.size a
  hwx5_0 : ∀ i : grid5.Coords, EltTy.bits .i32 = 32 ∨ (Rect.block (s := S1x1601536) S1x4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S1601536x128.size a
  hwx5_1 : ∀ i : grid5.Coords, EltTy.bits .bf16 = 32 ∨ (Rect.block (s := S1601536x128) S4096x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S51200x1.size a
  hwx5_2 : ∀ i : grid5.Coords, EltTy.bits .f32 = 32 ∨ (Rect.block (s := S51200x1) S2048x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S51200x128.size a
  hwx5_3 : ∀ i : grid5.Coords, EltTy.bits .f32 = 32 ∨ (Rect.block (s := S51200x128) S2048x128.size (cc5_transform_3 i) (hinb5_3 i)).WholeWords (EltTy.packing .f32)

variable [Facts₀]

def gather_S10x128_S1601536x1_S1601536x128_1_0_n_n_0_1_1128 : GatherDims S10x128 S1601536x1 S1601536x128 where
  offsetDims := [1]
  collapsedSliceDims := [0]
  operandBatchingDims := []
  startIndicesBatchingDims := []
  startIndexMap := [0]
  indexVectorDim := 1
  sliceSizes := ![1, 128]
  wf := gather_S10x128_S1601536x1_S1601536x128_1_0_n_n_0_1_1128_wf
def scatter_S51200_S1601536x1_S1601536_n_0_0_1 : ScatterDims S51200 S1601536x1 S1601536 where
  updateWindowDims := []
  insertedWindowDims := [0]
  scatterDimsToOperandDims := [0]
  indexVectorDim := 1
  wf := scatter_S51200_S1601536x1_S1601536_n_0_0_1_wf
def dot_S2048x4096_S2048x128_S4096x128_0_0_1_1_n_n : DotDims S2048x4096 S2048x128 S4096x128 where
  lhsContracting := [0]
  rhsContracting := [0]
  lhsNonContracting := [1]
  rhsNonContracting := [1]
  lhsBatch := []
  rhsBatch := []
  wf := dot_S2048x4096_S2048x128_S4096x128_0_0_1_1_n_n_wf
def dot_S2048x4096_S4096x128_S2048x128_1_0_0_1_n_n : DotDims S2048x4096 S4096x128 S2048x128 where
  lhsContracting := [1]
  rhsContracting := [0]
  lhsNonContracting := [0]
  rhsNonContracting := [1]
  lhsBatch := []
  rhsBatch := []
  wf := dot_S2048x4096_S4096x128_S2048x128_1_0_0_1_n_n_wf

abbrev win0_0 : Pipeline.Window sig grid0 :=
  Pipeline.Window.ofSpec (Memref.whole main_v25) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v26) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v25) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v26) S1x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v34) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v25) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16) S4096x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v26) S1x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v23) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v39) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S10x128 : Shape := ⟨2, ![10, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .i32⟩
  | .hbm, ⟨3, _⟩ => ⟨S10x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S50000x128, .f32⟩
  | .hbm, ⟨42, _⟩ => ⟨S1600000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S50000x128, .f32⟩
  | .hbm, ⟨69, _⟩ => ⟨S1600000x1, .i32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S50000x128, .f32⟩
  | .hbm, ⟨96, _⟩ => ⟨S1600000x1, .i32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000, .f32⟩
  | .hbm, ⟨103, _⟩ => ⟨S50000x1, .f32⟩
  | .hbm, ⟨104, _⟩ => ⟨S50000x1, .f32⟩
  | .hbm, ⟨105, _⟩ => ⟨S_, .f32⟩
  | .hbm, ⟨106, _⟩ => ⟨S50000x1, .f32⟩
  | .hbm, ⟨107, _⟩ => ⟨S50000x1, .f32⟩
  | .hbm, ⟨108, _⟩ => ⟨S50000x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_v0 : Ref sig .tc := ⟨.hbm, 73, rfl⟩
abbrev main_call1_cst : Ref sig .tc := ⟨.hbm, 74, rfl⟩
abbrev main_call1_v1 : Ref sig .tc := ⟨.hbm, 75, rfl⟩
abbrev main_call1_v2 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_v0 : Ref sig .tc := ⟨.hbm, 100, rfl⟩
abbrev main_call2_cst : Ref sig .tc := ⟨.hbm, 101, rfl⟩
abbrev main_call2_v1 : Ref sig .tc := ⟨.hbm, 102, rfl⟩
abbrev main_call2_v2 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S10x128_S1600000x1_S1600000x128_1_0_n_n_0_1_1128_wf : GatherDims.WF S10x128 S1600000x1 S1600000x128 [1] [0] [] [0] [] 1 ![1, 128]
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def gather_S10x128_S1600000x1_S1600000x128_1_0_n_n_0_1_1128 : GatherDims S10x128 S1600000x1 S1600000x128 where
  offsetDims := [1]
  collapsedSliceDims := [0]
  operandBatchingDims := []
  startIndicesBatchingDims := []
  startIndexMap := [0]
  indexVectorDim := 1
  sliceSizes := ![1, 128]
  wf := gather_S10x128_S1600000x1_S1600000x128_1_0_n_n_0_1_1128_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.K.R0Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := fun t h => by
  show (!(k0_cond2 (grid0.coords t) == 1#1)) = true
  rw [Bool.not_eq_true', beq_eq_false_iff_ne]; exact h
theorem noFlush0_3 : ∀ t : Fin cfg0.N, ¬cond0_1 (grid0.coords t) → (cfg0.win 3).flush t = false := fun t h =>
  Bool.eq_false_iff.mpr fun hf => h ((hcond0_1 t).mpr ((flush0_3 t).mp hf))

theorem liveAt0_3 : ∀ t : Fin cfg0.N, cond0_1 (grid0.coords t) → cfg0.idle 3 (grid0.coords t) = false := fun t h => by
  show (!(k0_cond2 (grid0.coords t) == 1#1)) = false
  rw [Bool.not_eq_false', beq_iff_eq]; exact h

abbrev VO0_3 : View sig .tc .vmem S4096x128 .bf16 := (Memref.whole cc0_stg3_0 : Memref sig .tc .vmem S4096x128 .bf16).view
abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)

abbrev scM0_0 : Memref sig .tc .vmem S4096x128 .f32 := Memref.whole cc0_scratch0
abbrev VS0_0 : View sig .tc .vmem S4096x128 .f32 := scM0_0.view

theorem scoped0_eq (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d))
          ∗ Pipeline.scopedRestBut (Ix := Unit) (Name := ℕ) (U := UR sig nD τ) (Lvl := ℕ) (Val := Elt F) spec0 c [cc0_scratch0]) := by
  rw [scopedRest0_split]; simp only [scM0_0, owns_whole]; try rfl

end Cert.Kernel.Hand

end
-- ==== Proof.K.R0RunA.lean ====
import proofs.«428098_j75917841924563_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : cond0_0 i) (hc1 : ¬cond0_1 i)
    (x0 : Vec F S1x4096 .i32) (x1 : Vec F S2048x128 .bf16) (x2 : Vec F S4096x128 .bf16) :
    { LS0 : List (View.Piece (Elt F) S4096x128 .f32) //
      ∀ (xi3 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, fun xi3 E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunB.lean ====
import proofs.«428098_j75917841924563_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : ¬cond0_0 i) (hc1 : ¬cond0_1 i)
    (x0 : Vec F S1x4096 .i32) (x1 : Vec F S2048x128 .bf16) (x2 : Vec F S4096x128 .bf16) (xs0 : Vec F S4096x128 .f32) :
    { LS0 : List (View.Piece (Elt F) S4096x128 .f32) //
      ∀ (xi3 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, fun xi3 E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunC.lean ====
import proofs.«428098_j75917841924563_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : ¬cond0_0 i) (hc1 : cond0_1 i)
    (x0 : Vec F S1x4096 .i32) (x1 : Vec F S2048x128 .bf16) (x2 : Vec F S4096x128 .bf16) (xs0 : Vec F S4096x128 .f32) :
    Σ' (L3 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, ?_, fun E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R0Dat.lean ====
import proofs.«428098_j75917841924563_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut0 : Vec F S4096x128 .bf16 := VO0_3.read (Elt F) (VO0_3.writes (Elt F) VO0_3.junk [])

section Body

variable (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

theorem scover0_A_0 (hc0 : cond0_0 i) (hc1 : ¬cond0_1 i) (x0 : Vec F S1x4096 .i32) (x1 : Vec F S2048x128 .bf16) (x2 : Vec F S4096x128 .bf16) (y : S4096x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S4096x128.size (by sl_kernel_rfl) y

def sout0_A_0 (hc0 : cond0_0 i) (hc1 : ¬cond0_1 i) (x0 : Vec F S1x4096 .i32) (x1 : Vec F S2048x128 .bf16) (x2 : Vec F S4096x128 .bf16) : Vec F S4096x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B_0 (hc0 : ¬cond0_0 i) (hc1 : ¬cond0_1 i) (x0 : Vec F S1x4096 .i32) (x1 : Vec F S2048x128 .bf16) (x2 : Vec F S4096x128 .bf16) (xs0 : Vec F S4096x128 .f32) (y : S4096x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S4096x128.size (by sl_kernel_rfl) y

def sout0_B_0 (hc0 : ¬cond0_0 i) (hc1 : ¬cond0_1 i) (x0 : Vec F S1x4096 .i32) (x1 : Vec F S2048x128 .bf16) (x2 : Vec F S4096x128 .bf16) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C_3 (hc0 : ¬cond0_0 i) (hc1 : cond0_1 i) (x0 : Vec F S1x4096 .i32) (x1 : Vec F S2048x128 .bf16) (x2 : Vec F S4096x128 .bf16) (xs0 : Vec F S4096x128 .f32) (y : S4096x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x128.size (by sl_kernel_rfl) y

def out0_C_3 (hc0 : ¬cond0_0 i) (hc1 : cond0_1 i) (x0 : Vec F S1x4096 .i32) (x1 : Vec F S2048x128 .bf16) (x2 : Vec F S4096x128 .bf16) (xs0 : Vec F S4096x128 .f32) : Vec F S4096x128 .bf16 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (hc0 : ¬cond0_0 i) (hc1 : cond0_1 i) (x0 : Vec F S1x4096 .i32) (x1 : Vec F S2048x128 .bf16) (x2 : Vec F S4096x128 .bf16) (xs0 : Vec F S4096x128 .f32) (y : S4096x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x128.size (by sl_kernel_rfl) y

def sout0_C_0 (hc0 : ¬cond0_0 i) (hc1 : cond0_1 i) (x0 : Vec F S1x4096 .i32) (x1 : Vec F S2048x128 .bf16) (x2 : Vec F S4096x128 .bf16) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 hc0 hc1 x0 x1 x2 xs0).2.1)

end Body

def outsAt0 (c : Dev nD) : (n : ℕ) → n < cfg0.N → Vec F S4096x128 .bf16 × Vec F S4096x128 .f32
  | 0, hn => (idleOut0 (F := F), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (idleOut0 (F := F), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0 (F := F), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 25 = 0) (h1 : ¬t.val % 25 = 24) :
    outsAt0 V c t.val t.isLt = (idleOut0 (F := F), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (idleOut0 (F := F), sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But0 (c : Dev nD) : sProp 𝕄 := Pipeline.scopedRestBut (Ix := Unit) (Name := ℕ) (U := UR sig nD τ) (Lvl := ℕ) (Val := Elt F) spec0 c [cc0_scratch0]

def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 V c n hn).2) ∗ But0 c)

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ But0 c) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ But0 c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 25 = 0
  · by_cases h1 : t.val % 25 = 24
    · exfalso; omega
    ·
        rw [Dat.leavesExact_idle (dat0 V c) 3 t (idleAt0_3 t (fun h => h1 ((hcond0_1 t).mp h))) (noFlush0_3 t (fun h => h1 ((hcond0_1 t).mp h)))]
        rw [outsAt0_A V c t h0 h1]
        unfold sout0_A_0; (try dsimp only)
        by_cases hz : t.val = 0
        · rw [PhiS0_castSucc V c t, PhiS0_zero V c _ _ hz, scoped0_eq]
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS0_castSucc V c t, PhiS0_pos V c _ _ hz]
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat0 V c).leavesExact 3 t = owns (c : Thread nD τ) (ms0_3 t) fullShare ((dat0 V c).after 3 t) from by
          unfold Dat.leavesExact; rw [liveAt0_3 t ((hcond0_1 t).mpr h1)], after0_3]
        rw [outsAt0_C V c t h0 h1]
        unfold out0_C_3 sout0_C_0; (try dsimp only)
        rw [PhiS0_castSucc V c t, PhiS0_pos V c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat0 V c) 3 t (idleAt0_3 t (fun h => h1 ((hcond0_1 t).mp h))) (noFlush0_3 t (fun h => h1 ((hcond0_1 t).mp h)))]
        rw [outsAt0_B V c t h0 h1]
        unfold sout0_B_0; (try dsimp only)
        rw [PhiS0_castSucc V c t, PhiS0_pos V c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.scopedRest (Ix := Unit) (Name := ℕ) (U := UR sig nD τ) (Lvl := ℕ) (Val := Elt F) spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.scopedRest (Ix := Unit) (Name := ℕ) (U := UR sig nD τ) (Lvl := ℕ) (Val := Elt F) spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 9775 := N_0; omega), scoped0_eq]
  iintro ⟨HS0, Hg⟩
  isplitl [HS0]
  · iexists _; iexact HS0
  iexact Hg

end Cert.Kernel.Hand

end
-- ==== Proof.K.R1Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 391 = 0 :=
  (by decide +kernel : ∀ t : Fin grid1.N, cond1_0 (grid1.coords t) ↔ t.val % 391 = 0)

abbrev cond1_1 (i : grid1.Coords) : Prop := k1_cond2 i = 1#1
theorem hcond1_1 : ∀ t : Fin cfg1.N, cond1_1 (grid1.coords t) ↔ t.val % 391 = 390 :=
  (by decide +kernel : ∀ t : Fin grid1.N, cond1_1 (grid1.coords t) ↔ t.val % 391 = 390)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := fun t h => by
  show (!(k1_cond2 (grid1.coords t) == 1#1)) = true
  rw [Bool.not_eq_true', beq_eq_false_iff_ne]; exact h
theorem noFlush1_3 : ∀ t : Fin cfg1.N, ¬cond1_1 (grid1.coords t) → (cfg1.win 3).flush t = false := fun t h =>
  Bool.eq_false_iff.mpr fun hf => h ((hcond1_1 t).mpr ((flush1_3 t).mp hf))

theorem liveAt1_3 : ∀ t : Fin cfg1.N, cond1_1 (grid1.coords t) → cfg1.idle 3 (grid1.coords t) = false := fun t h => by
  show (!(k1_cond2 (grid1.coords t) == 1#1)) = false
  rw [Bool.not_eq_false', beq_iff_eq]; exact h

abbrev VO1_3 : View sig .tc .vmem S2048x128 .f32 := (Memref.whole cc1_stg3_0 : Memref sig .tc .vmem S2048x128 .f32).view
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)

abbrev scM1_0 : Memref sig .tc .vmem S2048x128 .f32 := Memref.whole cc1_scratch0
abbrev VS1_0 : View sig .tc .vmem S2048x128 .f32 := scM1_0.view

theorem scoped1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d))
          ∗ Pipeline.scopedRestBut (Ix := Unit) (Name := ℕ) (U := UR sig nD τ) (Lvl := ℕ) (Val := Elt F) spec1 c [cc1_scratch0]) := by
  rw [scopedRest1_split]; simp only [scM1_0, owns_whole]; try rfl

end Cert.Kernel.Hand

end
-- ==== Proof.K.R1RunA.lean ====
import proofs.«428098_j75917841924563_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S1x4096 .i32) (x1 : Vec F S4096x128 .bf16) (x2 : Vec F S2048x1 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, fun xi3 E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
import proofs.«428098_j75917841924563_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S1x4096 .i32) (x1 : Vec F S4096x128 .bf16) (x2 : Vec F S2048x1 .f32) (xs0 : Vec F S2048x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, fun xi3 E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
import proofs.«428098_j75917841924563_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S1x4096 .i32) (x1 : Vec F S4096x128 .bf16) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, ?_, fun E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1Dat.lean ====
import proofs.«428098_j75917841924563_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut1 : Vec F S2048x128 .f32 := VO1_3.read (Elt F) (VO1_3.writes (Elt F) VO1_3.junk [])

section Body

variable (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

theorem scover1_A_0 (hc0 : cond1_0 i) (hc1 : ¬cond1_1 i) (x0 : Vec F S1x4096 .i32) (x1 : Vec F S4096x128 .bf16) (x2 : Vec F S2048x1 .f32) (y : S2048x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S2048x128.size (by sl_kernel_rfl) y

def sout1_A_0 (hc0 : cond1_0 i) (hc1 : ¬cond1_1 i) (x0 : Vec F S1x4096 .i32) (x1 : Vec F S4096x128 .bf16) (x2 : Vec F S2048x1 .f32) : Vec F S2048x128 .f32 :=
  VS1_0.read (Elt F) (VS1_0.writes (Elt F) VS1_0.junk (kernelRun1_A c i arg2 harg2 arg3 harg3 arg4 harg4 arg5 harg5 arg6 harg6 hc0 hc1 x0 x1 x2).1)

theorem scover1_B_0 (hc0 : ¬cond1_0 i) (hc1 : ¬cond1_1 i) (x0 : Vec F S1x4096 .i32) (x1 : Vec F S4096x128 .bf16) (x2 : Vec F S2048x1 .f32) (xs0 : Vec F S2048x128 .f32) (y : S2048x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S2048x128.size (by sl_kernel_rfl) y

def sout1_B_0 (hc0 : ¬cond1_0 i) (hc1 : ¬cond1_1 i) (x0 : Vec F S1x4096 .i32) (x1 : Vec F S4096x128 .bf16) (x2 : Vec F S2048x1 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).1)

theorem cover1_C_3 (hc0 : ¬cond1_0 i) (hc1 : cond1_1 i) (x0 : Vec F S1x4096 .i32) (x1 : Vec F S4096x128 .bf16) (x2 : Vec F S2048x1 .f32) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

def out1_C_3 (hc0 : ¬cond1_0 i) (hc1 : cond1_1 i) (x0 : Vec F S1x4096 .i32) (x1 : Vec F S4096x128 .bf16) (x2 : Vec F S2048x1 .f32) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C_0 (hc0 : ¬cond1_0 i) (hc1 : cond1_1 i) (x0 : Vec F S1x4096 .i32) (x1 : Vec F S4096x128 .bf16) (x2 : Vec F S2048x1 .f32) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

def sout1_C_0 (hc0 : ¬cond1_0 i) (hc1 : cond1_1 i) (x0 : Vec F S1x4096 .i32) (x1 : Vec F S4096x128 .bf16) (x2 : Vec F S2048x1 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

end Body

def outsAt1 (c : Dev nD) : (n : ℕ) → n < cfg1.N → Vec F S2048x128 .f32 × Vec F S2048x128 .f32
  | 0, hn => (idleOut1 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 391 = 0 then
      if h1 : (n + 1) % 391 = 390 then
        False.elim (by omega)
      else
        (idleOut1 (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 391 = 390 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 391 = 0) (h1 : ¬t.val % 391 = 390) :
    outsAt1 V c t.val t.isLt = (idleOut1 (F := F), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = (idleOut1 (F := F), sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But1 (c : Dev nD) : sProp 𝕄 := Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1_0 fullShare ((outsAt1 V c n hn).2) ∗ But1 c)

theorem PhiS1_zero (c : Dev nD) (n : ℕ) (h : n ≤ cfg1.N) (hz : n = 0) :
    PhiS1 V c n h = Pipeline.scopedRest (Ix := Unit) (Name := ℕ) (U := UR sig nD τ) (Lvl := ℕ) (Val := Elt F) spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ But1 c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ But1 c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 391 = 0
  · by_cases h1 : t.val % 391 = 390
    · exfalso; omega
    ·
        rw [Dat.leavesExact_idle (dat1 V c) 3 t (idleAt1_3 t (fun h => h1 ((hcond1_1 t).mp h))) (noFlush1_3 t (fun h => h1 ((hcond1_1 t).mp h)))]
        rw [outsAt1_A V c t h0 h1]
        unfold sout1_A_0; (try dsimp only)
        by_cases hz : t.val = 0
        · rw [PhiS1_castSucc V c t, PhiS1_zero V c _ _ hz, scoped1_eq]
          iintro ⟨⟨HS0, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS1_castSucc V c t, PhiS1_pos V c _ _ hz]
          iintro ⟨⟨HS0, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat1 V c).leavesExact 3 t = owns (c : Thread nD τ) (ms1_3 t) fullShare ((dat1 V c).after 3 t) from by
          unfold Dat.leavesExact; rw [liveAt1_3 t ((hcond1_1 t).mpr h1)], after1_3]
        rw [outsAt1_C V c t h0 h1]
        unfold out1_C_3 sout1_C_0; (try dsimp only)
        rw [PhiS1_castSucc V c t, PhiS1_pos V c _ _ hz]
        iintro ⟨⟨HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat1 V c) 3 t (idleAt1_3 t (fun h => h1 ((hcond1_1 t).mp h))) (noFlush1_3 t (fun h => h1 ((hcond1_1 t).mp h)))]
        rw [outsAt1_B V c t h0 h1]
        unfold sout1_B_0; (try dsimp only)
        rw [PhiS1_castSucc V c t, PhiS1_pos V c _ _ hz]
        iintro ⟨⟨HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.scopedRest (Ix := Unit) (Name := ℕ) (U := UR sig nD τ) (Lvl := ℕ) (Val := Elt F) spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.scopedRest (Ix := Unit) (Name := ℕ) (U := UR sig nD τ) (Lvl := ℕ) (Val := Elt F) spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9775 := N_1; omega), scoped1_eq]
  iintro ⟨HS0, Hg⟩
  isplitl [HS0]
  · iexists _; iexact HS0
  iexact Hg

end Cert.Kernel.Hand

end
-- ==== Proof.K.R2Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3 : ∀ t : Fin cfg2.N, ¬cond2_1 (grid2.coords t) → cfg2.idle 3 (grid2.coords t) = true := fun t h => by
  show (!(k2_cond2 (grid2.coords t) == 1#1)) = true
  rw [Bool.not_eq_true', beq_eq_false_iff_ne]; exact h
theorem noFlush2_3 : ∀ t : Fin cfg2.N, ¬cond2_1 (grid2.coords t) → (cfg2.win 3).flush t = false := fun t h =>
  Bool.eq_false_iff.mpr fun hf => h ((hcond2_1 t).mpr ((flush2_3 t).mp hf))

theorem liveAt2_3 : ∀ t : Fin cfg2.N, cond2_1 (grid2.coords t) → cfg2.idle 3 (grid2.coords t) = false := fun t h => by
  show (!(k2_cond2 (grid2.coords t) == 1#1)) = false
  rw [Bool.not_eq_false', beq_iff_eq]; exact h

abbrev VO2_3 : View sig .tc .vmem S4096x128 .bf16 := (Memref.whole cc2_stg3_0 : Memref sig .tc .vmem S4096x128 .bf16).view
abbrev ms2_0 (t : Fin cfg2.N) : Memref sig .tc .vmem S1x4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .bf16 := win2_3.stage (cfg2.slots t 3)
abbrev hs2_3 (t : Fin cfg2.N) : (ms2_3 t).IsWhole := hstage2_3 ((cfg2.slots t 3).cast nbuf2_3)

abbrev scM2_0 : Memref sig .tc .vmem S4096x128 .f32 := Memref.whole cc2_scratch0
abbrev VS2_0 : View sig .tc .vmem S4096x128 .f32 := scM2_0.view

theorem scoped2_eq (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d))
          ∗ Pipeline.scopedRestBut (Ix := Unit) (Name := ℕ) (U := UR sig nD τ) (Lvl := ℕ) (Val := Elt F) spec2 c [cc2_scratch0]) := by
  rw [scopedRest2_split]; simp only [scM2_0, owns_whole]; try rfl

end Cert.Kernel.Hand

end
-- ==== Proof.K.R2Dat.lean ====
import proofs.«428098_j75917841924563_1_alg».proof.Proof.K.R2Runs
import proofs.«428098_j75917841924563_1_alg».proof.Proof.K.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut2 : Vec F S4096x128 .bf16 := VO2_3.read (Elt F) (VO2_3.writes (Elt F) VO2_3.junk [])

section Body

variable (c : Dev nD) (i : grid2.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

def sout2_A_0 (hc0 : cond2_0 i) (hc1 : ¬cond2_1 i) (x0 : Vec F S1x4096 .i32) (x1 : Vec F S2048x128 .bf16) (x2 : Vec F S4096x128 .bf16) : Vec F S4096x128 .f32 :=
  VS2_0.read (Elt F) (VS2_0.writes (Elt F) VS2_0.junk (kernelRun0_A c i arg2 harg2 arg3 harg3 arg4 harg4 arg5 harg5 arg6 harg6 hc0 hc1 x0 x1 x2).1)

def sout2_B_0 (hc0 : ¬cond2_0 i) (hc1 : ¬cond2_1 i) (x0 : Vec F S1x4096 .i32) (x1 : Vec F S2048x128 .bf16) (x2 : Vec F S4096x128 .bf16) (xs0 : Vec F S4096x128 .f32) : Vec F S4096x128 .f32 :=
  VS2_0.read (Elt F) (VS2_0.writes (Elt F) VS2_0.junk (kernelRun0_B c i arg2 harg2 arg3 harg3 arg4 harg4 arg5 harg5 arg6 harg6 hc0 hc1 x0 x1 x2 xs0).1)

def out2_C_3 (hc0 : ¬cond2_0 i) (hc1 : cond2_1 i) (x0 : Vec F S1x4096 .i32) (x1 : Vec F S2048x128 .bf16) (x2 : Vec F S4096x128 .bf16) (xs0 : Vec F S4096x128 .f32) : Vec F S4096x128 .bf16 :=
  VO2_3.read (Elt F) (VO2_3.writes (Elt F) VO2_3.junk (kernelRun0_C c i arg2 harg2 arg3 harg3 arg4 harg4 arg5 harg5 arg6 harg6 hc0 hc1 x0 x1 x2 xs0).1)
def sout2_C_0 (hc0 : ¬cond2_0 i) (hc1 : cond2_1 i) (x0 : Vec F S1x4096 .i32) (x1 : Vec F S2048x128 .bf16) (x2 : Vec F S4096x128 .bf16) (xs0 : Vec F S4096x128 .f32) : Vec F S4096x128 .f32 :=
  VS2_0.read (Elt F) (VS2_0.writes (Elt F) VS2_0.junk (kernelRun0_C c i arg2 harg2 arg3 harg3 arg4 harg4 arg5 harg5 arg6 harg6 hc0 hc1 x0 x1 x2 xs0).2.1)

end Body

def outsAt2 (c : Dev nD) : (n : ℕ) → n < cfg2.N → Vec F S4096x128 .bf16 × Vec F S4096x128 .f32
  | 0, hn => (idleOut2 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 25 = 0 then
      if h1 : (n + 1) % 25 = 24 then
        False.elim (by omega)
      else
        (idleOut2 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 25 = 24 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 25 = 0) (h1 : ¬t.val % 25 = 24) :
    outsAt2 V c t.val t.isLt = (idleOut2 (F := F), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 25 = 0) (h1 : ¬t.val % 25 = 24) :
    outsAt2 V c t.val t.isLt = (idleOut2 (F := F), sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 25 = 0) (h1 : t.val % 25 = 24) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But2 (c : Dev nD) : sProp 𝕄 := Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM2_0 fullShare ((outsAt2 V c n hn).2) ∗ But2 c)

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ But2 c) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ But2 c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 25 = 0
  · by_cases h1 : t.val % 25 = 24
    · exfalso; omega
    ·
        rw [Dat.leavesExact_idle (dat2 V c) 3 t (idleAt2_3 t (fun h => h1 ((hcond2_1 t).mp h))) (noFlush2_3 t (fun h => h1 ((hcond2_1 t).mp h)))]
        rw [outsAt2_A V c t h0 h1]
        unfold sout2_A_0; (try dsimp only)
        by_cases hz : t.val = 0
        · rw [PhiS2_castSucc V c t, PhiS2_zero V c _ _ hz, scoped2_eq]
          iintro ⟨⟨HS0, Hg⟩, Ho, ⟨%d0, H0⟩, ⟨%d1, H1⟩, ⟨%d2, H2⟩, ⟨%d3, H3⟩⟩
          iapply ((kernelRun0_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS2_castSucc V c t, PhiS2_pos V c _ _ hz]
          iintro ⟨⟨HS0, Hg⟩, Ho, ⟨%d0, H0⟩, ⟨%d1, H1⟩, ⟨%d2, H2⟩, ⟨%d3, H3⟩⟩
          iapply ((kernelRun0_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat2 V c).leavesExact 3 t = owns (c : Thread nD τ) (ms2_3 t) fullShare ((dat2 V c).after 3 t) from by
          unfold Dat.leavesExact; rw [liveAt2_3 t ((hcond2_1 t).mpr h1)], after2_3]
        rw [outsAt2_C V c t h0 h1]
        unfold out2_C_3 sout2_C_0; (try dsimp only)
        rw [PhiS2_castSucc V c t, PhiS2_pos V c _ _ hz]
        iintro ⟨⟨HS0, Hg⟩, Ho, ⟨%d0, H0⟩, ⟨%d1, H1⟩, ⟨%d2, H2⟩, ⟨%d3, H3⟩⟩
        iapply ((kernelRun0_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat2 V c) 3 t (idleAt2_3 t (fun h => h1 ((hcond2_1 t).mp h))) (noFlush2_3 t (fun h => h1 ((hcond2_1 t).mp h)))]
        rw [outsAt2_B V c t h0 h1]
        unfold sout2_B_0; (try dsimp only)
        rw [PhiS2_castSucc V c t, PhiS2_pos V c _ _ hz]
        iintro ⟨⟨HS0, Hg⟩, Ho, ⟨%d0, H0⟩, ⟨%d1, H1⟩, ⟨%d2, H2⟩, ⟨%d3, H3⟩⟩
        iapply ((kernelRun0_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.scopedRest (Ix := Unit) (Name := ℕ) (U := UR sig nD τ) (Lvl := ℕ) (Val := Elt F) spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.scopedRest (Ix := Unit) (Name := ℕ) (U := UR sig nD τ) (Lvl := ℕ) (Val := Elt F) spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 9775 := N_2; omega), scoped2_eq]
  iintro ⟨HS0, Hg⟩
  isplitl [HS0]
  · iexists _; iexact HS0
  iexact Hg

end Cert.Kernel.Hand

end
-- ==== Proof.K.R3Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 391 = 0 :=
  (by decide +kernel : ∀ t : Fin grid3.N, cond3_0 (grid3.coords t) ↔ t.val % 391 = 0)

abbrev cond3_1 (i : grid3.Coords) : Prop := k3_cond2 i = 1#1
theorem hcond3_1 : ∀ t : Fin cfg3.N, cond3_1 (grid3.coords t) ↔ t.val % 391 = 390 :=
  (by decide +kernel : ∀ t : Fin grid3.N, cond3_1 (grid3.coords t) ↔ t.val % 391 = 390)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := fun t h => by
  show (!(k3_cond2 (grid3.coords t) == 1#1)) = true
  rw [Bool.not_eq_true', beq_eq_false_iff_ne]; exact h
theorem noFlush3_3 : ∀ t : Fin cfg3.N, ¬cond3_1 (grid3.coords t) → (cfg3.win 3).flush t = false := fun t h =>
  Bool.eq_false_iff.mpr fun hf => h ((hcond3_1 t).mpr ((flush3_3 t).mp hf))

theorem liveAt3_3 : ∀ t : Fin cfg3.N, cond3_1 (grid3.coords t) → cfg3.idle 3 (grid3.coords t) = false := fun t h => by
  show (!(k3_cond2 (grid3.coords t) == 1#1)) = false
  rw [Bool.not_eq_false', beq_iff_eq]; exact h

abbrev VO3_3 : View sig .tc .vmem S2048x128 .f32 := (Memref.whole cc3_stg3_0 : Memref sig .tc .vmem S2048x128 .f32).view
abbrev ms3_0 (t : Fin cfg3.N) : Memref sig .tc .vmem S1x4096 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)

abbrev scM3_0 : Memref sig .tc .vmem S2048x128 .f32 := Memref.whole cc3_scratch0
abbrev VS3_0 : View sig .tc .vmem S2048x128 .f32 := scM3_0.view

theorem scoped3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d))
          ∗ Pipeline.scopedRestBut (Ix := Unit) (Name := ℕ) (U := UR sig nD τ) (Lvl := ℕ) (Val := Elt F) spec3 c [cc3_scratch0]) := by
  rw [scopedRest3_split]; simp only [scM3_0, owns_whole]; try rfl

end Cert.Kernel.Hand

end
-- ==== Proof.K.R3Dat.lean ====
import proofs.«428098_j75917841924563_1_alg».proof.Proof.K.R3Runs
import proofs.«428098_j75917841924563_1_alg».proof.Proof.K.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut3 : Vec F S2048x128 .f32 := VO3_3.read (Elt F) (VO3_3.writes (Elt F) VO3_3.junk [])

section Body

variable (c : Dev nD) (i : grid3.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

def sout3_A_0 (hc0 : cond3_0 i) (hc1 : ¬cond3_1 i) (x0 : Vec F S1x4096 .i32) (x1 : Vec F S4096x128 .bf16) (x2 : Vec F S2048x1 .f32) : Vec F S2048x128 .f32 :=
  VS3_0.read (Elt F) (VS3_0.writes (Elt F) VS3_0.junk (kernelRun1_A c i arg2 harg2 arg3 harg3 arg4 harg4 arg5 harg5 arg6 harg6 hc0 hc1 x0 x1 x2).1)

def sout3_B_0 (hc0 : ¬cond3_0 i) (hc1 : ¬cond3_1 i) (x0 : Vec F S1x4096 .i32) (x1 : Vec F S4096x128 .bf16) (x2 : Vec F S2048x1 .f32) (xs0 : Vec F S2048x128 .f32) : Vec F S2048x128 .f32 :=
  VS3_0.read (Elt F) (VS3_0.writes (Elt F) VS3_0.junk (kernelRun1_B c i arg2 harg2 arg3 harg3 arg4 harg4 arg5 harg5 arg6 harg6 hc0 hc1 x0 x1 x2 xs0).1)

def out3_C_3 (hc0 : ¬cond3_0 i) (hc1 : cond3_1 i) (x0 : Vec F S1x4096 .i32) (x1 : Vec F S4096x128 .bf16) (x2 : Vec F S2048x1 .f32) (xs0 : Vec F S2048x128 .f32) : Vec F S2048x128 .f32 :=
  VO3_3.read (Elt F) (VO3_3.writes (Elt F) VO3_3.junk (kernelRun1_C c i arg2 harg2 arg3 harg3 arg4 harg4 arg5 harg5 arg6 harg6 hc0 hc1 x0 x1 x2 xs0).1)
def sout3_C_0 (hc0 : ¬cond3_0 i) (hc1 : cond3_1 i) (x0 : Vec F S1x4096 .i32) (x1 : Vec F S4096x128 .bf16) (x2 : Vec F S2048x1 .f32) (xs0 : Vec F S2048x128 .f32) : Vec F S2048x128 .f32 :=
  VS3_0.read (Elt F) (VS3_0.writes (Elt F) VS3_0.junk (kernelRun1_C c i arg2 harg2 arg3 harg3 arg4 harg4 arg5 harg5 arg6 harg6 hc0 hc1 x0 x1 x2 xs0).2.1)

end Body

def outsAt3 (c : Dev nD) : (n : ℕ) → n < cfg3.N → Vec F S2048x128 .f32 × Vec F S2048x128 .f32
  | 0, hn => (idleOut3 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 391 = 0 then
      if h1 : (n + 1) % 391 = 390 then
        False.elim (by omega)
      else
        (idleOut3 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 391 = 390 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idleOut3 (F := F), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 391 = 0) (h1 : ¬t.val % 391 = 390) :
    outsAt3 V c t.val t.isLt = (idleOut3 (F := F), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 391 = 0) (h1 : ¬t.val % 391 = 390) :
    outsAt3 V c t.val t.isLt = (idleOut3 (F := F), sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 391 = 0) (h1 : t.val % 391 = 390) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But3 (c : Dev nD) : sProp 𝕄 := Pipeline.scopedRestBut (Ix := Unit) (Name := ℕ) (U := UR sig nD τ) (Lvl := ℕ) (Val := Elt F) spec3 c [cc3_scratch0]

def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM3_0 fullShare ((outsAt3 V c n hn).2) ∗ But3 c)

theorem PhiS3_zero (c : Dev nD) (n : ℕ) (h : n ≤ cfg3.N) (hz : n = 0) :
    PhiS3 V c n h = Pipeline.scopedRest (Ix := Unit) (Name := ℕ) (U := UR sig nD τ) (Lvl := ℕ) (Val := Elt F) spec3 c := by
  subst hz; rfl
theorem PhiS3_succ (c : Dev nD) (n : ℕ) (hn : n < cfg3.N) :
    PhiS3 V c (n + 1) hn = iprop(owns (c : Thread nD τ) scM3_0 fullShare ((outsAt3 V c n hn).2) ∗ But3 c) := rfl
theorem PhiS3_pos (c : Dev nD) (n : ℕ) (h : n ≤ cfg3.N) (hz : n ≠ 0) :
    PhiS3 V c n h = iprop(owns (c : Thread nD τ) scM3_0 fullShare ((outsAt3 V c (n - 1) (by omega)).2) ∗ But3 c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 391 = 0
  · by_cases h1 : t.val % 391 = 390
    · exfalso; omega
    ·
        rw [Dat.leavesExact_idle (dat3 V c) 3 t (idleAt3_3 t (fun h => h1 ((hcond3_1 t).mp h))) (noFlush3_3 t (fun h => h1 ((hcond3_1 t).mp h)))]
        rw [outsAt3_A V c t h0 h1]
        unfold sout3_A_0; (try dsimp only)
        by_cases hz : t.val = 0
        · rw [PhiS3_castSucc V c t, PhiS3_zero V c _ _ hz, scoped3_eq]
          iintro ⟨⟨HS0, Hg⟩, Ho, ⟨%d0, H0⟩, ⟨%d1, H1⟩, ⟨%d2, H2⟩, ⟨%d3, H3⟩⟩
          iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS3_castSucc V c t, PhiS3_pos V c _ _ hz]
          iintro ⟨⟨HS0, Hg⟩, Ho, ⟨%d0, H0⟩, ⟨%d1, H1⟩, ⟨%d2, H2⟩, ⟨%d3, H3⟩⟩
          iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat3 V c).leavesExact 3 t = owns (c : Thread nD τ) (ms3_3 t) fullShare ((dat3 V c).after 3 t) from by
          unfold Dat.leavesExact; rw [liveAt3_3 t ((hcond3_1 t).mpr h1)], after3_3]
        rw [outsAt3_C V c t h0 h1]
        unfold out3_C_3 sout3_C_0; (try dsimp only)
        rw [PhiS3_castSucc V c t, PhiS3_pos V c _ _ hz]
        iintro ⟨⟨HS0, Hg⟩, Ho, ⟨%d0, H0⟩, ⟨%d1, H1⟩, ⟨%d2, H2⟩, ⟨%d3, H3⟩⟩
        iapply ((kernelRun1_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat3 V c) 3 t (idleAt3_3 t (fun h => h1 ((hcond3_1 t).mp h))) (noFlush3_3 t (fun h => h1 ((hcond3_1 t).mp h)))]
        rw [outsAt3_B V c t h0 h1]
        unfold sout3_B_0; (try dsimp only)
        rw [PhiS3_castSucc V c t, PhiS3_pos V c _ _ hz]
        iintro ⟨⟨HS0, Hg⟩, Ho, ⟨%d0, H0⟩, ⟨%d1, H1⟩, ⟨%d2, H2⟩, ⟨%d3, H3⟩⟩
        iapply ((kernelRun1_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.scopedRest (Ix := Unit) (Name := ℕ) (U := UR sig nD τ) (Lvl := ℕ) (Val := Elt F) spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.scopedRest (Ix := Unit) (Name := ℕ) (U := UR sig nD τ) (Lvl := ℕ) (Val := Elt F) spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 9775 := N_3; omega), scoped3_eq]
  iintro ⟨HS0, Hg⟩
  isplitl [HS0]
  · iexists _; iexact HS0
  iexact Hg

end Cert.Kernel.Hand

end
-- ==== Proof.K.R4Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3 : ∀ t : Fin cfg4.N, ¬cond4_1 (grid4.coords t) → cfg4.idle 3 (grid4.coords t) = true := fun t h => by
  show (!(k4_cond2 (grid4.coords t) == 1#1)) = true
  rw [Bool.not_eq_true', beq_eq_false_iff_ne]; exact h
theorem noFlush4_3 : ∀ t : Fin cfg4.N, ¬cond4_1 (grid4.coords t) → (cfg4.win 3).flush t = false := fun t h =>
  Bool.eq_false_iff.mpr fun hf => h ((hcond4_1 t).mpr ((flush4_3 t).mp hf))

theorem liveAt4_3 : ∀ t : Fin cfg4.N, cond4_1 (grid4.coords t) → cfg4.idle 3 (grid4.coords t) = false := fun t h => by
  show (!(k4_cond2 (grid4.coords t) == 1#1)) = false
  rw [Bool.not_eq_false', beq_iff_eq]; exact h

abbrev VO4_3 : View sig .tc .vmem S4096x128 .bf16 := (Memref.whole cc4_stg3_0 : Memref sig .tc .vmem S4096x128 .bf16).view
abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x128 .bf16 := win4_3.stage (cfg4.slots t 3)
abbrev hs4_3 (t : Fin cfg4.N) : (ms4_3 t).IsWhole := hstage4_3 ((cfg4.slots t 3).cast nbuf4_3)

abbrev scM4_0 : Memref sig .tc .vmem S4096x128 .f32 := Memref.whole cc4_scratch0
abbrev VS4_0 : View sig .tc .vmem S4096x128 .f32 := scM4_0.view

theorem scoped4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d))
          ∗ Pipeline.scopedRestBut (Ix := Unit) (Name := ℕ) (U := UR sig nD τ) (Lvl := ℕ) (Val := Elt F) spec4 c [cc4_scratch0]) := by
  rw [scopedRest4_split]; simp only [scM4_0, owns_whole]; try rfl

end Cert.Kernel.Hand

end
-- ==== Proof.K.R4Dat.lean ====
import proofs.«428098_j75917841924563_1_alg».proof.Proof.K.R4Runs
import proofs.«428098_j75917841924563_1_alg».proof.Proof.K.R0Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut4 : Vec F S4096x128 .bf16 := VO4_3.read (Elt F) (VO4_3.writes (Elt F) VO4_3.junk [])

section Body

variable (c : Dev nD) (i : grid4.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

def sout4_A_0 (hc0 : cond4_0 i) (hc1 : ¬cond4_1 i) (x0 : Vec F S1x4096 .i32) (x1 : Vec F S2048x128 .bf16) (x2 : Vec F S4096x128 .bf16) : Vec F S4096x128 .f32 :=
  VS4_0.read (Elt F) (VS4_0.writes (Elt F) VS4_0.junk (kernelRun0_A c i arg2 harg2 arg3 harg3 arg4 harg4 arg5 harg5 arg6 harg6 hc0 hc1 x0 x1 x2).1)

def sout4_B_0 (hc0 : ¬cond4_0 i) (hc1 : ¬cond4_1 i) (x0 : Vec F S1x4096 .i32) (x1 : Vec F S2048x128 .bf16) (x2 : Vec F S4096x128 .bf16) (xs0 : Vec F S4096x128 .f32) : Vec F S4096x128 .f32 :=
  VS4_0.read (Elt F) (VS4_0.writes (Elt F) VS4_0.junk (kernelRun0_B c i arg2 harg2 arg3 harg3 arg4 harg4 arg5 harg5 arg6 harg6 hc0 hc1 x0 x1 x2 xs0).1)

def out4_C_3 (hc0 : ¬cond4_0 i) (hc1 : cond4_1 i) (x0 : Vec F S1x4096 .i32) (x1 : Vec F S2048x128 .bf16) (x2 : Vec F S4096x128 .bf16) (xs0 : Vec F S4096x128 .f32) : Vec F S4096x128 .bf16 :=
  VO4_3.read (Elt F) (VO4_3.writes (Elt F) VO4_3.junk (kernelRun0_C c i arg2 harg2 arg3 harg3 arg4 harg4 arg5 harg5 arg6 harg6 hc0 hc1 x0 x1 x2 xs0).1)
def sout4_C_0 (hc0 : ¬cond4_0 i) (hc1 : cond4_1 i) (x0 : Vec F S1x4096 .i32) (x1 : Vec F S2048x128 .bf16) (x2 : Vec F S4096x128 .bf16) (xs0 : Vec F S4096x128 .f32) : Vec F S4096x128 .f32 :=
  VS4_0.read (Elt F) (VS4_0.writes (Elt F) VS4_0.junk (kernelRun0_C c i arg2 harg2 arg3 harg3 arg4 harg4 arg5 harg5 arg6 harg6 hc0 hc1 x0 x1 x2 xs0).2.1)

end Body

def outsAt4 (c : Dev nD) : (n : ℕ) → n < cfg4.N → Vec F S4096x128 .bf16 × Vec F S4096x128 .f32
  | 0, hn => (idleOut4 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 25 = 0 then
      if h1 : (n + 1) % 25 = 24 then
        False.elim (by omega)
      else
        (idleOut4 (F := F), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 25 = 24 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (idleOut4 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 25 = 0) (h1 : ¬t.val % 25 = 24) :
    outsAt4 V c t.val t.isLt = (idleOut4 (F := F), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = (idleOut4 (F := F), sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 25 = 0) (h1 : t.val % 25 = 24) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But4 (c : Dev nD) : sProp 𝕄 := Pipeline.scopedRestBut (Ix := Unit) (Name := ℕ) (U := UR sig nD τ) (Lvl := ℕ) (Val := Elt F) spec4 c [cc4_scratch0]

def PhiS4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4_0 fullShare ((outsAt4 V c n hn).2) ∗ But4 c)

theorem PhiS4_zero (c : Dev nD) (n : ℕ) (h : n ≤ cfg4.N) (hz : n = 0) :
    PhiS4 V c n h = Pipeline.scopedRest (Ix := Unit) (Name := ℕ) (U := UR sig nD τ) (Lvl := ℕ) (Val := Elt F) spec4 c := by
  subst hz; rfl
theorem PhiS4_succ (c : Dev nD) (n : ℕ) (hn : n < cfg4.N) :
    PhiS4 V c (n + 1) hn = iprop(owns (c : Thread nD τ) scM4_0 fullShare ((outsAt4 V c n hn).2) ∗ But4 c) := rfl
theorem PhiS4_pos (c : Dev nD) (n : ℕ) (h : n ≤ cfg4.N) (hz : n ≠ 0) :
    PhiS4 V c n h = iprop(owns (c : Thread nD τ) scM4_0 fullShare ((outsAt4 V c (n - 1) (by omega)).2) ∗ But4 c) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · by_cases h1 : t.val % 25 = 24
    · exfalso; omega
    ·
        rw [Dat.leavesExact_idle (dat4 V c) 3 t (idleAt4_3 t (fun h => h1 ((hcond4_1 t).mp h))) (noFlush4_3 t (fun h => h1 ((hcond4_1 t).mp h)))]
        rw [outsAt4_A V c t h0 h1]
        unfold sout4_A_0; (try dsimp only)
        by_cases hz : t.val = 0
        · rw [PhiS4_castSucc V c t, PhiS4_zero V c _ _ hz, scoped4_eq]
          iintro ⟨⟨HS0, Hg⟩, Ho, ⟨%d0, H0⟩, ⟨%d1, H1⟩, ⟨%d2, H2⟩, ⟨%d3, H3⟩⟩
          iapply ((kernelRun0_A c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS4_castSucc V c t, PhiS4_pos V c _ _ hz]
          iintro ⟨⟨HS0, Hg⟩, Ho, ⟨%d0, H0⟩, ⟨%d1, H1⟩, ⟨%d2, H2⟩, ⟨%d3, H3⟩⟩
          iapply ((kernelRun0_A c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat4 V c).leavesExact 3 t = owns (c : Thread nD τ) (ms4_3 t) fullShare ((dat4 V c).after 3 t) from by
          unfold Dat.leavesExact; rw [liveAt4_3 t ((hcond4_1 t).mpr h1)], after4_3]
        rw [outsAt4_C V c t h0 h1]
        unfold out4_C_3 sout4_C_0; (try dsimp only)
        rw [PhiS4_castSucc V c t, PhiS4_pos V c _ _ hz]
        iintro ⟨⟨HS0, Hg⟩, Ho, ⟨%d0, H0⟩, ⟨%d1, H1⟩, ⟨%d2, H2⟩, ⟨%d3, H3⟩⟩
        iapply ((kernelRun0_C c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat4 V c) 3 t (idleAt4_3 t (fun h => h1 ((hcond4_1 t).mp h))) (noFlush4_3 t (fun h => h1 ((hcond4_1 t).mp h)))]
        rw [outsAt4_B V c t h0 h1]
        unfold sout4_B_0; (try dsimp only)
        rw [PhiS4_castSucc V c t, PhiS4_pos V c _ _ hz]
        iintro ⟨⟨HS0, Hg⟩, Ho, ⟨%d0, H0⟩, ⟨%d1, H1⟩, ⟨%d2, H2⟩, ⟨%d3, H3⟩⟩
        iapply ((kernelRun0_B c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.scopedRest (Ix := Unit) (Name := ℕ) (U := UR sig nD τ) (Lvl := ℕ) (Val := Elt F) spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.scopedRest (Ix := Unit) (Name := ℕ) (U := UR sig nD τ) (Lvl := ℕ) (Val := Elt F) spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 9775 := N_4; omega), scoped4_eq]
  iintro ⟨HS0, Hg⟩
  isplitl [HS0]
  · iexists _; iexact HS0
  iexact Hg

end Cert.Kernel.Hand

end
-- ==== Proof.K.R5Runs.lean ====
import proofs.«428098_j75917841924563_1_alg».proof.Proof.Gen.Kernel.Launch
import proofs.«428098_j75917841924563_1_alg».proof.Proof.Gen.Kernel.Skeleton
import proofs.«428098_j75917841924563_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 391 = 0 :=
  (by decide +kernel : ∀ t : Fin grid5.N, cond5_0 (grid5.coords t) ↔ t.val % 391 = 0)

abbrev cond5_1 (i : grid5.Coords) : Prop := k5_cond2 i = 1#1
theorem hcond5_1 : ∀ t : Fin cfg5.N, cond5_1 (grid5.coords t) ↔ t.val % 391 = 390 :=
  (by decide +kernel : ∀ t : Fin grid5.N, cond5_1 (grid5.coords t) ↔ t.val % 391 = 390)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

theorem idleAt5_3 : ∀ t : Fin cfg5.N, ¬cond5_1 (grid5.coords t) → cfg5.idle 3 (grid5.coords t) = true := fun t h => by
  show (!(k5_cond2 (grid5.coords t) == 1#1)) = true
  rw [Bool.not_eq_true', beq_eq_false_iff_ne]; exact h
theorem noFlush5_3 : ∀ t : Fin cfg5.N, ¬cond5_1 (grid5.coords t) → (cfg5.win 3).flush t = false := fun t h =>
  Bool.eq_false_iff.mpr fun hf => h ((hcond5_1 t).mpr ((flush5_3 t).mp hf))

theorem liveAt5_3 : ∀ t : Fin cfg5.N, cond5_1 (grid5.coords t) → cfg5.idle 3 (grid5.coords t) = false := fun t h => by
  show (!(k5_cond2 (grid5.coords t) == 1#1)) = false
  rw [Bool.not_eq_false', beq_iff_eq]; exact h

abbrev VO5_3 : View sig .tc .vmem S2048x128 .f32 := (Memref.whole cc5_stg3_0 : Memref sig .tc .vmem S2048x128 .f32).view
abbrev ms5_0 (t : Fin cfg5.N) : Memref sig .tc .vmem S1x4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)

abbrev scM5_0 : Memref sig .tc .vmem S2048x128 .f32 := Memref.whole cc5_scratch0
abbrev VS5_0 : View sig .tc .vmem S2048x128 .f32 := scM5_0.view

theorem scoped5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d))
          ∗ Pipeline.scopedRestBut (Ix := Unit) (Name := ℕ) (U := UR sig nD τ) (Lvl := ℕ) (Val := Elt F) spec5 c [cc5_scratch0]) := by
  rw [scopedRest5_split]; simp only [scM5_0, owns_whole]; try rfl

end Cert.Kernel.Hand

end
-- ==== Proof.K.R5Dat.lean ====
import proofs.«428098_j75917841924563_1_alg».proof.Proof.K.R5Runs
import proofs.«428098_j75917841924563_1_alg».proof.Proof.K.R1Dat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut5 : Vec F S2048x128 .f32 := VO5_3.read (Elt F) (VO5_3.writes (Elt F) VO5_3.junk [])

section Body

variable (c : Dev nD) (i : grid5.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

def sout5_A_0 (hc0 : cond5_0 i) (hc1 : ¬cond5_1 i) (x0 : Vec F S1x4096 .i32) (x1 : Vec F S4096x128 .bf16) (x2 : Vec F S2048x1 .f32) : Vec F S2048x128 .f32 :=
  VS5_0.read (Elt F) (VS5_0.writes (Elt F) VS5_0.junk (kernelRun1_A c i arg2 harg2 arg3 harg3 arg4 harg4 arg5 harg5 arg6 harg6 hc0 hc1 x0 x1 x2).1)

def sout5_B_0 (hc0 : ¬cond5_0 i) (hc1 : ¬cond5_1 i) (x0 : Vec F S1x4096 .i32) (x1 : Vec F S4096x128 .bf16) (x2 : Vec F S2048x1 .f32) (xs0 : Vec F S2048x128 .f32) : Vec F S2048x128 .f32 :=
  VS5_0.read (Elt F) (VS5_0.writes (Elt F) VS5_0.junk (kernelRun1_B c i arg2 harg2 arg3 harg3 arg4 harg4 arg5 harg5 arg6 harg6 hc0 hc1 x0 x1 x2 xs0).1)

def out5_C_3 (hc0 : ¬cond5_0 i) (hc1 : cond5_1 i) (x0 : Vec F S1x4096 .i32) (x1 : Vec F S4096x128 .bf16) (x2 : Vec F S2048x1 .f32) (xs0 : Vec F S2048x128 .f32) : Vec F S2048x128 .f32 :=
  VO5_3.read (Elt F) (VO5_3.writes (Elt F) VO5_3.junk (kernelRun1_C c i arg2 harg2 arg3 harg3 arg4 harg4 arg5 harg5 arg6 harg6 hc0 hc1 x0 x1 x2 xs0).1)
def sout5_C_0 (hc0 : ¬cond5_0 i) (hc1 : cond5_1 i) (x0 : Vec F S1x4096 .i32) (x1 : Vec F S4096x128 .bf16) (x2 : Vec F S2048x1 .f32) (xs0 : Vec F S2048x128 .f32) : Vec F S2048x128 .f32 :=
  VS5_0.read (Elt F) (VS5_0.writes (Elt F) VS5_0.junk (kernelRun1_C c i arg2 harg2 arg3 harg3 arg4 harg4 arg5 harg5 arg6 harg6 hc0 hc1 x0 x1 x2 xs0).2.1)

end Body

def outsAt5 (c : Dev nD) : (n : ℕ) → n < cfg5.N → Vec F S2048x128 .f32 × Vec F S2048x128 .f32
  | 0, hn => (idleOut5 (F := F), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 391 = 0 then
      if h1 : (n + 1) % 391 = 390 then
        False.elim (by omega)
      else
        (idleOut5 (F := F), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 391 = 390 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (idleOut5 (F := F), sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 391 = 0) (h1 : ¬t.val % 391 = 390) :
    outsAt5 V c t.val t.isLt = (idleOut5 (F := F), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 391 = 0) (h1 : ¬t.val % 391 = 390) :
    outsAt5 V c t.val t.isLt = (idleOut5 (F := F), sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 391 = 0) (h1 : t.val % 391 = 390) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But5 (c : Dev nD) : sProp 𝕄 := Pipeline.scopedRestBut (Ix := Unit) (Name := ℕ) (U := UR sig nD τ) (Lvl := ℕ) (Val := Elt F) spec5 c [cc5_scratch0]

def PhiS5 (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) scM5_0 fullShare ((outsAt5 V c n hn).2) ∗ But5 c)

theorem PhiS5_zero (c : Dev nD) (n : ℕ) (h : n ≤ cfg5.N) (hz : n = 0) :
    PhiS5 V c n h = Pipeline.scopedRest (Ix := Unit) (Name := ℕ) (U := UR sig nD τ) (Lvl := ℕ) (Val := Elt F) spec5 c := by
  subst hz; rfl
theorem PhiS5_succ (c : Dev nD) (n : ℕ) (hn : n < cfg5.N) :
    PhiS5 V c (n + 1) hn = iprop(owns (c : Thread nD τ) scM5_0 fullShare ((outsAt5 V c n hn).2) ∗ But5 c) := rfl
theorem PhiS5_pos (c : Dev nD) (n : ℕ) (h : n ≤ cfg5.N) (hz : n ≠ 0) :
    PhiS5 V c n h = iprop(owns (c : Thread nD τ) scM5_0 fullShare ((outsAt5 V c (n - 1) (by omega)).2) ∗ But5 c) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 391 = 0
  · by_cases h1 : t.val % 391 = 390
    · exfalso; omega
    ·
        rw [Dat.leavesExact_idle (dat5 V c) 3 t (idleAt5_3 t (fun h => h1 ((hcond5_1 t).mp h))) (noFlush5_3 t (fun h => h1 ((hcond5_1 t).mp h)))]
        rw [outsAt5_A V c t h0 h1]
        unfold sout5_A_0; (try dsimp only)
        by_cases hz : t.val = 0
        · rw [PhiS5_castSucc V c t, PhiS5_zero V c _ _ hz, scoped5_eq]
          iintro ⟨⟨HS0, Hg⟩, Ho, ⟨%d0, H0⟩, ⟨%d1, H1⟩, ⟨%d2, H2⟩, ⟨%d3, H3⟩⟩
          iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS5_castSucc V c t, PhiS5_pos V c _ _ hz]
          iintro ⟨⟨HS0, Hg⟩, Ho, ⟨%d0, H0⟩, ⟨%d1, H1⟩, ⟨%d2, H2⟩, ⟨%d3, H3⟩⟩
          iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat5 V c).leavesExact 3 t = owns (c : Thread nD τ) (ms5_3 t) fullShare ((dat5 V c).after 3 t) from by
          unfold Dat.leavesExact; rw [liveAt5_3 t ((hcond5_1 t).mpr h1)], after5_3]
        rw [outsAt5_C V c t h0 h1]
        unfold out5_C_3 sout5_C_0; (try dsimp only)
        rw [PhiS5_castSucc V c t, PhiS5_pos V c _ _ hz]
        iintro ⟨⟨HS0, Hg⟩, Ho, ⟨%d0, H0⟩, ⟨%d1, H1⟩, ⟨%d2, H2⟩, ⟨%d3, H3⟩⟩
        iapply ((kernelRun1_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat5 V c) 3 t (idleAt5_3 t (fun h => h1 ((hcond5_1 t).mp h))) (noFlush5_3 t (fun h => h1 ((hcond5_1 t).mp h)))]
        rw [outsAt5_B V c t h0 h1]
        unfold sout5_B_0; (try dsimp only)
        rw [PhiS5_castSucc V c t, PhiS5_pos V c _ _ hz]
        iintro ⟨⟨HS0, Hg⟩, Ho, ⟨%d0, H0⟩, ⟨%d1, H1⟩, ⟨%d2, H2⟩, ⟨%d3, H3⟩⟩
        iapply ((kernelRun1_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.scopedRest (Ix := Unit) (Name := ℕ) (U := UR sig nD τ) (Lvl := ℕ) (Val := Elt F) spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.scopedRest (Ix := Unit) (Name := ℕ) (U := UR sig nD τ) (Lvl := ℕ) (Val := Elt F) spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 9775 := N_5; omega), scoped5_eq]
  iintro ⟨HS0, Hg⟩
  isplitl [HS0]
  · iexists _; iexact HS0
  iexact Hg

end Cert.Kernel.Hand

end
-- ==== Proof.K.Fold.lean ====
import proofs.«428098_j75917841924563_1_alg».proof.Proof.K.R0Dat
import proofs.«428098_j75917841924563_1_alg».proof.Proof.K.R1Dat
import proofs.«428098_j75917841924563_1_alg».proof.Proof.K.R2Dat
import proofs.«428098_j75917841924563_1_alg».proof.Proof.K.R3Dat
import proofs.«428098_j75917841924563_1_alg».proof.Proof.K.R4Dat
import proofs.«428098_j75917841924563_1_alg».proof.Proof.K.R5Dat
import proofs.«428098_j75917841924563_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev W9 : Dev nD → Valuation τ sig (Elt F) := fun c => Gen.V9 m c

def W10 (c : Dev nD) : Valuation τ sig (Elt F) :=
  Pipeline.withArrays spec0 c (W9 m c) fun w => (dat0 (rd (W9 m)) c).arrAt w cfg0.N
theorem W10_arr (c : Dev nD) (w : Fin cfg0.W) :
    W10 m c (Proc.devRef .tc (Pipeline.arrRef spec0 w)) = (dat0 (rd (W9 m)) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
theorem hF0 (c : Dev nD) (w : Fin cfg0.W) : (dat0 (rd (W9 m)) c).arrAt w cfg0.N = rd (W10 m) c (Pipeline.arrRef spec0 w) :=
  (W10_arr m c w).symm
theorem hrest0 (c : Dev nD) : ∀ b, b ∉ Finset.univ.image (Pipeline.arrRef spec0) → rd (W10 m) c b = rd (W9 m) c b :=
  fun b hb => W10_of_ne m c b fun w e => hb (Finset.mem_image.mpr ⟨w, Finset.mem_univ _, e⟩)

def W11 (c : Dev nD) : Valuation τ sig (Elt F) :=
  Pipeline.withArrays spec1 c (W10 m c) fun w => (dat1 (rd (W10 m)) c).arrAt w cfg1.N
theorem W11_arr (c : Dev nD) (w : Fin cfg1.W) :
    W11 m c (Proc.devRef .tc (Pipeline.arrRef spec1 w)) = (dat1 (rd (W10 m)) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem hF1 (c : Dev nD) (w : Fin cfg1.W) : (dat1 (rd (W10 m)) c).arrAt w cfg1.N = rd (W11 m) c (Pipeline.arrRef spec1 w) :=
  (W11_arr m c w).symm
theorem hrest1 (c : Dev nD) : ∀ b, b ∉ Finset.univ.image (Pipeline.arrRef spec1) → rd (W11 m) c b = rd (W10 m) c b :=
  fun b hb => W11_of_ne m c b fun w e => hb (Finset.mem_image.mpr ⟨w, Finset.mem_univ _, e⟩)

abbrev W12 : Dev nD → Valuation τ sig (Elt F) := fun c => StableHlo.after hostOps2 (W11 m c)

def W13 (c : Dev nD) : Valuation τ sig (Elt F) :=
  Pipeline.withArrays spec2 c (W12 m c) fun w => (dat2 (rd (W12 m)) c).arrAt w cfg2.N
theorem W13_arr (c : Dev nD) (w : Fin cfg2.W) :
    W13 m c (Proc.devRef .tc (Pipeline.arrRef spec2 w)) = (dat2 (rd (W12 m)) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
theorem hF2 (c : Dev nD) (w : Fin cfg2.W) : (dat2 (rd (W12 m)) c).arrAt w cfg2.N = rd (W13 m) c (Pipeline.arrRef spec2 w) :=
  (W13_arr m c w).symm
theorem hrest2 (c : Dev nD) : ∀ b, b ∉ Finset.univ.image (Pipeline.arrRef spec2) → rd (W13 m) c b = rd (W12 m) c b :=
  fun b hb => W13_of_ne m c b fun w e => hb (Finset.mem_image.mpr ⟨w, Finset.mem_univ _, e⟩)

def W14 (c : Dev nD) : Valuation τ sig (Elt F) :=
  Pipeline.withArrays spec3 c (W13 m c) fun w => (dat3 (rd (W13 m)) c).arrAt w cfg3.N
theorem W14_arr (c : Dev nD) (w : Fin cfg3.W) :
    W14 m c (Proc.devRef .tc (Pipeline.arrRef spec3 w)) = (dat3 (rd (W13 m)) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
theorem hF3 (c : Dev nD) (w : Fin cfg3.W) : (dat3 (rd (W13 m)) c).arrAt w cfg3.N = rd (W14 m) c (Pipeline.arrRef spec3 w) :=
  (W14_arr m c w).symm
theorem hrest3 (c : Dev nD) : ∀ b, b ∉ Finset.univ.image (Pipeline.arrRef spec3) → rd (W14 m) c b = rd (W13 m) c b :=
  fun b hb => W14_of_ne m c b fun w e => hb (Finset.mem_image.mpr ⟨w, Finset.mem_univ _, e⟩)

abbrev W15 : Dev nD → Valuation τ sig (Elt F) := fun c => StableHlo.after hostOps4 (W14 m c)

def W16 (c : Dev nD) : Valuation τ sig (Elt F) :=
  Pipeline.withArrays spec4 c (W15 m c) fun w => (dat4 (rd (W15 m)) c).arrAt w cfg4.N
theorem W16_arr (c : Dev nD) (w : Fin cfg4.W) :
    W16 m c (Proc.devRef .tc (Pipeline.arrRef spec4 w)) = (dat4 (rd (W15 m)) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
theorem hF4 (c : Dev nD) (w : Fin cfg4.W) : (dat4 (rd (W15 m)) c).arrAt w cfg4.N = rd (W16 m) c (Pipeline.arrRef spec4 w) :=
  (W16_arr m c w).symm
theorem hrest4 (c : Dev nD) : ∀ b, b ∉ Finset.univ.image (Pipeline.arrRef spec4) → rd (W16 m) c b = rd (W15 m) c b :=
  fun b hb => W16_of_ne m c b fun w e => hb (Finset.mem_image.mpr ⟨w, Finset.mem_univ _, e⟩)

def W17 (c : Dev nD) : Valuation τ sig (Elt F) :=
  Pipeline.withArrays spec5 c (W16 m c) fun w => (dat5 (rd (W16 m)) c).arrAt w cfg5.N
theorem W17_arr (c : Dev nD) (w : Fin cfg5.W) :
    W17 m c (Proc.devRef .tc (Pipeline.arrRef spec5 w)) = (dat5 (rd (W16 m)) c).arrAt w cfg5.N := by
  unfold W17; exact Pipeline.withArrays_arr spec5 launch5.win.arr_inj c _ _ w
theorem W17_of_ne (c : Dev nD) (b : Ref sig .tc) (hb : ∀ w, Pipeline.arrRef spec5 w ≠ b) :
    W17 m c (Proc.devRef .tc b) = W16 m c (Proc.devRef .tc b) := by
  unfold W17; exact Pipeline.withArrays_of_ne spec5 c _ _ b hb
theorem hF5 (c : Dev nD) (w : Fin cfg5.W) : (dat5 (rd (W16 m)) c).arrAt w cfg5.N = rd (W17 m) c (Pipeline.arrRef spec5 w) :=
  (W17_arr m c w).symm
theorem hrest5 (c : Dev nD) : ∀ b, b ∉ Finset.univ.image (Pipeline.arrRef spec5) → rd (W17 m) c b = rd (W16 m) c b :=
  fun b hb => W17_of_ne m c b fun w e => hb (Finset.mem_image.mpr ⟨w, Finset.mem_univ _, e⟩)

abbrev W18 : Dev nD → Valuation τ sig (Elt F) := fun c => StableHlo.after hostOps6 (W17 m c)

def pdats : (p : Fin 6) → (c : Dev nD) → Dat τ (Elt F) Unit ℕ (UR sig nD τ) ℕ (Pipeline.pin (pcfgs (F := F)) Gen.adm p) c
  | ⟨0, _⟩ => fun c => dat0 (rd (W9 m)) c
  | ⟨1, _⟩ => fun c => dat1 (rd (W10 m)) c
  | ⟨2, _⟩ => fun c => dat2 (rd (W12 m)) c
  | ⟨3, _⟩ => fun c => dat3 (rd (W13 m)) c
  | ⟨4, _⟩ => fun c => dat4 (rd (W15 m)) c
  | ⟨5, _⟩ => fun c => dat5 (rd (W16 m)) c

end Cert.Kernel.Hand

end
-- ==== Proof.K.Launch.lean ====
import proofs.«428098_j75917841924563_1_alg».proof.Proof.K.Fold
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W9 m)) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X _ := BI.emp
  Y _ := BI.emp
  Z c := Pipeline.unscopedRest (Ix := Unit) (Name := ℕ) (U := UR sig nD τ) (Lvl := ℕ) spec0 c (rd (W9 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (W9 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 (rd (W9 m)) c).Φ 0 from rfl]
    iintro ⟨-, -, Hr⟩
    iapply (hin0 (rd (W9 m)) c)
    iexact Hr
  hout c := by
    rw [Pipeline.ownSems0_none, show (pdats m 0 c).Φ (Fin.last _) = (dat0 (rd (W9 m)) c).Φ (Fin.last cfg0.N) from rfl]
    iintro H
    isplitr; · iempintro
    isplitr; · iempintro
    iapply (hout0 (rd (W9 m)) c)
    iexact H
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (W9 m) c) (rd (W10 m) c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W10 m)) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X _ := BI.emp
  Y _ := BI.emp
  Z c := Pipeline.unscopedRest (Ix := Unit) (Name := ℕ) (U := UR sig nD τ) (Lvl := ℕ) spec1 c (rd (W10 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (W10 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (rd (W10 m)) c).Φ 0 from rfl]
    iintro ⟨-, -, Hr⟩
    iapply (hin1 (rd (W10 m)) c)
    iexact Hr
  hout c := by
    rw [Pipeline.ownSems0_none, show (pdats m 1 c).Φ (Fin.last _) = (dat1 (rd (W10 m)) c).Φ (Fin.last cfg1.N) from rfl]
    iintro H
    isplitr; · iempintro
    isplitr; · iempintro
    iapply (hout1 (rd (W10 m)) c)
    iexact H
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (W10 m) c) (rd (W11 m) c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W12 m)) c).loose
  hwaits := Pipeline.hwaits_of_owed_zero _ _ _ _ L lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X _ := BI.emp
  Y _ := BI.emp
  Z c := Pipeline.unscopedRest (Ix := Unit) (Name := ℕ) (U := UR sig nD τ) (Lvl := ℕ) spec2 c (rd (W12 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (W12 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (dat2 (rd (W12 m)) c).Φ 0 from rfl]
    iintro ⟨-, -, Hr⟩
    iapply (hin2 (rd (W12 m)) c)
    iexact Hr
  hout c := by
    rw [Pipeline.ownSems0_none, show (pdats m 2 c).Φ (Fin.last _) = (dat2 (rd (W12 m)) c).Φ (Fin.last cfg2.N) from rfl]
    iintro H
    isplitr; · iempintro
    isplitr; · iempintro
    iapply (hout2 (rd (W12 m)) c)
    iexact H
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (W12 m) c) (rd (W13 m) c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W13 m)) c).loose
  hwaits := Pipeline.hwaits_of_owed_zero _ _ _ _ L lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X _ := BI.emp
  Y _ := BI.emp
  Z c := Pipeline.unscopedRest (Ix := Unit) (Name := ℕ) (U := UR sig nD τ) (Lvl := ℕ) spec3 c (rd (W13 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (rd (W13 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = (dat3 (rd (W13 m)) c).Φ 0 from rfl]
    iintro ⟨-, -, Hr⟩
    iapply (hin3 (rd (W13 m)) c)
    iexact Hr
  hout c := by
    rw [Pipeline.ownSems0_none, show (pdats m 3 c).Φ (Fin.last _) = (dat3 (rd (W13 m)) c).Φ (Fin.last cfg3.N) from rfl]
    iintro H
    isplitr; · iempintro
    isplitr; · iempintro
    iapply (hout3 (rd (W13 m)) c)
    iexact H
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (rd (W13 m) c) (rd (W14 m) c) ((pdats m 3 c).arrAt · cfg3.N) (hF3 m c) (hrest3 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W15 m)) c).loose
  hwaits := Pipeline.hwaits_of_owed_zero _ _ _ _ L lv 4 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X _ := BI.emp
  Y _ := BI.emp
  Z c := Pipeline.unscopedRest (Ix := Unit) (Name := ℕ) (U := UR sig nD τ) (Lvl := ℕ) spec4 c (rd (W15 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (rd (W15 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 4 c).Φ 0 = (dat4 (rd (W15 m)) c).Φ 0 from rfl]
    iintro ⟨-, -, Hr⟩
    iapply (hin4 (rd (W15 m)) c)
    iexact Hr
  hout c := by
    rw [Pipeline.ownSems0_none, show (pdats m 4 c).Φ (Fin.last _) = (dat4 (rd (W15 m)) c).Φ (Fin.last cfg4.N) from rfl]
    iintro H
    isplitr; · iempintro
    isplitr; · iempintro
    iapply (hout4 (rd (W15 m)) c)
    iexact H
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (rd (W15 m) c) (rd (W16 m) c) ((pdats m 4 c).arrAt · cfg4.N) (hF4 m c) (hrest4 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W16 m)) c).loose
  hwaits := Pipeline.hwaits_of_owed_zero _ _ _ _ L lv 5 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X _ := BI.emp
  Y _ := BI.emp
  Z c := Pipeline.unscopedRest (Ix := Unit) (Name := ℕ) (U := UR sig nD τ) (Lvl := ℕ) spec5 c (rd (W16 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (rd (W16 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 5 c).Φ 0 = (dat5 (rd (W16 m)) c).Φ 0 from rfl]
    iintro ⟨-, -, Hr⟩
    iapply (hin5 (rd (W16 m)) c)
    iexact Hr
  hout c := by
    rw [Pipeline.ownSems0_none, show (pdats m 5 c).Φ (Fin.last _) = (dat5 (rd (W16 m)) c).Φ (Fin.last cfg5.N) from rfl]
    iintro H
    isplitr; · iempintro
    isplitr; · iempintro
    iapply (hout5 (rd (W16 m)) c)
    iexact H
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (rd (W16 m) c) (rd (W17 m) c) ((pdats m 5 c).arrAt · cfg5.N) (hF5 m c) (hrest5 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

abbrev segs : List (Pipeline.Seg (pcfgs (F := F)) Gen.adm (pdats m) () defs₀ 𝒱₀ L lv) :=
  [
    .host (hseg hostOps0 hostOps0_sub Gen.hostOps0_fresh (fun c => Gen.V0 m c)),
    .host (hseg hostOps0_1 hostOps0_1_sub Gen.hostOps0_1_fresh (fun c => Gen.V1 m c)),
    .host (hseg hostOps0_2 hostOps0_2_sub Gen.hostOps0_2_fresh (fun c => Gen.V2 m c)),
    .host (hseg hostOps0_3 hostOps0_3_sub Gen.hostOps0_3_fresh (fun c => Gen.V3 m c)),
    .host (hseg hostOps0_4 hostOps0_4_sub Gen.hostOps0_4_fresh (fun c => Gen.V4 m c)),
    .host (hseg hostOps0_5 hostOps0_5_sub Gen.hostOps0_5_fresh (fun c => Gen.V5 m c)),
    .host (hseg hostOps0_6 hostOps0_6_sub Gen.hostOps0_6_fresh (fun c => Gen.V6 m c)),
    .host (hseg hostOps0_7 hostOps0_7_sub Gen.hostOps0_7_fresh (fun c => Gen.V7 m c)),
    .host (hseg hostOps0_8 hostOps0_8_sub Gen.hostOps0_8_fresh (fun c => Gen.V8 m c)),
    .region (reg0 m),
    .region (reg1 m),
    .host (hseg hostOps2 hostOps2_sub Gen.hostOps2_fresh (W11 m)),
    .region (reg2 m),
    .region (reg3 m),
    .host (hseg hostOps4 hostOps4_sub Gen.hostOps4_fresh (W14 m)),
    .region (reg4 m),
    .region (reg5 m),
    .host (hseg hostOps6 hostOps6_sub Gen.hostOps6_fresh (W17 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W18 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W18 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      iexists ∅; iexact HO)
    (QY := fun c s => ∀ b ∈ Pipeline.ucRefs τ sig, s.mem (((c : Thread nD τ)).1, b) = W18 m c b)
    (hfin := fun c s' => by
      iintro ⟨Hh, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

theorem W18_main_arg0 (c : Dev nD) : W18 m c (Proc.devRef .tc main_arg0) = m ((c : Thread nD τ).loc main_arg0) :=
  (StableHlo.after_of_writes_sub hostOps6 _ Gen.hostOps6_writes (by decide : main_arg0 ∉ Gen.hostOps6_W)).trans <|
  (W17_of_ne m c main_arg0 (by decide)).trans <| (W16_of_ne m c main_arg0 (by decide)).trans <|
  (StableHlo.after_of_writes_sub hostOps4 _ Gen.hostOps4_writes (by decide : main_arg0 ∉ Gen.hostOps4_W)).trans <|
  (W14_of_ne m c main_arg0 (by decide)).trans <| (W13_of_ne m c main_arg0 (by decide)).trans <|
  (StableHlo.after_of_writes_sub hostOps2 _ Gen.hostOps2_writes (by decide : main_arg0 ∉ Gen.hostOps2_W)).trans <|
  (W11_of_ne m c main_arg0 (by decide)).trans <| (W10_of_ne m c main_arg0 (by decide)).trans <|
  (Gen.V9_of m c main_arg0 (by decide)).trans <| (Gen.V8_of m c main_arg0 (by decide)).trans <| (Gen.V7_of m c main_arg0 (by decide)).trans <|
  (Gen.V6_of m c main_arg0 (by decide)).trans <| (Gen.V5_of m c main_arg0 (by decide)).trans <| (Gen.V4_of m c main_arg0 (by decide)).trans <|
  (Gen.V3_of m c main_arg0 (by decide)).trans <| (Gen.V2_of m c main_arg0 (by decide)).trans <| (Gen.V1_of m c main_arg0 (by decide)).trans rfl

theorem W18_main_arg1 (c : Dev nD) : W18 m c (Proc.devRef .tc main_arg1) = m ((c : Thread nD τ).loc main_arg1) :=
  (StableHlo.after_of_writes_sub hostOps6 _ Gen.hostOps6_writes (by decide : main_arg1 ∉ Gen.hostOps6_W)).trans <|
  (W17_of_ne m c main_arg1 (by decide)).trans <| (W16_of_ne m c main_arg1 (by decide)).trans <|
  (StableHlo.after_of_writes_sub hostOps4 _ Gen.hostOps4_writes (by decide : main_arg1 ∉ Gen.hostOps4_W)).trans <|
  (W14_of_ne m c main_arg1 (by decide)).trans <| (W13_of_ne m c main_arg1 (by decide)).trans <|
  (StableHlo.after_of_writes_sub hostOps2 _ Gen.hostOps2_writes (by decide : main_arg1 ∉ Gen.hostOps2_W)).trans <|
  (W11_of_ne m c main_arg1 (by decide)).trans <| (W10_of_ne m c main_arg1 (by decide)).trans <|
  (Gen.V9_of m c main_arg1 (by decide)).trans <| (Gen.V8_of m c main_arg1 (by decide)).trans <| (Gen.V7_of m c main_arg1 (by decide)).trans <|
  (Gen.V6_of m c main_arg1 (by decide)).trans <| (Gen.V5_of m c main_arg1 (by decide)).trans <| (Gen.V4_of m c main_arg1 (by decide)).trans <|
  (Gen.V3_of m c main_arg1 (by decide)).trans <| (Gen.V2_of m c main_arg1 (by decide)).trans <| (Gen.V1_of m c main_arg1 (by decide)).trans rfl

theorem W18_main_arg2 (c : Dev nD) : W18 m c (Proc.devRef .tc main_arg2) = m ((c : Thread nD τ).loc main_arg2) :=
  (StableHlo.after_of_writes_sub hostOps6 _ Gen.hostOps6_writes (by decide : main_arg2 ∉ Gen.hostOps6_W)).trans <|
  (W17_of_ne m c main_arg2 (by decide)).trans <| (W16_of_ne m c main_arg2 (by decide)).trans <|
  (StableHlo.after_of_writes_sub hostOps4 _ Gen.hostOps4_writes (by decide : main_arg2 ∉ Gen.hostOps4_W)).trans <|
  (W14_of_ne m c main_arg2 (by decide)).trans <| (W13_of_ne m c main_arg2 (by decide)).trans <|
  (StableHlo.after_of_writes_sub hostOps2 _ Gen.hostOps2_writes (by decide : main_arg2 ∉ Gen.hostOps2_W)).trans <|
  (W11_of_ne m c main_arg2 (by decide)).trans <| (W10_of_ne m c main_arg2 (by decide)).trans <|
  (Gen.V9_of m c main_arg2 (by decide)).trans <| (Gen.V8_of m c main_arg2 (by decide)).trans <| (Gen.V7_of m c main_arg2 (by decide)).trans <|
  (Gen.V6_of m c main_arg2 (by decide)).trans <| (Gen.V5_of m c main_arg2 (by decide)).trans <| (Gen.V4_of m c main_arg2 (by decide)).trans <|
  (Gen.V3_of m c main_arg2 (by decide)).trans <| (Gen.V2_of m c main_arg2 (by decide)).trans <| (Gen.V1_of m c main_arg2 (by decide)).trans rfl

theorem W18_main_arg3 (c : Dev nD) : W18 m c (Proc.devRef .tc main_arg3) = m ((c : Thread nD τ).loc main_arg3) :=
  (StableHlo.after_of_writes_sub hostOps6 _ Gen.hostOps6_writes (by decide : main_arg3 ∉ Gen.hostOps6_W)).trans <|
  (W17_of_ne m c main_arg3 (by decide)).trans <| (W16_of_ne m c main_arg3 (by decide)).trans <|
  (StableHlo.after_of_writes_sub hostOps4 _ Gen.hostOps4_writes (by decide : main_arg3 ∉ Gen.hostOps4_W)).trans <|
  (W14_of_ne m c main_arg3 (by decide)).trans <| (W13_of_ne m c main_arg3 (by decide)).trans <|
  (StableHlo.after_of_writes_sub hostOps2 _ Gen.hostOps2_writes (by decide : main_arg3 ∉ Gen.hostOps2_W)).trans <|
  (W11_of_ne m c main_arg3 (by decide)).trans <| (W10_of_ne m c main_arg3 (by decide)).trans <|
  (Gen.V9_of m c main_arg3 (by decide)).trans <| (Gen.V8_of m c main_arg3 (by decide)).trans <| (Gen.V7_of m c main_arg3 (by decide)).trans <|
  (Gen.V6_of m c main_arg3 (by decide)).trans <| (Gen.V5_of m c main_arg3 (by decide)).trans <| (Gen.V4_of m c main_arg3 (by decide)).trans <|
  (Gen.V3_of m c main_arg3 (by decide)).trans <| (Gen.V2_of m c main_arg3 (by decide)).trans <| (Gen.V1_of m c main_arg3 (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W18_main_arg0 m c),
     (h c _ (mem_uc main_arg1 (by decide))).trans (W18_main_arg1 m c),
     (h c _ (mem_uc main_arg2 (by decide))).trans (W18_main_arg2 m c),
     (h c _ (mem_uc main_arg3 (by decide))).trans (W18_main_arg3 m c)⟩) (run_all m ρ)

end Cert.Kernel.Hand

end
-- ==== Proof.KI.R0Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := fun t h => by
  show (!(k0_cond2 (grid0.coords t) == 1#1)) = true
  rw [Bool.not_eq_true', beq_eq_false_iff_ne]; exact h
theorem noFlush0_3 : ∀ t : Fin cfg0.N, ¬cond0_1 (grid0.coords t) → (cfg0.win 3).flush t = false := fun t h =>
  Bool.eq_false_iff.mpr fun hf => h ((hcond0_1 t).mpr ((flush0_3 t).mp hf))

theorem liveAt0_3 : ∀ t : Fin cfg0.N, cond0_1 (grid0.coords t) → cfg0.idle 3 (grid0.coords t) = false := fun t h => by
  show (!(k0_cond2 (grid0.coords t) == 1#1)) = false
  rw [Bool.not_eq_false', beq_iff_eq]; exact h

abbrev VO0_3 : View sig .tc .vmem S4096x128 .bf16 := (Memref.whole cc0_stg3_0 : Memref sig .tc .vmem S4096x128 .bf16).view
abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)

abbrev scM0_0 : Memref sig .tc .vmem S4096x128 .f32 := Memref.whole cc0_scratch0
abbrev VS0_0 : View sig .tc .vmem S4096x128 .f32 := scM0_0.view

theorem scoped0_eq (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d))
          ∗ Pipeline.scopedRestBut (Ix := Unit) (Name := ℕ) (U := UR sig nD τ) (Lvl := ℕ) (Val := Elt F) spec0 c [cc0_scratch0]) := by
  rw [scopedRest0_split]; simp only [scM0_0, owns_whole]; try rfl

end Cert.KernelIdeal.Hand

end
-- ==== Proof.KI.R0RunA.lean ====
import proofs.«428098_j75917841924563_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : cond0_0 i) (hc1 : ¬cond0_1 i)
    (x0 : Vec F S1x4096 .i32) (x1 : Vec F S2048x128 .bf16) (x2 : Vec F S4096x128 .bf16) :
    { LS0 : List (View.Piece (Elt F) S4096x128 .f32) //
      ∀ (xi3 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, fun xi3 E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
import proofs.«428098_j75917841924563_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : ¬cond0_0 i) (hc1 : ¬cond0_1 i)
    (x0 : Vec F S1x4096 .i32) (x1 : Vec F S2048x128 .bf16) (x2 : Vec F S4096x128 .bf16) (xs0 : Vec F S4096x128 .f32) :
    { LS0 : List (View.Piece (Elt F) S4096x128 .f32) //
      ∀ (xi3 : Vec F S4096x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, fun xi3 E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
import proofs.«428098_j75917841924563_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole) (hc0 : ¬cond0_0 i) (hc1 : cond0_1 i)
    (x0 : Vec F S1x4096 .i32) (x1 : Vec F S2048x128 .bf16) (x2 : Vec F S4096x128 .bf16) (xs0 : Vec F S4096x128 .f32) :
    Σ' (L3 : List (View.Piece (Elt F) S4096x128 .bf16)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gather_kernel_body i arg2 harg2 arg3 harg3 arg4 harg4 arg5 harg5 arg6 harg6) K } := by
  refine ⟨?_, ?_, fun E K => ?run⟩
  case run =>
    simp only [cc0__gather_kernel_body_eq_skeleton]; unfold cc0__gather_kernel_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0Dat.lean ====
import proofs.«428098_j75917841924563_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut0 : Vec F S4096x128 .bf16 := VO0_3.read (Elt F) (VO0_3.writes (Elt F) VO0_3.junk [])

section Body

variable (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

theorem scover0_A_0 (hc0 : cond0_0 i) (hc1 : ¬cond0_1 i) (x0 : Vec F S1x4096 .i32) (x1 : Vec F S2048x128 .bf16) (x2 : Vec F S4096x128 .bf16) (y : S4096x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S4096x128.size (by sl_kernel_rfl) y

def sout0_A_0 (hc0 : cond0_0 i) (hc1 : ¬cond0_1 i) (x0 : Vec F S1x4096 .i32) (x1 : Vec F S2048x128 .bf16) (x2 : Vec F S4096x128 .bf16) : Vec F S4096x128 .f32 :=
  VS0_0.read (Elt F) (VS0_0.writes (Elt F) VS0_0.junk (kernelRun0_A c i arg2 harg2 arg3 harg3 arg4 harg4 arg5 harg5 arg6 harg6 hc0 hc1 x0 x1 x2).1)

theorem scover0_B_0 (hc0 : ¬cond0_0 i) (hc1 : ¬cond0_1 i) (x0 : Vec F S1x4096 .i32) (x1 : Vec F S2048x128 .bf16) (x2 : Vec F S4096x128 .bf16) (xs0 : Vec F S4096x128 .f32) (y : S4096x128.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S4096x128.size (by sl_kernel_rfl) y

def sout0_B_0 (hc0 : ¬cond0_0 i) (hc1 : ¬cond0_1 i) (x0 : Vec F S1x4096 .i32) (x1 : Vec F S2048x128 .bf16) (x2 : Vec F S4096x128 .bf16) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C_3 (hc0 : ¬cond0_0 i) (hc1 : cond0_1 i) (x0 : Vec F S1x4096 .i32) (x1 : Vec F S2048x128 .bf16) (x2 : Vec F S4096x128 .bf16) (xs0 : Vec F S4096x128 .f32) (y : S4096x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x128.size (by sl_kernel_rfl) y

def out0_C_3 (hc0 : ¬cond0_0 i) (hc1 : cond0_1 i) (x0 : Vec F S1x4096 .i32) (x1 : Vec F S2048x128 .bf16) (x2 : Vec F S4096x128 .bf16) (xs0 : Vec F S4096x128 .f32) : Vec F S4096x128 .bf16 :=
  VO0_3.read (Elt F) (VO0_3.writes (Elt F) VO0_3.junk (kernelRun0_C c i arg2 harg2 arg3 harg3 arg4 harg4 arg5 harg5 arg6 harg6 hc0 hc1 x0 x1 x2 xs0).1)
theorem scover0_C_0 (hc0 : ¬cond0_0 i) (hc1 : cond0_1 i) (x0 : Vec F S1x4096 .i32) (x1 : Vec F S2048x128 .bf16) (x2 : Vec F S4096x128 .bf16) (xs0 : Vec F S4096x128 .f32) (y : S4096x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x128.size (by sl_kernel_rfl) y

def sout0_C_0 (hc0 : ¬cond0_0 i) (hc1 : cond0_1 i) (x0 : Vec F S1x4096 .i32) (x1 : Vec F S2048x128 .bf16) (x2 : Vec F S4096x128 .bf16) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 hc0 hc1 x0 x1 x2 xs0).2.1)

end Body

def outsAt0 (c : Dev nD) : (n : ℕ) → n < cfg0.N → Vec F S4096x128 .bf16 × Vec F S4096x128 .f32
  | 0, hn => (idleOut0 (F := F), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by omega)
      else
        (idleOut0 (F := F), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0 (F := F), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 25 = 0) (h1 : ¬t.val % 25 = 24) :
    outsAt0 V c t.val t.isLt = (idleOut0 (F := F), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 25 = 0) (h1 : ¬t.val % 25 = 24) :
    outsAt0 V c t.val t.isLt = (idleOut0 (F := F), sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But0 (c : Dev nD) : sProp 𝕄 := Pipeline.scopedRestBut (Ix := Unit) (Name := ℕ) (U := UR sig nD τ) (Lvl := ℕ) (Val := Elt F) spec0 c [cc0_scratch0]

def PhiS0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 V c n hn).2) ∗ But0 c)

theorem PhiS0_zero (c : Dev nD) (n : ℕ) (h : n ≤ cfg0.N) (hz : n = 0) :
    PhiS0 V c n h = Pipeline.scopedRest (Ix := Unit) (Name := ℕ) (U := UR sig nD τ) (Lvl := ℕ) (Val := Elt F) spec0 c := by
  subst hz; rfl
theorem PhiS0_succ (c : Dev nD) (n : ℕ) (hn : n < cfg0.N) :
    PhiS0 V c (n + 1) hn = iprop(owns (c : Thread nD τ) scM0_0 fullShare ((outsAt0 V c n hn).2) ∗ But0 c) := rfl
theorem PhiS0_pos (c : Dev nD) (n : ℕ) (h : n ≤ cfg0.N) (hz : n ≠ 0) :
    PhiS0 V c n h = iprop(owns (c : Thread nD τ) scM0_0 fullShare ((outsAt0 V c (n - 1) (by omega)).2) ∗ But0 c) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 25 = 0
  · by_cases h1 : t.val % 25 = 24
    · exfalso; omega
    ·
        rw [Dat.leavesExact_idle (dat0 V c) 3 t (idleAt0_3 t (fun h => h1 ((hcond0_1 t).mp h))) (noFlush0_3 t (fun h => h1 ((hcond0_1 t).mp h)))]
        rw [outsAt0_A V c t h0 h1]
        unfold sout0_A_0; (try dsimp only)
        by_cases hz : t.val = 0
        · rw [PhiS0_castSucc V c t, PhiS0_zero V c _ _ hz, scoped0_eq]
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS0_castSucc V c t, PhiS0_pos V c _ _ hz]
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat0 V c).leavesExact 3 t = owns (c : Thread nD τ) (ms0_3 t) fullShare ((dat0 V c).after 3 t) from by
          unfold Dat.leavesExact; rw [liveAt0_3 t ((hcond0_1 t).mpr h1)], after0_3]
        rw [outsAt0_C V c t h0 h1]
        unfold out0_C_3 sout0_C_0; (try dsimp only)
        rw [PhiS0_castSucc V c t, PhiS0_pos V c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat0 V c) 3 t (idleAt0_3 t (fun h => h1 ((hcond0_1 t).mp h))) (noFlush0_3 t (fun h => h1 ((hcond0_1 t).mp h)))]
        rw [outsAt0_B V c t h0 h1]
        unfold sout0_B_0; (try dsimp only)
        rw [PhiS0_castSucc V c t, PhiS0_pos V c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.scopedRest (Ix := Unit) (Name := ℕ) (U := UR sig nD τ) (Lvl := ℕ) (Val := Elt F) spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.scopedRest (Ix := Unit) (Name := ℕ) (U := UR sig nD τ) (Lvl := ℕ) (Val := Elt F) spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 9775 := N_0; omega), scoped0_eq]
  iintro ⟨HS0, Hg⟩
  isplitl [HS0]
  · iexists _; iexact HS0
  iexact Hg

end Cert.KernelIdeal.Hand

end
-- ==== Proof.KI.R1Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 391 = 0 :=
  (by decide +kernel : ∀ t : Fin grid1.N, cond1_0 (grid1.coords t) ↔ t.val % 391 = 0)

abbrev cond1_1 (i : grid1.Coords) : Prop := k1_cond2 i = 1#1
theorem hcond1_1 : ∀ t : Fin cfg1.N, cond1_1 (grid1.coords t) ↔ t.val % 391 = 390 :=
  (by decide +kernel : ∀ t : Fin grid1.N, cond1_1 (grid1.coords t) ↔ t.val % 391 = 390)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := fun t h => by
  show (!(k1_cond2 (grid1.coords t) == 1#1)) = true
  rw [Bool.not_eq_true', beq_eq_false_iff_ne]; exact h
theorem noFlush1_3 : ∀ t : Fin cfg1.N, ¬cond1_1 (grid1.coords t) → (cfg1.win 3).flush t = false := fun t h =>
  Bool.eq_false_iff.mpr fun hf => h ((hcond1_1 t).mpr ((flush1_3 t).mp hf))

theorem liveAt1_3 : ∀ t : Fin cfg1.N, cond1_1 (grid1.coords t) → cfg1.idle 3 (grid1.coords t) = false := fun t h => by
  show (!(k1_cond2 (grid1.coords t) == 1#1)) = false
  rw [Bool.not_eq_false', beq_iff_eq]; exact h

abbrev VO1_3 : View sig .tc .vmem S2048x128 .f32 := (Memref.whole cc1_stg3_0 : Memref sig .tc .vmem S2048x128 .f32).view
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)

abbrev scM1_0 : Memref sig .tc .vmem S2048x128 .f32 := Memref.whole cc1_scratch0
abbrev VS1_0 : View sig .tc .vmem S2048x128 .f32 := scM1_0.view

theorem scoped1_eq (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d))
          ∗ Pipeline.scopedRestBut (Ix := Unit) (Name := ℕ) (U := UR sig nD τ) (Lvl := ℕ) (Val := Elt F) spec1 c [cc1_scratch0]) := by
  rw [scopedRest1_split]; simp only [scM1_0, owns_whole]; try rfl

end Cert.KernelIdeal.Hand

end
-- ==== Proof.KI.R1RunA.lean ====
import proofs.«428098_j75917841924563_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S1x4096 .i32) (x1 : Vec F S4096x128 .bf16) (x2 : Vec F S2048x1 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, fun xi3 E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunB.lean ====
import proofs.«428098_j75917841924563_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S1x4096 .i32) (x1 : Vec F S4096x128 .bf16) (x2 : Vec F S2048x1 .f32) (xs0 : Vec F S2048x128 .f32) :
    { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, fun xi3 E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunC.lean ====
import proofs.«428098_j75917841924563_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S1x4096 .i32) (x1 : Vec F S4096x128 .bf16) (x2 : Vec F S2048x1 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__scatter_kernel_body i arg2 harg2 arg3 harg3 arg4 harg4 arg5 harg5 arg6 harg6) K } := by
  refine ⟨?_, ?_, fun E K => ?run⟩
  case run =>
    simp only [cc1__scatter_kernel_body_eq_skeleton]; unfold cc1__scatter_kernel_body_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1Dat.lean ====
import proofs.«428098_j75917841924563_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut1 : Vec F S2048x128 .f32 := VO1_3.read (Elt F) (VO1_3.writes (Elt F) VO1_3.junk [])

section Body

variable (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

theorem scover1_A_0 (hc0 : cond1_0 i) (hc1 : ¬cond1_1 i) (x0 : Vec F S1x4096 .i32) (x1 : Vec F S4096x128 .bf16) (x2 : Vec F S2048x1 .f32) (y : S2048x128.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S2048x128.size (by sl_kernel_rfl) y

def sout1_A_0 (hc0 : cond1_0 i) (hc1 : ¬cond1_1 i) (x0 : Vec F S1x4096 .i32) (x1 : Vec F S4096x128 .bf16) (x2 : Vec F S2048x1 .f32) : Vec F S2048x128 .f32 :=
  VS1_0.read (Elt F) (VS1_0.writes (Elt F) VS1_0.junk (kernelRun1_A c i arg2 harg2 arg3 harg3 arg4 harg4 arg5 harg5 arg6 harg6 hc0 hc1 x0 x1 x2).1)

theorem scover1_B_0 (hc0 : ¬cond1_0 i) (hc1 : ¬cond1_1 i) (x0 : Vec F S1x4096 .i32) (x1 : Vec F S4096x128 .bf16) (x2 : Vec F S2048x1 .f32) (xs0 : Vec F S2048x128 .f32) (y : S2048x128.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S2048x128.size (by sl_kernel_rfl) y

def sout1_B_0 (hc0 : ¬cond1_0 i) (hc1 : ¬cond1_1 i) (x0 : Vec F S1x4096 .i32) (x1 : Vec F S4096x128 .bf16) (x2 : Vec F S2048x1 .f32) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).1)

theorem cover1_C_3 (hc0 : ¬cond1_0 i) (hc1 : cond1_1 i) (x0 : Vec F S1x4096 .i32) (x1 : Vec F S4096x128 .bf16) (x2 : Vec F S2048x1 .f32) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

def out1_C_3 (hc0 : ¬cond1_0 i) (hc1 : cond1_1 i) (x0 : Vec F S1x4096 .i32) (x1 : Vec F S4096x128 .bf16) (x2 : Vec F S2048x1 .f32) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)
theorem scover1_C_0 (hc0 : ¬cond1_0 i) (hc1 : cond1_1 i) (x0 : Vec F S1x4096 .i32) (x1 : Vec F S4096x128 .bf16) (x2 : Vec F S2048x1 .f32) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

def sout1_C_0 (hc0 : ¬cond1_0 i) (hc1 : cond1_1 i) (x0 : Vec F S1x4096 .i32) (x1 : Vec F S4096x128 .bf16) (x2 : Vec F S2048x1 .f32) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

end Body

def outsAt1 (c : Dev nD) : (n : ℕ) → n < cfg1.N → Vec F S2048x128 .f32 × Vec F S2048x128 .f32
  | 0, hn => (idleOut1 (F := F), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 391 = 0 then
      if h1 : (n + 1) % 391 = 390 then
        False.elim (by omega)
      else
        (idleOut1 (F := F), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 391 = 390 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1 (F := F), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 391 = 0) (h1 : ¬t.val % 391 = 390) :
    outsAt1 V c t.val t.isLt = (idleOut1 (F := F), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = (idleOut1 (F := F), sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But1 (c : Dev nD) : sProp 𝕄 := Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop(owns (c : Thread nD τ) scM1_0 fullShare ((outsAt1 V c n hn).2) ∗ But1 c)

theorem PhiS1_zero (c : Dev nD) (n : ℕ) (h : n ≤ cfg1.N) (hz : n = 0) :
    PhiS1 V c n h = Pipeline.scopedRest (Ix := Unit) (Name := ℕ) (U := UR sig nD τ) (Lvl := ℕ) (Val := Elt F) spec1 c := by
  subst hz; rfl
theorem PhiS1_succ (c : Dev nD) (n : ℕ) (hn : n < cfg1.N) :
    PhiS1 V c (n + 1) hn = iprop(owns (c : Thread nD τ) scM1_0 fullShare ((outsAt1 V c n hn).2) ∗ But1 c) := rfl
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ But1 c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 391 = 0
  · by_cases h1 : t.val % 391 = 390
    · exfalso; omega
    ·
        rw [Dat.leavesExact_idle (dat1 V c) 3 t (idleAt1_3 t (fun h => h1 ((hcond1_1 t).mp h))) (noFlush1_3 t (fun h => h1 ((hcond1_1 t).mp h)))]
        rw [outsAt1_A V c t h0 h1]
        unfold sout1_A_0; (try dsimp only)
        by_cases hz : t.val = 0
        · rw [PhiS1_castSucc V c t, PhiS1_zero V c _ _ hz, scoped1_eq]
          iintro ⟨⟨HS0, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS1_castSucc V c t, PhiS1_pos V c _ _ hz]
          iintro ⟨⟨HS0, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat1 V c).leavesExact 3 t = owns (c : Thread nD τ) (ms1_3 t) fullShare ((dat1 V c).after 3 t) from by
          unfold Dat.leavesExact; rw [liveAt1_3 t ((hcond1_1 t).mpr h1)], after1_3]
        rw [outsAt1_C V c t h0 h1]
        unfold out1_C_3 sout1_C_0; (try dsimp only)
        rw [PhiS1_castSucc V c t, PhiS1_pos V c _ _ hz]
        iintro ⟨⟨HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat1 V c) 3 t (idleAt1_3 t (fun h => h1 ((hcond1_1 t).mp h))) (noFlush1_3 t (fun h => h1 ((hcond1_1 t).mp h)))]
        rw [outsAt1_B V c t h0 h1]
        unfold sout1_B_0; (try dsimp only)
        rw [PhiS1_castSucc V c t, PhiS1_pos V c _ _ hz]
        iintro ⟨⟨HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.scopedRest (Ix := Unit) (Name := ℕ) (U := UR sig nD τ) (Lvl := ℕ) (Val := Elt F) spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.scopedRest (Ix := Unit) (Name := ℕ) (U := UR sig nD τ) (Lvl := ℕ) (Val := Elt F) spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9775 := N_1; omega), scoped1_eq]
  iintro ⟨HS0, Hg⟩
  isplitl [HS0]
  · iexists _; iexact HS0
  iexact Hg

end Cert.KernelIdeal.Hand

end
-- ==== Proof.KI.R2Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)

abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3 : ∀ t : Fin cfg2.N, ¬cond2_1 (grid2.coords t) → cfg2.idle 3 (grid2.coords t) = true := fun t h => by
  show (!(k2_cond2 (grid2.coords t) == 1#1)) = true
  rw [Bool.not_eq_true', beq_eq_false_iff_ne]; exact h
theorem noFlush2_3 : ∀ t : Fin cfg2.N, ¬cond2_1 (grid2.coords t) → (cfg2.win 3).flush t = false := fun t h =>
  Bool.eq_false_iff.mpr fun hf => h ((hcond2_1 t).mpr ((flush2_3 t).mp hf))

theorem liveAt2_3 : ∀ t : Fin cfg2.N, cond2_1 (grid2.coords t) → cfg2.idle 3 (grid2.coords t) = false := fun t h => by
  show (!(k2_cond2 (grid2.coords t) == 1#1)) = false
  rw [Bool.not_eq_false', beq_iff_eq]; exact h

abbrev VO2_3 : View sig .tc .vmem S4096x128 .bf16 := (Memref.whole cc2_stg3_0 : Memref sig .tc .vmem S4096x128 .bf16).view
abbrev ms2_0 (t : Fin cfg2.N) : Memref sig .tc .vmem S1x4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x128 .bf16 := win2_3.stage (cfg2.slots t 3)
abbrev hs2_3 (t : Fin cfg2.N) : (ms2_3 t).IsWhole := hstage2_3 ((cfg2.slots t 3).cast nbuf2_3)

abbrev scM2_0 : Memref sig .tc .vmem S4096x128 .f32 := Memref.whole cc2_scratch0
abbrev VS2_0 : View sig .tc .vmem S4096x128 .f32 := scM2_0.view

theorem scoped2_eq (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d))
          ∗ Pipeline.scopedRestBut (Ix := Unit) (Name := ℕ) (U := UR sig nD τ) (Lvl := ℕ) (Val := Elt F) spec2 c [cc2_scratch0]) := by
  rw [scopedRest2_split]; simp only [scM2_0, owns_whole]; try rfl

end Cert.KernelIdeal.Hand

end
-- ==== Proof.KI.R2Dat.lean ====
import proofs.«428098_j75917841924563_1_alg».proof.Proof.KI.R2Runs
import proofs.«428098_j75917841924563_1_alg».proof.Proof.KI.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut2 : Vec F S4096x128 .bf16 := VO2_3.read (Elt F) (VO2_3.writes (Elt F) VO2_3.junk [])

section Body

variable (c : Dev nD) (i : grid2.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

def sout2_A_0 (hc0 : cond2_0 i) (hc1 : ¬cond2_1 i) (x0 : Vec F S1x4096 .i32) (x1 : Vec F S2048x128 .bf16) (x2 : Vec F S4096x128 .bf16) : Vec F S4096x128 .f32 :=
  VS2_0.read (Elt F) (VS2_0.writes (Elt F) VS2_0.junk (kernelRun0_A c i arg2 harg2 arg3 harg3 arg4 harg4 arg5 harg5 arg6 harg6 hc0 hc1 x0 x1 x2).1)

def sout2_B_0 (hc0 : ¬cond2_0 i) (hc1 : ¬cond2_1 i) (x0 : Vec F S1x4096 .i32) (x1 : Vec F S2048x128 .bf16) (x2 : Vec F S4096x128 .bf16) (xs0 : Vec F S4096x128 .f32) : Vec F S4096x128 .f32 :=
  VS2_0.read (Elt F) (VS2_0.writes (Elt F) VS2_0.junk (kernelRun0_B c i arg2 harg2 arg3 harg3 arg4 harg4 arg5 harg5 arg6 harg6 hc0 hc1 x0 x1 x2 xs0).1)

def out2_C_3 (hc0 : ¬cond2_0 i) (hc1 : cond2_1 i) (x0 : Vec F S1x4096 .i32) (x1 : Vec F S2048x128 .bf16) (x2 : Vec F S4096x128 .bf16) (xs0 : Vec F S4096x128 .f32) : Vec F S4096x128 .bf16 :=
  VO2_3.read (Elt F) (VO2_3.writes (Elt F) VO2_3.junk (kernelRun0_C c i arg2 harg2 arg3 harg3 arg4 harg4 arg5 harg5 arg6 harg6 hc0 hc1 x0 x1 x2 xs0).1)
def sout2_C_0 (hc0 : ¬cond2_0 i) (hc1 : cond2_1 i) (x0 : Vec F S1x4096 .i32) (x1 : Vec F S2048x128 .bf16) (x2 : Vec F S4096x128 .bf16) (xs0 : Vec F S4096x128 .f32) : Vec F S4096x128 .f32 :=
  VS2_0.read (Elt F) (VS2_0.writes (Elt F) VS2_0.junk (kernelRun0_C c i arg2 harg2 arg3 harg3 arg4 harg4 arg5 harg5 arg6 harg6 hc0 hc1 x0 x1 x2 xs0).2.1)

end Body

def outsAt2 (c : Dev nD) : (n : ℕ) → n < cfg2.N → Vec F S4096x128 .bf16 × Vec F S4096x128 .f32
  | 0, hn => (idleOut2 (F := F), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 25 = 0 then
      if h1 : (n + 1) % 25 = 24 then
        False.elim (by omega)
      else
        (idleOut2 (F := F), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 25 = 24 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2 (F := F), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 25 = 0) (h1 : ¬t.val % 25 = 24) :
    outsAt2 V c t.val t.isLt = (idleOut2 (F := F), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 25 = 0) (h1 : ¬t.val % 25 = 24) :
    outsAt2 V c t.val t.isLt = (idleOut2 (F := F), sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 25 = 0) (h1 : t.val % 25 = 24) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But2 (c : Dev nD) : sProp 𝕄 := Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM2_0 fullShare ((outsAt2 V c n hn).2) ∗ But2 c)

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ But2 c) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ But2 c) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 25 = 0
  · by_cases h1 : t.val % 25 = 24
    · exfalso; omega
    ·
        rw [Dat.leavesExact_idle (dat2 V c) 3 t (idleAt2_3 t (fun h => h1 ((hcond2_1 t).mp h))) (noFlush2_3 t (fun h => h1 ((hcond2_1 t).mp h)))]
        rw [outsAt2_A V c t h0 h1]
        unfold sout2_A_0; (try dsimp only)
        by_cases hz : t.val = 0
        · rw [PhiS2_castSucc V c t, PhiS2_zero V c _ _ hz, scoped2_eq]
          iintro ⟨⟨HS0, Hg⟩, Ho, ⟨%d0, H0⟩, ⟨%d1, H1⟩, ⟨%d2, H2⟩, ⟨%d3, H3⟩⟩
          iapply ((kernelRun0_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS2_castSucc V c t, PhiS2_pos V c _ _ hz]
          iintro ⟨⟨HS0, Hg⟩, Ho, ⟨%d0, H0⟩, ⟨%d1, H1⟩, ⟨%d2, H2⟩, ⟨%d3, H3⟩⟩
          iapply ((kernelRun0_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat2 V c).leavesExact 3 t = owns (c : Thread nD τ) (ms2_3 t) fullShare ((dat2 V c).after 3 t) from by
          unfold Dat.leavesExact; rw [liveAt2_3 t ((hcond2_1 t).mpr h1)], after2_3]
        rw [outsAt2_C V c t h0 h1]
        unfold out2_C_3 sout2_C_0; (try dsimp only)
        rw [PhiS2_castSucc V c t, PhiS2_pos V c _ _ hz]
        iintro ⟨⟨HS0, Hg⟩, Ho, ⟨%d0, H0⟩, ⟨%d1, H1⟩, ⟨%d2, H2⟩, ⟨%d3, H3⟩⟩
        iapply ((kernelRun0_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat2 V c) 3 t (idleAt2_3 t (fun h => h1 ((hcond2_1 t).mp h))) (noFlush2_3 t (fun h => h1 ((hcond2_1 t).mp h)))]
        rw [outsAt2_B V c t h0 h1]
        unfold sout2_B_0; (try dsimp only)
        rw [PhiS2_castSucc V c t, PhiS2_pos V c _ _ hz]
        iintro ⟨⟨HS0, Hg⟩, Ho, ⟨%d0, H0⟩, ⟨%d1, H1⟩, ⟨%d2, H2⟩, ⟨%d3, H3⟩⟩
        iapply ((kernelRun0_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.scopedRest (Ix := Unit) (Name := ℕ) (U := UR sig nD τ) (Lvl := ℕ) (Val := Elt F) spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.scopedRest (Ix := Unit) (Name := ℕ) (U := UR sig nD τ) (Lvl := ℕ) (Val := Elt F) spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 9775 := N_2; omega), scoped2_eq]
  iintro ⟨HS0, Hg⟩
  isplitl [HS0]
  · iexists _; iexact HS0
  iexact Hg

end Cert.KernelIdeal.Hand

end
-- ==== Proof.KI.R3Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 391 = 0 :=
  (by decide +kernel : ∀ t : Fin grid3.N, cond3_0 (grid3.coords t) ↔ t.val % 391 = 0)

abbrev cond3_1 (i : grid3.Coords) : Prop := k3_cond2 i = 1#1
theorem hcond3_1 : ∀ t : Fin cfg3.N, cond3_1 (grid3.coords t) ↔ t.val % 391 = 390 :=
  (by decide +kernel : ∀ t : Fin grid3.N, cond3_1 (grid3.coords t) ↔ t.val % 391 = 390)

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl

theorem idleAt3_3 : ∀ t : Fin cfg3.N, ¬cond3_1 (grid3.coords t) → cfg3.idle 3 (grid3.coords t) = true := fun t h => by
  show (!(k3_cond2 (grid3.coords t) == 1#1)) = true
  rw [Bool.not_eq_true', beq_eq_false_iff_ne]; exact h
theorem noFlush3_3 : ∀ t : Fin cfg3.N, ¬cond3_1 (grid3.coords t) → (cfg3.win 3).flush t = false := fun t h =>
  Bool.eq_false_iff.mpr fun hf => h ((hcond3_1 t).mpr ((flush3_3 t).mp hf))

theorem liveAt3_3 : ∀ t : Fin cfg3.N, cond3_1 (grid3.coords t) → cfg3.idle 3 (grid3.coords t) = false := fun t h => by
  show (!(k3_cond2 (grid3.coords t) == 1#1)) = false
  rw [Bool.not_eq_false', beq_iff_eq]; exact h

abbrev VO3_3 : View sig .tc .vmem S2048x128 .f32 := (Memref.whole cc3_stg3_0 : Memref sig .tc .vmem S2048x128 .f32).view
abbrev ms3_0 (t : Fin cfg3.N) : Memref sig .tc .vmem S1x4096 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x128 .f32 := win3_3.stage (cfg3.slots t 3)
abbrev hs3_3 (t : Fin cfg3.N) : (ms3_3 t).IsWhole := hstage3_3 ((cfg3.slots t 3).cast nbuf3_3)

abbrev scM3_0 : Memref sig .tc .vmem S2048x128 .f32 := Memref.whole cc3_scratch0
abbrev VS3_0 : View sig .tc .vmem S2048x128 .f32 := scM3_0.view

theorem scoped3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d))
          ∗ Pipeline.scopedRestBut (Ix := Unit) (Name := ℕ) (U := UR sig nD τ) (Lvl := ℕ) (Val := Elt F) spec3 c [cc3_scratch0]) := by
  rw [scopedRest3_split]; simp only [scM3_0, owns_whole]; try rfl

end Cert.KernelIdeal.Hand

end
-- ==== Proof.KI.R3Dat.lean ====
import proofs.«428098_j75917841924563_1_alg».proof.Proof.KI.R3Runs
import proofs.«428098_j75917841924563_1_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut3 : Vec F S2048x128 .f32 := VO3_3.read (Elt F) (VO3_3.writes (Elt F) VO3_3.junk [])

section Body

variable (c : Dev nD) (i : grid3.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

def sout3_A_0 (hc0 : cond3_0 i) (hc1 : ¬cond3_1 i) (x0 : Vec F S1x4096 .i32) (x1 : Vec F S4096x128 .bf16) (x2 : Vec F S2048x1 .f32) : Vec F S2048x128 .f32 :=
  VS3_0.read (Elt F) (VS3_0.writes (Elt F) VS3_0.junk (kernelRun1_A c i arg2 harg2 arg3 harg3 arg4 harg4 arg5 harg5 arg6 harg6 hc0 hc1 x0 x1 x2).1)

def sout3_B_0 (hc0 : ¬cond3_0 i) (hc1 : ¬cond3_1 i) (x0 : Vec F S1x4096 .i32) (x1 : Vec F S4096x128 .bf16) (x2 : Vec F S2048x1 .f32) (xs0 : Vec F S2048x128 .f32) : Vec F S2048x128 .f32 :=
  VS3_0.read (Elt F) (VS3_0.writes (Elt F) VS3_0.junk (kernelRun1_B c i arg2 harg2 arg3 harg3 arg4 harg4 arg5 harg5 arg6 harg6 hc0 hc1 x0 x1 x2 xs0).1)

def out3_C_3 (hc0 : ¬cond3_0 i) (hc1 : cond3_1 i) (x0 : Vec F S1x4096 .i32) (x1 : Vec F S4096x128 .bf16) (x2 : Vec F S2048x1 .f32) (xs0 : Vec F S2048x128 .f32) : Vec F S2048x128 .f32 :=
  VO3_3.read (Elt F) (VO3_3.writes (Elt F) VO3_3.junk (kernelRun1_C c i arg2 harg2 arg3 harg3 arg4 harg4 arg5 harg5 arg6 harg6 hc0 hc1 x0 x1 x2 xs0).1)
def sout3_C_0 (hc0 : ¬cond3_0 i) (hc1 : cond3_1 i) (x0 : Vec F S1x4096 .i32) (x1 : Vec F S4096x128 .bf16) (x2 : Vec F S2048x1 .f32) (xs0 : Vec F S2048x128 .f32) : Vec F S2048x128 .f32 :=
  VS3_0.read (Elt F) (VS3_0.writes (Elt F) VS3_0.junk (kernelRun1_C c i arg2 harg2 arg3 harg3 arg4 harg4 arg5 harg5 arg6 harg6 hc0 hc1 x0 x1 x2 xs0).2.1)

end Body

def outsAt3 (c : Dev nD) : (n : ℕ) → n < cfg3.N → Vec F S2048x128 .f32 × Vec F S2048x128 .f32
  | 0, hn => (idleOut3 (F := F), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 391 = 0 then
      if h1 : (n + 1) % 391 = 390 then
        False.elim (by omega)
      else
        (idleOut3 (F := F), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 391 = 390 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idleOut3 (F := F), sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 391 = 0) (h1 : ¬t.val % 391 = 390) :
    outsAt3 V c t.val t.isLt = (idleOut3 (F := F), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 391 = 0) (h1 : ¬t.val % 391 = 390) :
    outsAt3 V c t.val t.isLt = (idleOut3 (F := F), sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 391 = 0) (h1 : t.val % 391 = 390) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But3 (c : Dev nD) : sProp 𝕄 := Pipeline.scopedRestBut (Ix := Unit) (Name := ℕ) (U := UR sig nD τ) (Lvl := ℕ) (Val := Elt F) spec3 c [cc3_scratch0]

def PhiS3 (c : Dev nD) : (n : ℕ) → n ≤ cfg3.N → sProp 𝕄
  | 0, _ => Pipeline.scopedRest (Ix := Unit) (Name := ℕ) (U := UR sig nD τ) (Lvl := ℕ) (Val := Elt F) spec3 c
  | n + 1, hn => iprop(owns (c : Thread nD τ) scM3_0 fullShare ((outsAt3 V c n hn).2) ∗ But3 c)

theorem PhiS3_zero (c : Dev nD) (n : ℕ) (h : n ≤ cfg3.N) (hz : n = 0) :
    PhiS3 V c n h = Pipeline.scopedRest (Ix := Unit) (Name := ℕ) (U := UR sig nD τ) (Lvl := ℕ) (Val := Elt F) spec3 c := by
  subst hz; rfl
theorem PhiS3_succ (c : Dev nD) (n : ℕ) (hn : n < cfg3.N) :
    PhiS3 V c (n + 1) hn = iprop(owns (c : Thread nD τ) scM3_0 fullShare ((outsAt3 V c n hn).2) ∗ But3 c) := rfl
theorem PhiS3_pos (c : Dev nD) (n : ℕ) (h : n ≤ cfg3.N) (hz : n ≠ 0) :
    PhiS3 V c n h = iprop(owns (c : Thread nD τ) scM3_0 fullShare ((outsAt3 V c (n - 1) (by omega)).2) ∗ But3 c) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 391 = 0
  · by_cases h1 : t.val % 391 = 390
    · exfalso; omega
    ·
        rw [Dat.leavesExact_idle (dat3 V c) 3 t (idleAt3_3 t (fun h => h1 ((hcond3_1 t).mp h))) (noFlush3_3 t (fun h => h1 ((hcond3_1 t).mp h)))]
        rw [outsAt3_A V c t h0 h1]
        unfold sout3_A_0; (try dsimp only)
        by_cases hz : t.val = 0
        · rw [PhiS3_castSucc V c t, PhiS3_zero V c _ _ hz, scoped3_eq]
          iintro ⟨⟨HS0, Hg⟩, Ho, ⟨%d0, H0⟩, ⟨%d1, H1⟩, ⟨%d2, H2⟩, ⟨%d3, H3⟩⟩
          iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS3_castSucc V c t, PhiS3_pos V c _ _ hz]
          iintro ⟨⟨HS0, Hg⟩, Ho, ⟨%d0, H0⟩, ⟨%d1, H1⟩, ⟨%d2, H2⟩, ⟨%d3, H3⟩⟩
          iapply ((kernelRun1_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat3 V c).leavesExact 3 t = owns (c : Thread nD τ) (ms3_3 t) fullShare ((dat3 V c).after 3 t) from by
          unfold Dat.leavesExact; rw [liveAt3_3 t ((hcond3_1 t).mpr h1)], after3_3]
        rw [outsAt3_C V c t h0 h1]
        unfold out3_C_3 sout3_C_0; (try dsimp only)
        rw [PhiS3_castSucc V c t, PhiS3_pos V c _ _ hz]
        iintro ⟨⟨HS0, Hg⟩, Ho, ⟨%d0, H0⟩, ⟨%d1, H1⟩, ⟨%d2, H2⟩, ⟨%d3, H3⟩⟩
        iapply ((kernelRun1_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat3 V c) 3 t (idleAt3_3 t (fun h => h1 ((hcond3_1 t).mp h))) (noFlush3_3 t (fun h => h1 ((hcond3_1 t).mp h)))]
        rw [outsAt3_B V c t h0 h1]
        unfold sout3_B_0; (try dsimp only)
        rw [PhiS3_castSucc V c t, PhiS3_pos V c _ _ hz]
        iintro ⟨⟨HS0, Hg⟩, Ho, ⟨%d0, H0⟩, ⟨%d1, H1⟩, ⟨%d2, H2⟩, ⟨%d3, H3⟩⟩
        iapply ((kernelRun1_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.scopedRest (Ix := Unit) (Name := ℕ) (U := UR sig nD τ) (Lvl := ℕ) (Val := Elt F) spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.scopedRest (Ix := Unit) (Name := ℕ) (U := UR sig nD τ) (Lvl := ℕ) (Val := Elt F) spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 9775 := N_3; omega), scoped3_eq]
  iintro ⟨HS0, Hg⟩
  isplitl [HS0]
  · iexists _; iexact HS0
  iexact Hg

end Cert.KernelIdeal.Hand

end
-- ==== Proof.KI.R4Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 25 = 0 :=
  (by decide +kernel : ∀ t : Fin grid4.N, cond4_0 (grid4.coords t) ↔ t.val % 25 = 0)

abbrev cond4_1 (i : grid4.Coords) : Prop := k4_cond2 i = 1#1
theorem hcond4_1 : ∀ t : Fin cfg4.N, cond4_1 (grid4.coords t) ↔ t.val % 25 = 24 :=
  (by decide +kernel : ∀ t : Fin grid4.N, cond4_1 (grid4.coords t) ↔ t.val % 25 = 24)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl

theorem idleAt4_3 : ∀ t : Fin cfg4.N, ¬cond4_1 (grid4.coords t) → cfg4.idle 3 (grid4.coords t) = true := fun t h => by
  show (!(k4_cond2 (grid4.coords t) == 1#1)) = true
  rw [Bool.not_eq_true', beq_eq_false_iff_ne]; exact h
theorem noFlush4_3 : ∀ t : Fin cfg4.N, ¬cond4_1 (grid4.coords t) → (cfg4.win 3).flush t = false := fun t h =>
  Bool.eq_false_iff.mpr fun hf => h ((hcond4_1 t).mpr ((flush4_3 t).mp hf))

theorem liveAt4_3 : ∀ t : Fin cfg4.N, cond4_1 (grid4.coords t) → cfg4.idle 3 (grid4.coords t) = false := fun t h => by
  show (!(k4_cond2 (grid4.coords t) == 1#1)) = false
  rw [Bool.not_eq_false', beq_iff_eq]; exact h

abbrev VO4_3 : View sig .tc .vmem S4096x128 .bf16 := (Memref.whole cc4_stg3_0 : Memref sig .tc .vmem S4096x128 .bf16).view
abbrev ms4_0 (t : Fin cfg4.N) : Memref sig .tc .vmem S1x4096 .i32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x128 .bf16 := win4_3.stage (cfg4.slots t 3)
abbrev hs4_3 (t : Fin cfg4.N) : (ms4_3 t).IsWhole := hstage4_3 ((cfg4.slots t 3).cast nbuf4_3)

abbrev scM4_0 : Memref sig .tc .vmem S4096x128 .f32 := Memref.whole cc4_scratch0
abbrev VS4_0 : View sig .tc .vmem S4096x128 .f32 := scM4_0.view

theorem scoped4_eq (c : Dev nD) :
    (Pipeline.scopedRest (Ix := Unit) (Name := ℕ) (U := UR sig nD τ) (Lvl := ℕ) (Val := Elt F) spec4 c : sProp 𝕄)
      = iprop(iprop((∃ d, owns (c : Thread nD τ) scM4_0 fullShare d))
          ∗ Pipeline.scopedRestBut (Ix := Unit) (Name := ℕ) (U := UR sig nD τ) (Lvl := ℕ) (Val := Elt F) spec4 c [cc4_scratch0]) := by
  rw [scopedRest4_split]; simp only [scM4_0, owns_whole]; try rfl

end Cert.KernelIdeal.Hand

end
-- ==== Proof.KI.R4Dat.lean ====
import proofs.«428098_j75917841924563_1_alg».proof.Proof.KI.R4Runs
import proofs.«428098_j75917841924563_1_alg».proof.Proof.KI.R0Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut4 : Vec F S4096x128 .bf16 := VO4_3.read (Elt F) (VO4_3.writes (Elt F) VO4_3.junk [])

section Body

variable (c : Dev nD) (i : grid4.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

def sout4_A_0 (hc0 : cond4_0 i) (hc1 : ¬cond4_1 i) (x0 : Vec F S1x4096 .i32) (x1 : Vec F S2048x128 .bf16) (x2 : Vec F S4096x128 .bf16) : Vec F S4096x128 .f32 :=
  VS4_0.read (Elt F) (VS4_0.writes (Elt F) VS4_0.junk (kernelRun0_A c i arg2 harg2 arg3 harg3 arg4 harg4 arg5 harg5 arg6 harg6 hc0 hc1 x0 x1 x2).1)

def sout4_B_0 (hc0 : ¬cond4_0 i) (hc1 : ¬cond4_1 i) (x0 : Vec F S1x4096 .i32) (x1 : Vec F S2048x128 .bf16) (x2 : Vec F S4096x128 .bf16) (xs0 : Vec F S4096x128 .f32) : Vec F S4096x128 .f32 :=
  VS4_0.read (Elt F) (VS4_0.writes (Elt F) VS4_0.junk (kernelRun0_B c i arg2 harg2 arg3 harg3 arg4 harg4 arg5 harg5 arg6 harg6 hc0 hc1 x0 x1 x2 xs0).1)

def out4_C_3 (hc0 : ¬cond4_0 i) (hc1 : cond4_1 i) (x0 : Vec F S1x4096 .i32) (x1 : Vec F S2048x128 .bf16) (x2 : Vec F S4096x128 .bf16) (xs0 : Vec F S4096x128 .f32) : Vec F S4096x128 .bf16 :=
  VO4_3.read (Elt F) (VO4_3.writes (Elt F) VO4_3.junk (kernelRun0_C c i arg2 harg2 arg3 harg3 arg4 harg4 arg5 harg5 arg6 harg6 hc0 hc1 x0 x1 x2 xs0).1)
def sout4_C_0 (hc0 : ¬cond4_0 i) (hc1 : cond4_1 i) (x0 : Vec F S1x4096 .i32) (x1 : Vec F S2048x128 .bf16) (x2 : Vec F S4096x128 .bf16) (xs0 : Vec F S4096x128 .f32) : Vec F S4096x128 .f32 :=
  VS4_0.read (Elt F) (VS4_0.writes (Elt F) VS4_0.junk (kernelRun0_C c i arg2 harg2 arg3 harg3 arg4 harg4 arg5 harg5 arg6 harg6 hc0 hc1 x0 x1 x2 xs0).2.1)

end Body

def outsAt4 (c : Dev nD) : (n : ℕ) → n < cfg4.N → Vec F S4096x128 .bf16 × Vec F S4096x128 .f32
  | 0, hn => (idleOut4 (F := F), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 25 = 0 then
      if h1 : (n + 1) % 25 = 24 then
        False.elim (by omega)
      else
        (idleOut4 (F := F), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 25 = 24 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (idleOut4 (F := F), sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 25 = 0) (h1 : ¬t.val % 25 = 24) :
    outsAt4 V c t.val t.isLt = (idleOut4 (F := F), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 25 = 0) (h1 : ¬t.val % 25 = 24) :
    outsAt4 V c t.val t.isLt = (idleOut4 (F := F), sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 25 = 0) (h1 : t.val % 25 = 24) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But4 (c : Dev nD) : sProp 𝕄 := Pipeline.scopedRestBut (Ix := Unit) (Name := ℕ) (U := UR sig nD τ) (Lvl := ℕ) (Val := Elt F) spec4 c [cc4_scratch0]

def PhiS4 (c : Dev nD) : (n : ℕ) → n ≤ cfg4.N → sProp 𝕄
  | 0, _ => Pipeline.scopedRest (Ix := Unit) (Name := ℕ) (U := UR sig nD τ) (Lvl := ℕ) (Val := Elt F) spec4 c
  | n + 1, hn => iprop(owns (c : Thread nD τ) scM4_0 fullShare ((outsAt4 V c n hn).2) ∗ But4 c)

theorem PhiS4_zero (c : Dev nD) (n : ℕ) (h : n ≤ cfg4.N) (hz : n = 0) :
    PhiS4 V c n h = Pipeline.scopedRest (Ix := Unit) (Name := ℕ) (U := UR sig nD τ) (Lvl := ℕ) (Val := Elt F) spec4 c := by
  subst hz; rfl
theorem PhiS4_succ (c : Dev nD) (n : ℕ) (hn : n < cfg4.N) :
    PhiS4 V c (n + 1) hn = iprop(owns (c : Thread nD τ) scM4_0 fullShare ((outsAt4 V c n hn).2) ∗ But4 c) := rfl
theorem PhiS4_pos (c : Dev nD) (n : ℕ) (h : n ≤ cfg4.N) (hz : n ≠ 0) :
    PhiS4 V c n h = iprop(owns (c : Thread nD τ) scM4_0 fullShare ((outsAt4 V c (n - 1) (by omega)).2) ∗ But4 c) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 25 = 0
  · by_cases h1 : t.val % 25 = 24
    · exfalso; omega
    ·
        rw [Dat.leavesExact_idle (dat4 V c) 3 t (idleAt4_3 t (fun h => h1 ((hcond4_1 t).mp h))) (noFlush4_3 t (fun h => h1 ((hcond4_1 t).mp h)))]
        rw [outsAt4_A V c t h0 h1]
        unfold sout4_A_0; (try dsimp only)
        by_cases hz : t.val = 0
        · rw [PhiS4_castSucc V c t, PhiS4_zero V c _ _ hz, scoped4_eq]
          iintro ⟨⟨HS0, Hg⟩, Ho, ⟨%d0, H0⟩, ⟨%d1, H1⟩, ⟨%d2, H2⟩, ⟨%d3, H3⟩⟩
          iapply ((kernelRun0_A c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
        · rw [PhiS4_castSucc V c t, PhiS4_pos V c _ _ hz]
          iintro ⟨⟨HS0, Hg⟩, Ho, ⟨%d0, H0⟩, ⟨%d1, H1⟩, ⟨%d2, H2⟩, ⟨%d3, H3⟩⟩
          iapply ((kernelRun0_A c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          iframe Ho H0 H1 H2
          iexists _; iexact H3
  · have hz : t.val ≠ 0 := fun e => h0 (by rw [e])
    by_cases h1 : t.val % 25 = 24
    ·
        rw [show (dat4 V c).leavesExact 3 t = owns (c : Thread nD τ) (ms4_3 t) fullShare ((dat4 V c).after 3 t) from by
          unfold Dat.leavesExact; rw [liveAt4_3 t ((hcond4_1 t).mpr h1)], after4_3]
        rw [outsAt4_C V c t h0 h1]
        unfold out4_C_3 sout4_C_0; (try dsimp only)
        rw [PhiS4_castSucc V c t, PhiS4_pos V c _ _ hz]
        iintro ⟨⟨HS0, Hg⟩, Ho, ⟨%d0, H0⟩, ⟨%d1, H1⟩, ⟨%d2, H2⟩, ⟨%d3, H3⟩⟩
        iapply ((kernelRun0_C c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover0_C_3 c _ _ _ _ _ _ _ _ _ _ _ _ _ _ _ _ _)
    ·
        rw [Dat.leavesExact_idle (dat4 V c) 3 t (idleAt4_3 t (fun h => h1 ((hcond4_1 t).mp h))) (noFlush4_3 t (fun h => h1 ((hcond4_1 t).mp h)))]
        rw [outsAt4_B V c t h0 h1]
        unfold sout4_B_0; (try dsimp only)
        rw [PhiS4_castSucc V c t, PhiS4_pos V c _ _ hz]
        iintro ⟨⟨HS0, Hg⟩, Ho, ⟨%d0, H0⟩, ⟨%d1, H1⟩, ⟨%d2, H2⟩, ⟨%d3, H3⟩⟩
        iapply ((kernelRun0_B c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        iframe Ho H0 H1 H2
        iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.scopedRest (Ix := Unit) (Name := ℕ) (U := UR sig nD τ) (Lvl := ℕ) (Val := Elt F) spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.scopedRest (Ix := Unit) (Name := ℕ) (U := UR sig nD τ) (Lvl := ℕ) (Val := Elt F) spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 9775 := N_4; omega), scoped4_eq]
  iintro ⟨HS0, Hg⟩
  isplitl [HS0]
  · iexists _; iexact HS0
  iexact Hg

end Cert.KernelIdeal.Hand

end
-- ==== Proof.KI.R5Runs.lean ====
import proofs.«428098_j75917841924563_1_alg».proof.Proof.Gen.KernelIdeal.Launch
import proofs.«428098_j75917841924563_1_alg».proof.Proof.Gen.KernelIdeal.Skeleton
import proofs.«428098_j75917841924563_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 391 = 0 :=
  (by decide +kernel : ∀ t : Fin grid5.N, cond5_0 (grid5.coords t) ↔ t.val % 391 = 0)

abbrev cond5_1 (i : grid5.Coords) : Prop := k5_cond2 i = 1#1
theorem hcond5_1 : ∀ t : Fin cfg5.N, cond5_1 (grid5.coords t) ↔ t.val % 391 = 390 :=
  (by decide +kernel : ∀ t : Fin grid5.N, cond5_1 (grid5.coords t) ↔ t.val % 391 = 390)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl

theorem idleAt5_3 : ∀ t : Fin cfg5.N, ¬cond5_1 (grid5.coords t) → cfg5.idle 3 (grid5.coords t) = true := fun t h => by
  show (!(k5_cond2 (grid5.coords t) == 1#1)) = true
  rw [Bool.not_eq_true', beq_eq_false_iff_ne]; exact h
theorem noFlush5_3 : ∀ t : Fin cfg5.N, ¬cond5_1 (grid5.coords t) → (cfg5.win 3).flush t = false := fun t h =>
  Bool.eq_false_iff.mpr fun hf => h ((hcond5_1 t).mpr ((flush5_3 t).mp hf))

theorem liveAt5_3 : ∀ t : Fin cfg5.N, cond5_1 (grid5.coords t) → cfg5.idle 3 (grid5.coords t) = false := fun t h => by
  show (!(k5_cond2 (grid5.coords t) == 1#1)) = false
  rw [Bool.not_eq_false', beq_iff_eq]; exact h

abbrev VO5_3 : View sig .tc .vmem S2048x128 .f32 := (Memref.whole cc5_stg3_0 : Memref sig .tc .vmem S2048x128 .f32).view
abbrev ms5_0 (t : Fin cfg5.N) : Memref sig .tc .vmem S1x4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2048x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)

abbrev scM5_0 : Memref sig .tc .vmem S2048x128 .f32 := Memref.whole cc5_scratch0
abbrev VS5_0 : View sig .tc .vmem S2048x128 .f32 := scM5_0.view

theorem scoped5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d))
          ∗ Pipeline.scopedRestBut (Ix := Unit) (Name := ℕ) (U := UR sig nD τ) (Lvl := ℕ) (Val := Elt F) spec5 c [cc5_scratch0]) := by
  rw [scopedRest5_split]; simp only [scM5_0, owns_whole]; try rfl

end Cert.KernelIdeal.Hand

end
-- ==== Proof.KI.R5Dat.lean ====
import proofs.«428098_j75917841924563_1_alg».proof.Proof.KI.R5Runs
import proofs.«428098_j75917841924563_1_alg».proof.Proof.KI.R1Dat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def idleOut5 : Vec F S2048x128 .f32 := VO5_3.read (Elt F) (VO5_3.writes (Elt F) VO5_3.junk [])

section Body

variable (c : Dev nD) (i : grid5.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

def sout5_A_0 (hc0 : cond5_0 i) (hc1 : ¬cond5_1 i) (x0 : Vec F S1x4096 .i32) (x1 : Vec F S4096x128 .bf16) (x2 : Vec F S2048x1 .f32) : Vec F S2048x128 .f32 :=
  VS5_0.read (Elt F) (VS5_0.writes (Elt F) VS5_0.junk (kernelRun1_A c i arg2 harg2 arg3 harg3 arg4 harg4 arg5 harg5 arg6 harg6 hc0 hc1 x0 x1 x2).1)

def sout5_B_0 (hc0 : ¬cond5_0 i) (hc1 : ¬cond5_1 i) (x0 : Vec F S1x4096 .i32) (x1 : Vec F S4096x128 .bf16) (x2 : Vec F S2048x1 .f32) (xs0 : Vec F S2048x128 .f32) : Vec F S2048x128 .f32 :=
  VS5_0.read (Elt F) (VS5_0.writes (Elt F) VS5_0.junk (kernelRun1_B c i arg2 harg2 arg3 harg3 arg4 harg4 arg5 harg5 arg6 harg6 hc0 hc1 x0 x1 x2 xs0).1)

def out5_C_3 (hc0 : ¬cond5_0 i) (hc1 : cond5_1 i) (x0 : Vec F S1x4096 .i32) (x1 : Vec F S4096x128 .bf16) (x2 : Vec F S2048x1 .f32) (xs0 : Vec F S2048x128 .f32) : Vec F S2048x128 .f32 :=
  VO5_3.read (Elt F) (VO5_3.writes (Elt F) VO5_3.junk (kernelRun1_C c i arg2 harg2 arg3 harg3 arg4 harg4 arg5 harg5 arg6 harg6 hc0 hc1 x0 x1 x2 xs0).1)
def sout5_C_0 (hc0 : ¬cond5_0 i) (hc1 : cond5_1 i) (x0 : Vec F S1x4096 .i32) (x1 : Vec F S4096x128 .bf16) (x2 : Vec F S2048x1 .f32) (xs0 : Vec F S2048x128 .f32) : Vec F S2048x128 .f32 :=
  VS5_0.read (Elt F) (VS5_0.writes (Elt F) VS5_0.junk (kernelRun1_C c i arg2 harg2 arg3 harg3 arg4 harg4 arg5 harg5 arg6 harg6 hc0 hc1 x0 x1 x2 xs0).2.1)

end Body

def outsAt5 (c : Dev nD) : (n : ℕ) → n < cfg5.N → Vec F S2048x128 .f32 × Vec F S2048x128 .f32
  | 0, hn => (idleOut5 (F := F), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 391 = 0 then
      if h1 : (n + 1) % 391 = 390 then
        False.elim (by omega)
      else
        (idleOut5 (F := F), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 391 = 390 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (idleOut5 (F := F), sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 391 = 0) (h1 : ¬t.val % 391 = 390) :
    outsAt5 V c t.val t.isLt = (idleOut5 (F := F), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 391 = 0) (h1 : ¬t.val % 391 = 390) :
    outsAt5 V c t.val t.isLt = (idleOut5 (F := F), sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 391 = 0) (h1 : t.val % 391 = 390) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h1); omega)
  | succ n => exact (dif_neg h0).trans ((dif_pos h1).trans rfl)

abbrev But5 (c : Dev nD) : sProp 𝕄 := Pipeline.scopedRestBut (Ix := Unit) (Name := ℕ) (U := UR sig nD τ) (Lvl := ℕ) (Val := Elt F) spec5 c [cc5_scratch0]

def PhiS5 (c : Dev nD) : (n : ℕ) → n ≤ cfg5.N → sProp 𝕄
  | 0, _ => Pipeline.scopedRest (Ix := Unit) (Name := ℕ) (U := UR sig nD τ) (Lvl := ℕ) (Val := Elt F) spec5 c
  | n + 1, hn => iprop(owns (c : Thread nD τ) scM5_0 fullShare ((outsAt5 V c n hn).2) ∗ But5 c)

theorem PhiS5_zero (c : Dev nD) (n : ℕ) (h : n ≤ cfg5.N) (hz : n = 0) :
    PhiS5 V c n h = Pipeline.scopedRest (Ix := Unit) (Name := ℕ) (U := UR sig nD τ) (Lvl := ℕ) (Val := Elt F) spec5 c := by
  subst hz; rfl
theorem PhiS5_succ (c : Dev nD) (n : ℕ) (hn : n < cfg5.N) :
    PhiS5 V c (n + 1) hn = iprop(owns (c : Thread nD τ) scM5_0 fullShare ((outsAt5 V c n hn).2) ∗ But5 c) := rfl
theorem PhiS5_pos (c : Dev nD) (n : ℕ) (h : n ≤ cfg5.N) (hz : n ≠ 0) :
    PhiS5 V c n h = iprop(owns (c : Thread nD τ) scM5_0 fullShare ((outsAt5 V c (n - 1) (by omega)).2) ∗ But5 c) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 391 = 0
  · by_cases h1 : t.val % 391 = 390
    · exfalso; omega
    ·
        rw [Dat.leavesExact_idle (dat5 V c) 3 t (idleAt5_3 t (fun h => h1 ((hcond5_1 t).mp h))) (noFlush5_3 t (fun h => h1 ((hcond5_1 t).mp h)))]
        rw [outsAt5_A V c t h0 h1]
        unfold sout5_A_0; (try dsimp only)
        by_cases hz : t.val = 0
        · rw [PhiS5_castSucc V c t, PhiS5_zero V c _ _ hz, scoped5_eq]
          iintro ⟨⟨HS0, Hg⟩, Ho, ⟨%d0, H0⟩, ⟨%d1, H1⟩, ⟨%d2, H2⟩, ⟨%d3, H3⟩⟩
          iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2 _ Set.univ _)
          iframe H0 H1 H2 H3 HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
        · rw [PhiS5_castSucc V c t, PhiS5_pos V c _ _ hz]
          iintro ⟨⟨HS0, Hg⟩, Ho, ⟨%d0, H0⟩, ⟨%d1, H1⟩, ⟨%d2, H2⟩, ⟨%d3, H3⟩⟩
          iapply ((kernelRun1_A c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)).2 _ Set.univ _)
          iframe H0 H1 H2 H3
          isplitl [HS0]; · iexists _; iexact HS0
          iintro ⟨H0, H1, H2, H3, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _)
            iexact Hg
          iframe Ho H0 H1 H2
          iexists _; iexact H3
  · have hz : t.val ≠ 0 := fun e => h0 (by rw [e])
    by_cases h1 : t.val % 391 = 390
    ·
        rw [show (dat5 V c).leavesExact 3 t = owns (c : Thread nD τ) (ms5_3 t) fullShare ((dat5 V c).after 3 t) from by
          unfold Dat.leavesExact; rw [liveAt5_3 t ((hcond5_1 t).mpr h1)], after5_3]
        rw [outsAt5_C V c t h0 h1]
        unfold out5_C_3 sout5_C_0; (try dsimp only)
        rw [PhiS5_castSucc V c t, PhiS5_pos V c _ _ hz]
        iintro ⟨⟨HS0, Hg⟩, Ho, ⟨%d0, H0⟩, ⟨%d1, H1⟩, ⟨%d2, H2⟩, ⟨%d3, H3⟩⟩
        iapply ((kernelRun1_C c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) _).2.2 Set.univ _)
        iframe H0 H1 H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        iframe Ho H0 H1 H2
        unfold owns; iexists _; isplitr
        swap; · iexact H3
        ipureintro; exact View.read_writes_of_cover _ _ _ _ _ (cover1_C_3 c _ _ _ _ _ _ _ _ _ _ _ _ _ _ _ _ _)
    ·
        rw [Dat.leavesExact_idle (dat5 V c) 3 t (idleAt5_3 t (fun h => h1 ((hcond5_1 t).mp h))) (noFlush5_3 t (fun h => h1 ((hcond5_1 t).mp h)))]
        rw [outsAt5_B V c t h0 h1]
        unfold sout5_B_0; (try dsimp only)
        rw [PhiS5_castSucc V c t, PhiS5_pos V c _ _ hz]
        iintro ⟨⟨HS0, Hg⟩, Ho, ⟨%d0, H0⟩, ⟨%d1, H1⟩, ⟨%d2, H2⟩, ⟨%d3, H3⟩⟩
        iapply ((kernelRun1_B c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) _).2 _ Set.univ _)
        iframe H0 H1 H2 H3 HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        iframe Ho H0 H1 H2
        iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.scopedRest (Ix := Unit) (Name := ℕ) (U := UR sig nD τ) (Lvl := ℕ) (Val := Elt F) spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.scopedRest (Ix := Unit) (Name := ℕ) (U := UR sig nD τ) (Lvl := ℕ) (Val := Elt F) spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 9775 := N_5; omega), scoped5_eq]
  iintro ⟨HS0, Hg⟩
  isplitl [HS0]
  · iexists _; iexact HS0
  iexact Hg

end Cert.KernelIdeal.Hand

end
-- ==== Proof.KI.Fold.lean ====
import proofs.«428098_j75917841924563_1_alg».proof.Proof.KI.R0Dat
import proofs.«428098_j75917841924563_1_alg».proof.Proof.KI.R1Dat
import proofs.«428098_j75917841924563_1_alg».proof.Proof.KI.R2Dat
import proofs.«428098_j75917841924563_1_alg».proof.Proof.KI.R3Dat
import proofs.«428098_j75917841924563_1_alg».proof.Proof.KI.R4Dat
import proofs.«428098_j75917841924563_1_alg».proof.Proof.KI.R5Dat
import proofs.«428098_j75917841924563_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev W9 : Dev nD → Valuation τ sig (Elt F) := fun c => Gen.V9 m c

def W10 (c : Dev nD) : Valuation τ sig (Elt F) :=
  Pipeline.withArrays spec0 c (W9 m c) fun w => (dat0 (rd (W9 m)) c).arrAt w cfg0.N
theorem W10_arr (c : Dev nD) (w : Fin cfg0.W) :
    W10 m c (Proc.devRef .tc (Pipeline.arrRef spec0 w)) = (dat0 (rd (W9 m)) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
theorem hF0 (c : Dev nD) (w : Fin cfg0.W) : (dat0 (rd (W9 m)) c).arrAt w cfg0.N = rd (W10 m) c (Pipeline.arrRef spec0 w) :=
  (W10_arr m c w).symm
theorem hrest0 (c : Dev nD) : ∀ b, b ∉ Finset.univ.image (Pipeline.arrRef spec0) → rd (W10 m) c b = rd (W9 m) c b :=
  fun b hb => W10_of_ne m c b fun w e => hb (Finset.mem_image.mpr ⟨w, Finset.mem_univ _, e⟩)

def W11 (c : Dev nD) : Valuation τ sig (Elt F) :=
  Pipeline.withArrays spec1 c (W10 m c) fun w => (dat1 (rd (W10 m)) c).arrAt w cfg1.N
theorem W11_arr (c : Dev nD) (w : Fin cfg1.W) :
    W11 m c (Proc.devRef .tc (Pipeline.arrRef spec1 w)) = (dat1 (rd (W10 m)) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m c (Proc.devRef .tc b) = W10 m c (Proc.devRef .tc b) := by
  unfold W11; exact Pipeline.withArrays_of_ne spec1 c _ _ b hb
theorem hF1 (c : Dev nD) (w : Fin cfg1.W) : (dat1 (rd (W10 m)) c).arrAt w cfg1.N = rd (W11 m) c (Pipeline.arrRef spec1 w) :=
  (W11_arr m c w).symm
theorem hrest1 (c : Dev nD) : ∀ b, b ∉ Finset.univ.image (Pipeline.arrRef spec1) → rd (W11 m) c b = rd (W10 m) c b :=
  fun b hb => W11_of_ne m c b fun w e => hb (Finset.mem_image.mpr ⟨w, Finset.mem_univ _, e⟩)

abbrev W12 : Dev nD → Valuation τ sig (Elt F) := fun c => StableHlo.after hostOps2 (W11 m c)

def W13 (c : Dev nD) : Valuation τ sig (Elt F) :=
  Pipeline.withArrays spec2 c (W12 m c) fun w => (dat2 (rd (W12 m)) c).arrAt w cfg2.N
theorem W13_arr (c : Dev nD) (w : Fin cfg2.W) :
    W13 m c (Proc.devRef .tc (Pipeline.arrRef spec2 w)) = (dat2 (rd (W12 m)) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
theorem hF2 (c : Dev nD) (w : Fin cfg2.W) : (dat2 (rd (W12 m)) c).arrAt w cfg2.N = rd (W13 m) c (Pipeline.arrRef spec2 w) :=
  (W13_arr m c w).symm
theorem hrest2 (c : Dev nD) : ∀ b, b ∉ Finset.univ.image (Pipeline.arrRef spec2) → rd (W13 m) c b = rd (W12 m) c b :=
  fun b hb => W13_of_ne m c b fun w e => hb (Finset.mem_image.mpr ⟨w, Finset.mem_univ _, e⟩)

def W14 (c : Dev nD) : Valuation τ sig (Elt F) :=
  Pipeline.withArrays spec3 c (W13 m c) fun w => (dat3 (rd (W13 m)) c).arrAt w cfg3.N
theorem W14_arr (c : Dev nD) (w : Fin cfg3.W) :
    W14 m c (Proc.devRef .tc (Pipeline.arrRef spec3 w)) = (dat3 (rd (W13 m)) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
theorem hF3 (c : Dev nD) (w : Fin cfg3.W) : (dat3 (rd (W13 m)) c).arrAt w cfg3.N = rd (W14 m) c (Pipeline.arrRef spec3 w) :=
  (W14_arr m c w).symm
theorem hrest3 (c : Dev nD) : ∀ b, b ∉ Finset.univ.image (Pipeline.arrRef spec3) → rd (W14 m) c b = rd (W13 m) c b :=
  fun b hb => W14_of_ne m c b fun w e => hb (Finset.mem_image.mpr ⟨w, Finset.mem_univ _, e⟩)

abbrev W15 : Dev nD → Valuation τ sig (Elt F) := fun c => StableHlo.after hostOps4 (W14 m c)

def W16 (c : Dev nD) : Valuation τ sig (Elt F) :=
  Pipeline.withArrays spec4 c (W15 m c) fun w => (dat4 (rd (W15 m)) c).arrAt w cfg4.N
theorem W16_arr (c : Dev nD) (w : Fin cfg4.W) :
    W16 m c (Proc.devRef .tc (Pipeline.arrRef spec4 w)) = (dat4 (rd (W15 m)) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
theorem hF4 (c : Dev nD) (w : Fin cfg4.W) : (dat4 (rd (W15 m)) c).arrAt w cfg4.N = rd (W16 m) c (Pipeline.arrRef spec4 w) :=
  (W16_arr m c w).symm
theorem hrest4 (c : Dev nD) : ∀ b, b ∉ Finset.univ.image (Pipeline.arrRef spec4) → rd (W16 m) c b = rd (W15 m) c b :=
  fun b hb => W16_of_ne m c b fun w e => hb (Finset.mem_image.mpr ⟨w, Finset.mem_univ _, e⟩)

def W17 (c : Dev nD) : Valuation τ sig (Elt F) :=
  Pipeline.withArrays spec5 c (W16 m c) fun w => (dat5 (rd (W16 m)) c).arrAt w cfg5.N
theorem W17_arr (c : Dev nD) (w : Fin cfg5.W) :
    W17 m c (Proc.devRef .tc (Pipeline.arrRef spec5 w)) = (dat5 (rd (W16 m)) c).arrAt w cfg5.N := by
  unfold W17; exact Pipeline.withArrays_arr spec5 launch5.win.arr_inj c _ _ w
theorem W17_of_ne (c : Dev nD) (b : Ref sig .tc) (hb : ∀ w, Pipeline.arrRef spec5 w ≠ b) :
    W17 m c (Proc.devRef .tc b) = W16 m c (Proc.devRef .tc b) := by
  unfold W17; exact Pipeline.withArrays_of_ne spec5 c _ _ b hb
theorem hF5 (c : Dev nD) (w : Fin cfg5.W) : (dat5 (rd (W16 m)) c).arrAt w cfg5.N = rd (W17 m) c (Pipeline.arrRef spec5 w) :=
  (W17_arr m c w).symm
theorem hrest5 (c : Dev nD) : ∀ b, b ∉ Finset.univ.image (Pipeline.arrRef spec5) → rd (W17 m) c b = rd (W16 m) c b :=
  fun b hb => W17_of_ne m c b fun w e => hb (Finset.mem_image.mpr ⟨w, Finset.mem_univ _, e⟩)

abbrev W18 : Dev nD → Valuation τ sig (Elt F) := fun c => StableHlo.after hostOps6 (W17 m c)

def pdats : (p : Fin 6) → (c : Dev nD) → Dat τ (Elt F) Unit ℕ (UR sig nD τ) ℕ (Pipeline.pin (pcfgs (F := F)) Gen.adm p) c
  | ⟨0, _⟩ => fun c => dat0 (rd (W9 m)) c
  | ⟨1, _⟩ => fun c => dat1 (rd (W10 m)) c
  | ⟨2, _⟩ => fun c => dat2 (rd (W12 m)) c
  | ⟨3, _⟩ => fun c => dat3 (rd (W13 m)) c
  | ⟨4, _⟩ => fun c => dat4 (rd (W15 m)) c
  | ⟨5, _⟩ => fun c => dat5 (rd (W16 m)) c

end Cert.KernelIdeal.Hand

end
-- ==== Proof.KI.Launch.lean ====
import proofs.«428098_j75917841924563_1_alg».proof.Proof.KI.Fold
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W9 m)) c).loose
  hwaits := Pipeline.hwaits_of_owed_zero _ _ _ _ L lv 0 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X _ := BI.emp
  Y _ := BI.emp
  Z c := Pipeline.unscopedRest (Ix := Unit) (Name := ℕ) (U := UR sig nD τ) (Lvl := ℕ) spec0 c (rd (W9 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (rd (W9 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 (rd (W9 m)) c).Φ 0 from rfl]
    iintro ⟨-, -, Hr⟩
    iapply (hin0 (rd (W9 m)) c)
    iexact Hr
  hout c := by
    rw [Pipeline.ownSems0_none, show (pdats m 0 c).Φ (Fin.last _) = (dat0 (rd (W9 m)) c).Φ (Fin.last cfg0.N) from rfl]
    iintro H
    isplitr; · iempintro
    isplitr; · iempintro
    iapply (hout0 (rd (W9 m)) c)
    iexact H
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (rd (W9 m) c) (rd (W10 m) c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W10 m)) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X _ := BI.emp
  Y _ := BI.emp
  Z c := Pipeline.unscopedRest (Ix := Unit) (Name := ℕ) (U := UR sig nD τ) (Lvl := ℕ) spec1 c (rd (W10 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (rd (W10 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (rd (W10 m)) c).Φ 0 from rfl]
    iintro ⟨-, -, Hr⟩
    iapply (hin1 (rd (W10 m)) c)
    iexact Hr
  hout c := by
    rw [Pipeline.ownSems0_none, show (pdats m 1 c).Φ (Fin.last _) = (dat1 (rd (W10 m)) c).Φ (Fin.last cfg1.N) from rfl]
    iintro H
    isplitr; · iempintro
    isplitr; · iempintro
    iapply (hout1 (rd (W10 m)) c)
    iexact H
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (rd (W10 m) c) (rd (W11 m) c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W12 m)) c).loose
  hwaits := Pipeline.hwaits_of_owed_zero _ _ _ _ L lv 2 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X _ := BI.emp
  Y _ := BI.emp
  Z c := Pipeline.unscopedRest (Ix := Unit) (Name := ℕ) (U := UR sig nD τ) (Lvl := ℕ) spec2 c (rd (W12 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (rd (W12 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (dat2 (rd (W12 m)) c).Φ 0 from rfl]
    iintro ⟨-, -, Hr⟩
    iapply (hin2 (rd (W12 m)) c)
    iexact Hr
  hout c := by
    rw [Pipeline.ownSems0_none, show (pdats m 2 c).Φ (Fin.last _) = (dat2 (rd (W12 m)) c).Φ (Fin.last cfg2.N) from rfl]
    iintro H
    isplitr; · iempintro
    isplitr; · iempintro
    iapply (hout2 (rd (W12 m)) c)
    iexact H
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (rd (W12 m) c) (rd (W13 m) c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W13 m)) c).loose
  hwaits := Pipeline.hwaits_of_owed_zero _ _ _ _ L lv 3 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X _ := BI.emp
  Y _ := BI.emp
  Z c := Pipeline.unscopedRest (Ix := Unit) (Name := ℕ) (U := UR sig nD τ) (Lvl := ℕ) spec3 c (rd (W13 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (rd (W13 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = (dat3 (rd (W13 m)) c).Φ 0 from rfl]
    iintro ⟨-, -, Hr⟩
    iapply (hin3 (rd (W13 m)) c)
    iexact Hr
  hout c := by
    rw [Pipeline.ownSems0_none, show (pdats m 3 c).Φ (Fin.last _) = (dat3 (rd (W13 m)) c).Φ (Fin.last cfg3.N) from rfl]
    iintro H
    isplitr; · iempintro
    isplitr; · iempintro
    iapply (hout3 (rd (W13 m)) c)
    iexact H
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (rd (W13 m) c) (rd (W14 m) c) ((pdats m 3 c).arrAt · cfg3.N) (hF3 m c) (hrest3 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W15 m)) c).loose
  hwaits := Pipeline.hwaits_of_owed_zero _ _ _ _ L lv 4 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X _ := BI.emp
  Y _ := BI.emp
  Z c := Pipeline.unscopedRest (Ix := Unit) (Name := ℕ) (U := UR sig nD τ) (Lvl := ℕ) spec4 c (rd (W15 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (rd (W15 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 4 c).Φ 0 = (dat4 (rd (W15 m)) c).Φ 0 from rfl]
    iintro ⟨-, -, Hr⟩
    iapply (hin4 (rd (W15 m)) c)
    iexact Hr
  hout c := by
    rw [Pipeline.ownSems0_none, show (pdats m 4 c).Φ (Fin.last _) = (dat4 (rd (W15 m)) c).Φ (Fin.last cfg4.N) from rfl]
    iintro H
    isplitr; · iempintro
    isplitr; · iempintro
    iapply (hout4 (rd (W15 m)) c)
    iexact H
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (rd (W15 m) c) (rd (W16 m) c) ((pdats m 4 c).arrAt · cfg4.N) (hF4 m c) (hrest4 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in

def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W16 m)) c).loose
  hwaits := Pipeline.hwaits_of_owed_zero _ _ _ _ L lv 5 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X _ := BI.emp
  Y _ := BI.emp
  Z c := Pipeline.unscopedRest (Ix := Unit) (Name := ℕ) (U := UR sig nD τ) (Lvl := ℕ) spec5 c (rd (W16 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (rd (W16 m) c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 5 c).Φ 0 = (dat5 (rd (W16 m)) c).Φ 0 from rfl]
    iintro ⟨-, -, Hr⟩
    iapply (hin5 (rd (W16 m)) c)
    iexact Hr
  hout c := by
    rw [Pipeline.ownSems0_none, show (pdats m 5 c).Φ (Fin.last _) = (dat5 (rd (W16 m)) c).Φ (Fin.last cfg5.N) from rfl]
    iintro H
    isplitr; · iempintro
    isplitr; · iempintro
    iapply (hout5 (rd (W16 m)) c)
    iexact H
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (rd (W16 m) c) (rd (W17 m) c) ((pdats m 5 c).arrAt · cfg5.N) (hF5 m c) (hrest5 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

abbrev segs : List (Pipeline.Seg (pcfgs (F := F)) Gen.adm (pdats m) () defs₀ 𝒱₀ L lv) :=
  [
    .host (hseg hostOps0 hostOps0_sub Gen.hostOps0_fresh (fun c => Gen.V0 m c)),
    .host (hseg hostOps0_1 hostOps0_1_sub Gen.hostOps0_1_fresh (fun c => Gen.V1 m c)),
    .host (hseg hostOps0_2 hostOps0_2_sub Gen.hostOps0_2_fresh (fun c => Gen.V2 m c)),
    .host (hseg hostOps0_3 hostOps0_3_sub Gen.hostOps0_3_fresh (fun c => Gen.V3 m c)),
    .host (hseg hostOps0_4 hostOps0_4_sub Gen.hostOps0_4_fresh (fun c => Gen.V4 m c)),
    .host (hseg hostOps0_5 hostOps0_5_sub Gen.hostOps0_5_fresh (fun c => Gen.V5 m c)),
    .host (hseg hostOps0_6 hostOps0_6_sub Gen.hostOps0_6_fresh (fun c => Gen.V6 m c)),
    .host (hseg hostOps0_7 hostOps0_7_sub Gen.hostOps0_7_fresh (fun c => Gen.V7 m c)),
    .host (hseg hostOps0_8 hostOps0_8_sub Gen.hostOps0_8_fresh (fun c => Gen.V8 m c)),
    .region (reg0 m),
    .region (reg1 m),
    .host (hseg hostOps2 hostOps2_sub Gen.hostOps2_fresh (W11 m)),
    .region (reg2 m),
    .region (reg3 m),
    .host (hseg hostOps4 hostOps4_sub Gen.hostOps4_fresh (W14 m)),
    .region (reg4 m),
    .region (reg5 m),
    .host (hseg hostOps6 hostOps6_sub Gen.hostOps6_fresh (W17 m)) ]

theorem main_run (c : Dev nD) : main (F := F) c = Pipeline.Seg.run (segs m) := (main_chain c).trans (by chain_rfl)

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W18 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W18 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      iexists ∅; iexact HO)
    (QY := fun c s => ∀ b ∈ Pipeline.ucRefs τ sig, s.mem (((c : Thread nD τ)).1, b) = W18 m c b)
    (hfin := fun c s' => by
      iintro ⟨Hh, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

theorem W18_main_arg0 (c : Dev nD) : W18 m c (Proc.devRef .tc main_arg0) = m ((c : Thread nD τ).loc main_arg0) :=
  (StableHlo.after_of_writes_sub hostOps6 _ Gen.hostOps6_writes (by decide : main_arg0 ∉ Gen.hostOps6_W)).trans <|
  (W17_of_ne m c main_arg0 (by decide)).trans <| (W16_of_ne m c main_arg0 (by decide)).trans <|
  (StableHlo.after_of_writes_sub hostOps4 _ Gen.hostOps4_writes (by decide : main_arg0 ∉ Gen.hostOps4_W)).trans <|
  (W14_of_ne m c main_arg0 (by decide)).trans <| (W13_of_ne m c main_arg0 (by decide)).trans <|
  (StableHlo.after_of_writes_sub hostOps2 _ Gen.hostOps2_writes (by decide : main_arg0 ∉ Gen.hostOps2_W)).trans <|
  (W11_of_ne m c main_arg0 (by decide)).trans <| (W10_of_ne m c main_arg0 (by decide)).trans <|
  (Gen.V9_of m c main_arg0 (by decide)).trans <| (Gen.V8_of m c main_arg0 (by decide)).trans <| (Gen.V7_of m c main_arg0 (by decide)).trans <|
  (Gen.V6_of m c main_arg0 (by decide)).trans <| (Gen.V5_of m c main_arg0 (by decide)).trans <| (Gen.V4_of m c main_arg0 (by decide)).trans <|
  (Gen.V3_of m c main_arg0 (by decide)).trans <| (Gen.V2_of m c main_arg0 (by decide)).trans <| (Gen.V1_of m c main_arg0 (by decide)).trans rfl

theorem W18_main_arg1 (c : Dev nD) : W18 m c (Proc.devRef .tc main_arg1) = m ((c : Thread nD τ).loc main_arg1) :=
  (StableHlo.after_of_writes_sub hostOps6 _ Gen.hostOps6_writes (by decide : main_arg1 ∉ Gen.hostOps6_W)).trans <|
  (W17_of_ne m c main_arg1 (by decide)).trans <| (W16_of_ne m c main_arg1 (by decide)).trans <|
  (StableHlo.after_of_writes_sub hostOps4 _ Gen.hostOps4_writes (by decide : main_arg1 ∉ Gen.hostOps4_W)).trans <|
  (W14_of_ne m c main_arg1 (by decide)).trans <| (W13_of_ne m c main_arg1 (by decide)).trans <|
  (StableHlo.after_of_writes_sub hostOps2 _ Gen.hostOps2_writes (by decide : main_arg1 ∉ Gen.hostOps2_W)).trans <|
  (W11_of_ne m c main_arg1 (by decide)).trans <| (W10_of_ne m c main_arg1 (by decide)).trans <|
  (Gen.V9_of m c main_arg1 (by decide)).trans <| (Gen.V8_of m c main_arg1 (by decide)).trans <| (Gen.V7_of m c main_arg1 (by decide)).trans <|
  (Gen.V6_of m c main_arg1 (by decide)).trans <| (Gen.V5_of m c main_arg1 (by decide)).trans <| (Gen.V4_of m c main_arg1 (by decide)).trans <|
  (Gen.V3_of m c main_arg1 (by decide)).trans <| (Gen.V2_of m c main_arg1 (by decide)).trans <| (Gen.V1_of m c main_arg1 (by decide)).trans rfl

theorem W18_main_arg2 (c : Dev nD) : W18 m c (Proc.devRef .tc main_arg2) = m ((c : Thread nD τ).loc main_arg2) :=
  (StableHlo.after_of_writes_sub hostOps6 _ Gen.hostOps6_writes (by decide : main_arg2 ∉ Gen.hostOps6_W)).trans <|
  (W17_of_ne m c main_arg2 (by decide)).trans <| (W16_of_ne m c main_arg2 (by decide)).trans <|
  (StableHlo.after_of_writes_sub hostOps4 _ Gen.hostOps4_writes (by decide : main_arg2 ∉ Gen.hostOps4_W)).trans <|
  (W14_of_ne m c main_arg2 (by decide)).trans <| (W13_of_ne m c main_arg2 (by decide)).trans <|
  (StableHlo.after_of_writes_sub hostOps2 _ Gen.hostOps2_writes (by decide : main_arg2 ∉ Gen.hostOps2_W)).trans <|
  (W11_of_ne m c main_arg2 (by decide)).trans <| (W10_of_ne m c main_arg2 (by decide)).trans <|
  (Gen.V9_of m c main_arg2 (by decide)).trans <| (Gen.V8_of m c main_arg2 (by decide)).trans <| (Gen.V7_of m c main_arg2 (by decide)).trans <|
  (Gen.V6_of m c main_arg2 (by decide)).trans <| (Gen.V5_of m c main_arg2 (by decide)).trans <| (Gen.V4_of m c main_arg2 (by decide)).trans <|
  (Gen.V3_of m c main_arg2 (by decide)).trans <| (Gen.V2_of m c main_arg2 (by decide)).trans <| (Gen.V1_of m c main_arg2 (by decide)).trans rfl

theorem W18_main_arg3 (c : Dev nD) : W18 m c (Proc.devRef .tc main_arg3) = m ((c : Thread nD τ).loc main_arg3) :=
  (StableHlo.after_of_writes_sub hostOps6 _ Gen.hostOps6_writes (by decide : main_arg3 ∉ Gen.hostOps6_W)).trans <|
  (W17_of_ne m c main_arg3 (by decide)).trans <| (W16_of_ne m c main_arg3 (by decide)).trans <|
  (StableHlo.after_of_writes_sub hostOps4 _ Gen.hostOps4_writes (by decide : main_arg3 ∉ Gen.hostOps4_W)).trans <|
  (W14_of_ne m c main_arg3 (by decide)).trans <| (W13_of_ne m c main_arg3 (by decide)).trans <|
  (StableHlo.after_of_writes_sub hostOps2 _ Gen.hostOps2_writes (by decide : main_arg3 ∉ Gen.hostOps2_W)).trans <|
  (W11_of_ne m c main_arg3 (by decide)).trans <| (W10_of_ne m c main_arg3 (by decide)).trans <|
  (Gen.V9_of m c main_arg3 (by decide)).trans <| (Gen.V8_of m c main_arg3 (by decide)).trans <| (Gen.V7_of m c main_arg3 (by decide)).trans <|
  (Gen.V6_of m c main_arg3 (by decide)).trans <| (Gen.V5_of m c main_arg3 (by decide)).trans <| (Gen.V4_of m c main_arg3 (by decide)).trans <|
  (Gen.V3_of m c main_arg3 (by decide)).trans <| (Gen.V2_of m c main_arg3 (by decide)).trans <| (Gen.V1_of m c main_arg3 (by decide)).trans rfl

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W18_main_arg0 m c),
     (h c _ (mem_uc main_arg1 (by decide))).trans (W18_main_arg1 m c),
     (h c _ (mem_uc main_arg2 (by decide))).trans (W18_main_arg2 m c),
     (h c _ (mem_uc main_arg3 (by decide))).trans (W18_main_arg3 m c)⟩) (run_all m ρ)

end Cert.KernelIdeal.Hand

end
-- ==== Proof.Spec.lean ====
import Idealize.ShloMosaic.Lib.ValueIdx

noncomputable section

namespace Cert.Spec

open Idealize.ShloMosaic Idealize.ShloMosaic.ValueIdx
open scoped BigOperators

abbrev SRow : Shape := ⟨2, ![1, 1601536]⟩

abbrev SEnt : Shape := ⟨2, ![51200, 128]⟩

abbrev SEdge : Shape := ⟨2, ![1601536, 128]⟩

abbrev SDen : Shape := ⟨2, ![51200, 1]⟩

def hot (n : ℕ) (w : BitVec 32) : EReal := if BitVec.ofNat 32 n = w then 1 else 0

def gatherAt (tail : SRow.Idx → BitVec 32) (emb : SEnt.Idx → EReal) (rel : SEdge.Idx → EReal)
    (e : Fin 1601536) (c : Fin 128) : EReal :=
  (∑ n : Fin 51200, hot n.val (tail (ix2 (0 : Fin 1) e)) * emb (ix2 n c)) * rel (ix2 e c)

def gatherStep (tail : SRow.Idx → BitVec 32) (emb : SEnt.Idx → EReal) (rel : SEdge.Idx → EReal) : SEdge.Idx → EReal :=
  fun j => gatherAt tail emb rel (j 0) (j 1)

def eps : EReal := Ideal.ofBits .f32 0x2B8CBCCC#32

def aggAt (head : SRow.Idx → BitVec 32) (msg : SEdge.Idx → EReal) (den : SDen.Idx → EReal)
    (n : Fin 51200) (c : Fin 128) : EReal :=
  Ideal.div (∑ e : Fin 1601536, hot n.val (head (ix2 (0 : Fin 1) e)) * msg (ix2 e c)) (den (ix2 n (0 : Fin 1)))

def scatterAt (head : SRow.Idx → BitVec 32) (msg : SEdge.Idx → EReal) (den : SDen.Idx → EReal)
    (n : Fin 51200) (c : Fin 128) : EReal :=
  Ideal.div (aggAt head msg den n c)
    (max (Ideal.sqrt (∑ c' : Fin 128, aggAt head msg den n c' * aggAt head msg den n c')) eps)

def scatterStep (head : SRow.Idx → BitVec 32) (msg : SEdge.Idx → EReal) (den : SDen.Idx → EReal) : SEnt.Idx → EReal :=
  fun j => scatterAt head msg den (j 0) (j 1)

def normIdx (N : ℕ) (w : BitVec 32) : BitVec 32 := if w.slt 0#32 then w + BitVec.ofNat 32 N else w

def clampRow (N : ℕ) (hN : 0 < N) (w : BitVec 32) : Fin N := ⟨min w.toInt.toNat (N - 1), by omega⟩

def rowOf (w : BitVec 32) : Fin 50000 := clampRow 50000 (by decide) (normIdx 50000 w)

def relRow (w : BitVec 32) : Fin 10 := clampRow 10 (by decide) (normIdx 10 (w - 1#32))

abbrev SArg0 : Shape := ⟨2, ![50000, 128]⟩
abbrev SArg1 : Shape := ⟨2, ![2, 1600000]⟩
abbrev SArg2 : Shape := ⟨1, ![1600000]⟩
abbrev SArg3 : Shape := ⟨2, ![10, 128]⟩

def tailP (a1 : SArg1.Idx → BitVec 32) : SRow.Idx → BitVec 32 :=
  fun j => if h : (j 1).val < 1600000 then a1 (ix2 (1 : Fin 2) (⟨(j 1).val, h⟩ : Fin 1600000)) else 0#32

def headP (a1 : SArg1.Idx → BitVec 32) : SRow.Idx → BitVec 32 :=
  fun j => if h : (j 1).val < 1600000 then a1 (ix2 (0 : Fin 2) (⟨(j 1).val, h⟩ : Fin 1600000)) else 51199#32

def typeP (a2 : SArg2.Idx → BitVec 32) (e : Fin 1601536) : BitVec 32 :=
  if h : e.val < 1600000 then a2 (ix1 (⟨e.val, h⟩ : Fin 1600000)) else 1#32

def relP (a2 : SArg2.Idx → BitVec 32) (a3 : SArg3.Idx → EReal) : SEdge.Idx → EReal :=
  fun j => a3 (ix2 (relRow (typeP a2 (j 0))) (j 1))

def denP (a1 : SArg1.Idx → BitVec 32) : SDen.Idx → EReal :=
  fun j => max (0 + ∑ e ∈ Finset.univ.filter (fun e : Fin 1601536 => (headP a1 (ix2 (0 : Fin 1) e)).toInt = ((j 0).val : ℤ)), (1 : EReal)) 1

def embP (a0 : SArg0.Idx → EReal) : SEnt.Idx → EReal :=
  fun j => if h : (j 0).val < 50000 then a0 (ix2 (⟨(j 0).val, h⟩ : Fin 50000) (j 1)) else 0

def hopP (a1 : SArg1.Idx → BitVec 32) (a2 : SArg2.Idx → BitVec 32) (a3 : SArg3.Idx → EReal) (emb : SEnt.Idx → EReal) : SEnt.Idx → EReal :=
  scatterStep (headP a1) (gatherStep (tailP a1) emb (relP a2 a3)) (denP a1)

def top (x : SEnt.Idx → EReal) : SArg0.Idx → EReal := fun j => x (ix2 (⟨(j 0).val, by have := idx2_lt0 j; omega⟩ : Fin 51200) (j 1))

def kernelResult (a0 : SArg0.Idx → EReal) (a1 : SArg1.Idx → BitVec 32) (a2 : SArg2.Idx → BitVec 32) (a3 : SArg3.Idx → EReal) :
    SArg0.Idx → EReal :=
  let e1 := hopP a1 a2 a3 (embP a0)
  let e2 := hopP a1 a2 a3 e1
  let e3 := hopP a1 a2 a3 e2
  fun j => ((a0 j + top e1 j) + top e2 j) + top e3 j

end Cert.Spec

end
-- ==== Proof.KI.Glue.Read.lean ====
import Idealize.ShloMosaic.Lib.ValueIdx
import Idealize.ShloMosaic.Lib.ValueLayout
import Idealize.ShloMosaic.Lib.KernelVsHost
import Idealize.ShloMosaic.Lib.IdealHost
import Idealize.ShloMosaic.Lib.StableHlo.Predicate
import proofs.«428098_j75917841924563_1_alg».proof.Proof.Spec

set_option maxRecDepth 16384

noncomputable section

namespace Cert.KernelIdeal.Glue

open Idealize.ShloMosaic Idealize.ShloMosaic.ValueIdx
open scoped BigOperators

abbrev T0 : Shape := ⟨0, ![]⟩
abbrev TE : Shape := ⟨1, ![1600000]⟩
abbrev TEp : Shape := ⟨1, ![1601536]⟩
abbrev TEc : Shape := ⟨2, ![1601536, 1]⟩
abbrev TRow : Shape := ⟨2, ![1, 1600000]⟩
abbrev TN : Shape := ⟨1, ![51200]⟩

theorem padE_apply (x : TE.Idx → BitVec 32) (v : T0.Idx → BitVec 32)
    (hp : TE.Pads (![0] : Fin 1 → Nat) ![1536] ![0] TEp) (hu : 0 < T0.numel) (i : Fin 1601536) :
    pad TEp ![0] ![1536] ![0] x v hp hu (ix1 i)
      = if hlt : i.val < 1600000 then x (ix1 (⟨i.val, hlt⟩ : Fin 1600000)) else v (Shape.Idx.first hu) := by
  by_cases hlt : i.val < 1600000
  · rw [dif_pos hlt]
    exact pad_apply_of_inside _ _ _ x v hp hu (ix1 i) (ix1 (⟨i.val, hlt⟩ : Fin 1600000)) (fun a => by
      have ha : a = 0 := Subsingleton.elim _ _
      subst ha
      show i.val = 0 + i.val * (0 + 1)
      omega)
  · rw [dif_neg hlt]
    exact pad_apply_of_not_inside _ _ _ x v hp hu (ix1 i) (0 : Fin 1) (fun hin => by
      have h3 : (i.val - 0) / (0 + 1) < 1600000 := hin.2.2
      omega)

theorem padRow_apply (o : Nat) (r : Fin 2) (hr : r.val = o) (w : BitVec 32) (a1 : Spec.SArg1.Idx → BitVec 32)
    (hs : Spec.SArg1.Slices ![o, 0] TRow) (hc : TRow.ShapeCasts TE)
    (hp : TE.Pads (![0] : Fin 1 → Nat) ![1536] ![0] TEp) (hu : 0 < T0.numel) (hc' : TEp.ShapeCasts Spec.SRow)
    (j : Spec.SRow.Idx) :
    shapeCast Spec.SRow (pad TEp ![0] ![1536] ![0] (shapeCast TE (extractStridedSlice TRow ![o, 0] a1 hs) hc)
        (constantI T0 32 w) hp hu) hc' j
      = if h : (j 1).val < 1600000 then a1 (ix2 r (⟨(j 1).val, h⟩ : Fin 1600000)) else w := by
  obtain ⟨u, i, rfl⟩ : ∃ (u : Fin 1) (i : Fin 1601536), j = ix2 u i := ⟨j 0, j 1, eq_ix2 j⟩
  refine (shapeCast_a_1a_apply _ hc' u i).trans ?_
  refine (padE_apply _ _ hp hu i).trans ?_
  show (if hlt : i.val < 1600000 then _ else _) = if h : i.val < 1600000 then _ else _
  by_cases hlt : i.val < 1600000
  · rw [dif_pos hlt, dif_pos hlt]
    refine (shapeCast_1a_a_apply _ hc _).trans ?_
    exact slice2_axis0_apply o a1 hs (0 : Fin 1) (⟨i.val, hlt⟩ : Fin 1600000) r (by show r.val = o + 0; omega)
  · rw [dif_neg hlt, dif_neg hlt]
    rfl

theorem padEmb_apply (a0 : Spec.SArg0.Idx → EReal) (hp : Spec.SArg0.Pads (![0, 0] : Fin 2 → Nat) ![1200, 0] ![0, 0] Spec.SEnt)
    (hu : 0 < T0.numel) (hb : FTy.bits .bf16 < FTy.bits .f32) (j : Spec.SEnt.Idx) :
    (truncf (F := Ideal) .bf16 (pad Spec.SEnt ![0, 0] ![1200, 0] ![0, 0] (a0 : FVec Ideal Spec.SArg0 .f32)
        (sitofp (F := Ideal) .f32 (constantI T0 32 0#32)) hp hu) hb : Spec.SEnt.Idx → EReal) j = Spec.embP a0 j := by
  obtain ⟨n, c, rfl⟩ : ∃ (n : Fin 51200) (c : Fin 128), j = ix2 n c := ⟨j 0, j 1, eq_ix2 j⟩
  show pad Spec.SEnt ![0, 0] ![1200, 0] ![0, 0] a0 _ hp hu (ix2 n c) = if h : n.val < 50000 then a0 (ix2 (⟨n.val, h⟩ : Fin 50000) c) else 0
  by_cases hlt : n.val < 50000
  · rw [dif_pos hlt]
    exact pad_apply_of_inside _ _ _ a0 _ hp hu (ix2 n c) (ix2 (⟨n.val, hlt⟩ : Fin 50000) c) (fun a => by
      match a with
      | ⟨0, _⟩ => show n.val = 0 + n.val * (0 + 1); omega
      | ⟨1, _⟩ => show c.val = 0 + c.val * (0 + 1); omega)
  · rw [dif_neg hlt]
    refine (pad_apply_of_not_inside _ _ _ a0 _ hp hu (ix2 n c) (0 : Fin 2) (fun hin => by
      have h3 : (n.val - 0) / (0 + 1) < 50000 := hin.2.2
      omega)).trans ?_
    show (((0#32 : BitVec 32).toInt : ℝ) : EReal) = 0
    simp

theorem select_norm (w : BitVec 32) :
    Scalar.select (IntOp.cmpi .slt w 0#32) (IntOp.addi w 10#32) w = Spec.normIdx 10 w := by
  unfold Spec.normIdx Scalar.select IntOp.cmpi IntOp.addi
  cases h : w.slt 0#32
  · simp
  · simp

theorem typeIdx_apply (a2 : Spec.SArg2.Idx → BitVec 32)
    (hp : TE.Pads (![0] : Fin 1 → Nat) ![1536] ![0] TEp) (hu : 0 < T0.numel)
    (hb : T0.BroadcastsInDim TEp (![] : Fin 0 → Fin TEp.rank)) (e : Fin 1601536) :
    select
        (cmpi .slt (subi (pad TEp ![0] ![1536] ![0] a2 (constantI T0 32 1#32) hp hu) (broadcastInDim TEp ![] hb (constantI T0 32 1#32)))
          (broadcastInDim TEp ![] hb (constantI T0 32 0#32)))
        (addi (subi (pad TEp ![0] ![1536] ![0] a2 (constantI T0 32 1#32) hp hu) (broadcastInDim TEp ![] hb (constantI T0 32 1#32)))
          (broadcastInDim TEp ![] hb (constantI T0 32 10#32)))
        (subi (pad TEp ![0] ![1536] ![0] a2 (constantI T0 32 1#32) hp hu) (broadcastInDim TEp ![] hb (constantI T0 32 1#32)))
        (ix1 e)
      = Spec.normIdx 10 (Spec.typeP a2 e - 1#32) := by
  have hpad : pad TEp ![0] ![1536] ![0] a2 (constantI T0 32 1#32) hp hu (ix1 e) = Spec.typeP a2 e :=
    padE_apply a2 _ hp hu e
  show Scalar.select (IntOp.cmpi .slt (IntOp.subi (pad TEp ![0] ![1536] ![0] a2 (constantI T0 32 1#32) hp hu (ix1 e)) 1#32) 0#32)
      (IntOp.addi (IntOp.subi (pad TEp ![0] ![1536] ![0] a2 (constantI T0 32 1#32) hp hu (ix1 e)) 1#32) 10#32)
      (IntOp.subi (pad TEp ![0] ![1536] ![0] a2 (constantI T0 32 1#32) hp hu (ix1 e)) 1#32) = _
  rw [hpad]
  exact select_norm _

theorem col_apply {α : Type} (v : TEp.Idx → α) (hb : TEp.BroadcastsInDim TEc (![0] : Fin 1 → Fin TEc.rank)) (e : Fin 1601536) (u : Fin 1) :
    broadcastInDim TEc ![0] hb v (ix2 e u) = v (ix1 e) :=
  broadcastInDim_apply _ hb v (ix2 e u) (ix1 e) (fun a => by
    have ha : a = 0 := Subsingleton.elim _ _
    subst ha
    rw [if_neg (by decide)]
    rfl)

theorem gather_rows_apply {α : Type} (d : GatherDims Spec.SArg3 TEc Spec.SEdge)
    (hoff : d.offsetDims = [1]) (hcoll : d.collapsedSliceDims = [0]) (hob : d.operandBatchingDims = [])
    (hsim : d.startIndexMap = [0]) (hivd : d.indexVectorDim = 1) (hss : d.sliceSizes = ![1, 128])
    (x : Spec.SArg3.Idx → α) (idx : IVec TEc 32) (e : Fin 1601536) (c : Fin 128) :
    Host.gather d x idx (ix2 e c) = x (ix2 (Spec.clampRow 10 (by decide) (idx (ix2 e (0 : Fin 1)))) c) := by
  unfold Host.gather
  congr 1
  funext a
  apply Fin.ext
  have hb : ∀ a : Fin 2, a ∉ d.operandBatchingDims := fun a => by rw [hob]; exact List.not_mem_nil
  have hbatch : ∀ X : Fin 2, X ∈ d.batchDims → X = 0 := by
    intro X hX
    simp only [GatherDims.batchDims, hoff] at hX
    revert X; decide
  have hoffs : ∀ X : Fin 2, X ∈ d.offsetDims → X = 1 := by
    intro X hX; rw [hoff] at hX; exact List.mem_singleton.mp hX
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e c) idx 0 + d.batchCoord (ix2 e c) 0 + d.offCoord (ix2 e c) 0 = min (idx (ix2 e (0 : Fin 1))).toInt.toNat (10 - 1)
    rw [GatherDims.batchCoord_eq_zero _ _ _ (hb 0), GatherDims.offCoord_eq_zero _ _ _ hk]
    show d.start (ix2 e c) idx 0 = _
    unfold GatherDims.start
    rw [dif_pos hm, hsl]
    show min (idx _).toInt.toNat (10 - 1) = _
    congr 3
    congr 1
    funext b
    match b with
    | ⟨0, _⟩ =>
      unfold GatherDims.siIdx
      rw [dif_neg (by rw [hivd]; exact Nat.zero_ne_one)]
      unfold GatherDims.siCoord
      apply Fin.ext
      simp only [Fin.val_cast]
      rw [hbatch _ (List.getElem_mem _)]
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; decide
    show d.start (ix2 e c) idx 1 + d.batchCoord (ix2 e c) 1 + d.offCoord (ix2 e c) 1 = c.val
    rw [GatherDims.batchCoord_eq_zero _ _ _ (hb 1)]
    unfold GatherDims.start GatherDims.offCoord
    rw [dif_neg hm, dif_pos hk, hoffs _ (List.getElem_mem _)]
    show 0 + 0 + c.val = c.val
    omega

theorem rel_apply (d : GatherDims Spec.SArg3 TEc Spec.SEdge)
    (hoff : d.offsetDims = [1]) (hcoll : d.collapsedSliceDims = [0]) (hob : d.operandBatchingDims = [])
    (hsim : d.startIndexMap = [0]) (hivd : d.indexVectorDim = 1) (hss : d.sliceSizes = ![1, 128])
    (a2 : Spec.SArg2.Idx → BitVec 32) (a3 : Spec.SArg3.Idx → EReal)
    (hp : TE.Pads (![0] : Fin 1 → Nat) ![1536] ![0] TEp) (hu : 0 < T0.numel)
    (hb : T0.BroadcastsInDim TEp (![] : Fin 0 → Fin TEp.rank))
    (hbc : TEp.BroadcastsInDim TEc (![0] : Fin 1 → Fin TEc.rank)) (hbits : FTy.bits .bf16 < FTy.bits .f32)
    (j : Spec.SEdge.Idx) :
    (truncf (F := Ideal) .bf16 (Host.gather d (a3 : FVec Ideal Spec.SArg3 .f32) (broadcastInDim TEc ![0] hbc
      (select
        (cmpi .slt (subi (pad TEp ![0] ![1536] ![0] a2 (constantI T0 32 1#32) hp hu) (broadcastInDim TEp ![] hb (constantI T0 32 1#32)))
          (broadcastInDim TEp ![] hb (constantI T0 32 0#32)))
        (addi (subi (pad TEp ![0] ![1536] ![0] a2 (constantI T0 32 1#32) hp hu) (broadcastInDim TEp ![] hb (constantI T0 32 1#32)))
          (broadcastInDim TEp ![] hb (constantI T0 32 10#32)))
        (subi (pad TEp ![0] ![1536] ![0] a2 (constantI T0 32 1#32) hp hu) (broadcastInDim TEp ![] hb (constantI T0 32 1#32)))))) hbits
      : Spec.SEdge.Idx → EReal) j = Spec.relP a2 a3 j := by
  obtain ⟨e, c, rfl⟩ : ∃ (e : Fin 1601536) (c : Fin 128), j = ix2 e c := ⟨j 0, j 1, eq_ix2 j⟩
  show Host.gather d a3 _ (ix2 e c) = a3 (ix2 (Spec.relRow (Spec.typeP a2 e)) c)
  rw [gather_rows_apply d hoff hcoll hob hsim hivd hss, col_apply _ hbc, typeIdx_apply a2 hp hu hb]
  rfl

theorem headVec_apply (a1 : Spec.SArg1.Idx → BitVec 32)
    (hs : Spec.SArg1.Slices ![0, 0] TRow) (hc : TRow.ShapeCasts TE)
    (hp : TE.Pads (![0] : Fin 1 → Nat) ![1536] ![0] TEp) (hu : 0 < T0.numel) (e : Fin 1601536) :
    pad TEp ![0] ![1536] ![0] (shapeCast TE (extractStridedSlice TRow ![0, 0] a1 hs) hc) (constantI T0 32 51199#32) hp hu (ix1 e)
      = Spec.headP a1 (ix2 (0 : Fin 1) e) := by
  refine (padE_apply _ _ hp hu e).trans ?_
  show (if hlt : e.val < 1600000 then _ else _) = if h : e.val < 1600000 then _ else _
  by_cases hlt : e.val < 1600000
  · rw [dif_pos hlt, dif_pos hlt]
    refine (shapeCast_1a_a_apply _ hc _).trans ?_
    exact slice2_axis0_apply 0 a1 hs (0 : Fin 1) (⟨e.val, hlt⟩ : Fin 1600000) (0 : Fin 2) (by show (0 : ℕ) = 0 + 0; omega)
  · rw [dif_neg hlt, dif_neg hlt]
    rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.KernelIdeal.Glue

end
-- ==== Proof.KI.Glue.Den.lean ====
import proofs.«428098_j75917841924563_1_alg».proof.KernelIdeal
import Idealize.ShloMosaic.Lib.ValueIdx
import Idealize.ShloMosaic.PureOps.Ideal.Laws

noncomputable section

namespace Cert.KernelIdeal.Glue

open Idealize.ShloMosaic Idealize.ShloMosaic.ValueIdx Cert.KernelIdeal
open Cert.KernelIdeal.Facts₀ Cert.KernelIdeal.Facts
open scoped BigOperators

variable [Cert.KernelIdeal.Facts]

abbrev denCol (e : Fin 1601536) : S1601536x1.Idx := ix2 e (0 : Fin 1)

theorem den_start0 (idx : IVec S1601536x1 32) (j : S1601536.Idx) :
    scatter_S51200_S1601536x1_S1601536_n_0_0_1.start j idx 0 = (idx (denCol (j 0))).toInt := by
  unfold ScatterDims.start
  rw [dif_pos (show (0 : Fin 1) ∈ scatter_S51200_S1601536x1_S1601536_n_0_0_1.scatterDimsToOperandDims from List.mem_singleton.mpr rfl)]
  have hsi : scatter_S51200_S1601536x1_S1601536_n_0_0_1.siIdx j
      ⟨List.idxOf (0 : Fin 1) scatter_S51200_S1601536x1_S1601536_n_0_0_1.scatterDimsToOperandDims,
        List.idxOf_lt_length_iff.2 (List.mem_singleton.mpr rfl)⟩ = denCol (j 0) := by
    funext b; refine Fin.ext ?_
    match b with
    | ⟨0, _⟩ => rfl
    | ⟨1, _⟩ => rfl
  rw [hsi]

theorem den_kept : scatter_S51200_S1601536x1_S1601536_n_0_0_1.sKept = [] :=
  (by decide : S51200.kept [(0 : Fin 1)] = [])

theorem den_window0 (j : S1601536.Idx) : scatter_S51200_S1601536x1_S1601536_n_0_0_1.window j 0 = 0 := by
  unfold ScatterDims.window
  rw [dif_neg (by rw [den_kept]; exact List.not_mem_nil)]

theorem den_lands (idx : IVec S1601536x1 32) (j : S1601536.Idx) (n : Fin 51200) :
    scatter_S51200_S1601536x1_S1601536_n_0_0_1.resultIdx? j idx = some (ix1 n) ↔ (idx (denCol (j 0))).toInt = (n.val : ℤ) := by
  unfold ScatterDims.resultIdx?
  have h0 := den_start0 idx j
  have w0 := den_window0 j
  split
  · rename_i h
    have r0 := h 0
    rw [h0, w0] at r0
    constructor
    · intro heq
      have heq' := Option.some.inj heq
      have e0 := congrArg (fun f : S51200.Idx => (f 0).val) heq'
      simp only [h0, w0] at e0
      change ((idx (denCol (j 0))).toInt + ((0 : ℕ) : ℤ)).toNat = n.val at e0
      omega
    · intro e0
      congr 1
      funext a
      refine Fin.ext ?_
      match a with
      | ⟨0, _⟩ =>
        show (scatter_S51200_S1601536x1_S1601536_n_0_0_1.start j idx 0 + (scatter_S51200_S1601536x1_S1601536_n_0_0_1.window j 0 : ℤ)).toNat = n.val
        rw [h0, w0]; omega
  · rename_i h
    constructor
    · intro heq; exact absurd heq (by simp)
    · intro e0
      exfalso
      apply h
      intro a
      match a with
      | ⟨0, _⟩ =>
        show 0 ≤ scatter_S51200_S1601536x1_S1601536_n_0_0_1.start j idx 0 + (scatter_S51200_S1601536x1_S1601536_n_0_0_1.window j 0 : ℤ)
          ∧ scatter_S51200_S1601536x1_S1601536_n_0_0_1.start j idx 0 + (scatter_S51200_S1601536x1_S1601536_n_0_0_1.window j 0 : ℤ) < ((51200 : ℕ) : ℤ)
        rw [h0, w0]; have := n.isLt; omega

theorem scatterDen_apply (x : FVec Ideal S51200 .f32) (idx : IVec S1601536x1 32) (upd : FVec Ideal S1601536 .f32) (n : Fin 51200) :
    Host.scatterAdd scatter_S51200_S1601536x1_S1601536_n_0_0_1 x idx upd (ix1 n)
      = x (ix1 n) + ∑ e ∈ Finset.univ.filter (fun e : Fin 1601536 => (idx (ix2 e (0 : Fin 1))).toInt = (n.val : ℤ)), upd (ix1 e) := by
  show Ideal.hostScatterAdd scatter_S51200_S1601536x1_S1601536_n_0_0_1 x idx upd (ix1 n) = _
  unfold Ideal.hostScatterAdd
  refine congrArg (x (ix1 n) + ·) ?_
  refine Finset.sum_nbij' (fun j => j 0) (fun e => ix1 e) ?_ ?_ ?_ ?_ ?_
  · intro j hj
    exact Finset.mem_filter.mpr ⟨Finset.mem_univ _, (den_lands idx j n).mp (Finset.mem_filter.mp hj).2⟩
  · intro e he
    exact Finset.mem_filter.mpr ⟨Finset.mem_univ _, (den_lands idx (ix1 e) n).mpr (Finset.mem_filter.mp he).2⟩
  · intro j _; exact (eq_ix1 j).symm
  · intro e _; rfl
  · intro j _; exact congrArg upd (eq_ix1 j)

end Cert.KernelIdeal.Glue

end
-- ==== Proof.KI.Glue.lean ====
import proofs.«428098_j75917841924563_1_alg».proof.Proof.Gen.KernelIdeal.Regions
import proofs.«428098_j75917841924563_1_alg».proof.Proof.KI.Glue.Read
import proofs.«428098_j75917841924563_1_alg».proof.Proof.KI.Glue.Den
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx
open Idealize.SL.Sem
open scoped BigOperators

def resid (a : Spec.SArg0.Idx → EReal) (x : Spec.SEnt.Idx → EReal) : Spec.SArg0.Idx → EReal := fun j => a j + Spec.top x j

theorem addf_slice (a : Spec.SArg0.Idx → EReal) (x : Spec.SEnt.Idx → EReal) (hs : Spec.SEnt.Slices ![0, 0] Spec.SArg0) :
    addf (F := Ideal) (φ := .f32) a (extractStridedSlice Spec.SArg0 ![0, 0] x hs) = resid a x := by
  funext j
  obtain ⟨n, c, rfl⟩ : ∃ (n : Fin 50000) (c : Fin 128), j = ix2 n c := ⟨j 0, j 1, eq_ix2 j⟩
  show a (ix2 n c) + extractStridedSlice Spec.SArg0 ![0, 0] x hs (ix2 n c) = a (ix2 n c) + Spec.top x (ix2 n c)
  congr 1
  exact slice2_axis0_apply 0 x hs n c _ (by show n.val = 0 + n.val; omega)

variable (W : Valuation τ sig (Elt Ideal))

theorem after2_v32 : (StableHlo.after hostOps2 W (Proc.devRef .tc main_v32) : Spec.SEnt.Idx → EReal) = W (Proc.devRef .tc main_v29) := by
  show StableHlo.after hostOps2 W (Proc.devRef .tc main_v32) = _
  after_results
  rfl

theorem after2_v31 : (StableHlo.after hostOps2 W (Proc.devRef .tc main_v31) : Spec.SArg0.Idx → EReal)
    = resid (W (Proc.devRef .tc main_arg0)) (W (Proc.devRef .tc main_v29)) := by
  show StableHlo.after hostOps2 W (Proc.devRef .tc main_v31) = _
  after_results
  exact addf_slice _ _ _

theorem after4_v37 : (StableHlo.after hostOps4 W (Proc.devRef .tc main_v37) : Spec.SEnt.Idx → EReal) = W (Proc.devRef .tc main_v34) := by
  show StableHlo.after hostOps4 W (Proc.devRef .tc main_v37) = _
  after_results
  rfl

theorem after4_v36 : (StableHlo.after hostOps4 W (Proc.devRef .tc main_v36) : Spec.SArg0.Idx → EReal)
    = resid (W (Proc.devRef .tc main_v31)) (W (Proc.devRef .tc main_v34)) := by
  show StableHlo.after hostOps4 W (Proc.devRef .tc main_v36) = _
  after_results
  exact addf_slice _ _ _

theorem after6_v41 : (StableHlo.after hostOps6 W (Proc.devRef .tc main_v41) : Spec.SArg0.Idx → EReal)
    = resid (W (Proc.devRef .tc main_v36)) (W (Proc.devRef .tc main_v39)) := by
  show StableHlo.after hostOps6 W (Proc.devRef .tc main_v41) = _
  after_results
  exact addf_slice _ _ _

variable (m : (ℓ : Loc nD τ sig) → Buf (Elt Ideal) ℓ) (c : Dev nD)

theorem V9_arg0 : Gen.V9 m c (Proc.devRef .tc main_arg0) = m ((c : Thread nD τ).loc main_arg0) :=
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans rfl

theorem V9_v25 : (Gen.V9 m c (Proc.devRef .tc main_v25) : Spec.SRow.Idx → BitVec 32) = Spec.tailP (m ((c : Thread nD τ).loc main_arg1)) := by
  have e : (Gen.V9 m c (Proc.devRef .tc main_v25) : Spec.SRow.Idx → BitVec 32)
      = shapeCast Spec.SRow (pad TEp ![0] ![1536] ![0]
          (shapeCast TE (extractStridedSlice TRow ![1, 0] (m ((c : Thread nD τ).loc main_arg1) : Spec.SArg1.Idx → BitVec 32)
            slices_S2x1600000_S1x1600000_1_0) shapeCasts_S1x1600000_S1600000)
          (constantI T0 32 0#32) pads_S1600000_S1601536_015360 h_S_) shapeCasts_S1601536_S1x1601536 := by
    show StableHlo.after hostOps0_8 (V8 m c) (Proc.devRef .tc main_v25) = _
    after_results_simp
    (simp only [StableHlo.TRef.ofBuf, StableHlo.TRef.toBuf, cast_eq]) <;> rfl
  exact e.trans (funext fun j => padRow_apply 1 1 rfl 0#32 _ _ _ _ _ _ j)

theorem V9_v26 : (Gen.V9 m c (Proc.devRef .tc main_v26) : Spec.SRow.Idx → BitVec 32) = Spec.headP (m ((c : Thread nD τ).loc main_arg1)) := by
  have e : (Gen.V9 m c (Proc.devRef .tc main_v26) : Spec.SRow.Idx → BitVec 32)
      = shapeCast Spec.SRow (pad TEp ![0] ![1536] ![0]
          (shapeCast TE (extractStridedSlice TRow ![0, 0] (m ((c : Thread nD τ).loc main_arg1) : Spec.SArg1.Idx → BitVec 32)
            slices_S2x1600000_S1x1600000_0_0) shapeCasts_S1x1600000_S1600000)
          (constantI T0 32 51199#32) pads_S1600000_S1601536_015360 h_S_) shapeCasts_S1601536_S1x1601536 := by
    show StableHlo.after hostOps0_8 (V8 m c) (Proc.devRef .tc main_v26) = _
    after_results_simp
    (simp only [StableHlo.TRef.ofBuf, StableHlo.TRef.toBuf, cast_eq]) <;> rfl
  exact e.trans (funext fun j => padRow_apply 0 0 rfl 51199#32 _ _ _ _ _ _ j)

theorem V9_v27 : (Gen.V9 m c (Proc.devRef .tc main_v27) : Spec.SEnt.Idx → EReal) = Spec.embP (m ((c : Thread nD τ).loc main_arg0)) := by
  have e : (Gen.V9 m c (Proc.devRef .tc main_v27) : Spec.SEnt.Idx → EReal)
      = truncf (F := Ideal) .bf16 (pad Spec.SEnt ![0, 0] ![1200, 0] ![0, 0]
          (m ((c : Thread nD τ).loc main_arg0) : FVec Ideal Spec.SArg0 .f32)
          (sitofp (F := Ideal) .f32 (constantI T0 32 0#32)) pads_S50000x128_S51200x128_012000_000 h_S_) bitsLt_bf16_f32 := by
    show StableHlo.after hostOps0_8 (V8 m c) (Proc.devRef .tc main_v27) = _
    after_results_simp
    (simp only [StableHlo.TRef.ofBuf, StableHlo.TRef.toBuf, cast_eq]) <;> rfl
  exact e.trans (funext fun j => padEmb_apply _ _ _ _ j)

theorem V9_v16 : (Gen.V9 m c (Proc.devRef .tc main_v16) : Spec.SEdge.Idx → EReal)
    = Spec.relP (m ((c : Thread nD τ).loc main_arg2)) (m ((c : Thread nD τ).loc main_arg3)) := by
  have e : (Gen.V7 m c (Proc.devRef .tc main_v16) : Spec.SEdge.Idx → EReal)
      = truncf (F := Ideal) .bf16 (Host.gather gather_S10x128_S1601536x1_S1601536x128_1_0_n_n_0_1_1128
          (m ((c : Thread nD τ).loc main_arg3) : FVec Ideal Spec.SArg3 .f32)
          (broadcastInDim TEc ![0] bcast_S1601536_S1601536x1_0
            (select
              (cmpi .slt (subi (pad TEp ![0] ![1536] ![0] (m ((c : Thread nD τ).loc main_arg2) : Spec.SArg2.Idx → BitVec 32) (constantI T0 32 1#32) pads_S1600000_S1601536_015360 h_S_) (broadcastInDim TEp ![] bcast_S_S1601536 (constantI T0 32 1#32)))
                (broadcastInDim TEp ![] bcast_S_S1601536 (constantI T0 32 0#32)))
              (addi (subi (pad TEp ![0] ![1536] ![0] (m ((c : Thread nD τ).loc main_arg2) : Spec.SArg2.Idx → BitVec 32) (constantI T0 32 1#32) pads_S1600000_S1601536_015360 h_S_) (broadcastInDim TEp ![] bcast_S_S1601536 (constantI T0 32 1#32)))
                (broadcastInDim TEp ![] bcast_S_S1601536 (constantI T0 32 10#32)))
              (subi (pad TEp ![0] ![1536] ![0] (m ((c : Thread nD τ).loc main_arg2) : Spec.SArg2.Idx → BitVec 32) (constantI T0 32 1#32) pads_S1600000_S1601536_015360 h_S_) (broadcastInDim TEp ![] bcast_S_S1601536 (constantI T0 32 1#32))))))
          bitsLt_bf16_f32 := by
    show StableHlo.after hostOps0_6 (V6 m c) (Proc.devRef .tc main_v16) = _
    after_results_simp
    (simp only [StableHlo.TRef.ofBuf, StableHlo.TRef.toBuf, cast_eq]) <;> rfl
  refine ((V9_of m c main_v16 (by decide)).trans ((V8_of m c main_v16 (by decide)).trans e)).trans ?_
  exact funext fun j => rel_apply _ rfl rfl rfl rfl rfl rfl _ _ _ _ _ _ _ j

theorem den_read (a1 : Spec.SArg1.Idx → BitVec 32) (j : Spec.SDen.Idx) :
    (shapeCast Spec.SDen (maximumf (F := Ideal) (Host.scatterAdd (F := Ideal) (φ := .f32) scatter_S51200_S1601536x1_S1601536_n_0_0_1
          (broadcastInDim TN ![] bcast_S_S51200 (constant (F := Ideal) T0 .f32 0x00000000#32))
          (broadcastInDim TEc ![0] bcast_S1601536_S1601536x1_0
            (pad TEp ![0] ![1536] ![0]
              (shapeCast TE (extractStridedSlice TRow ![0, 0] a1 slices_S2x1600000_S1x1600000_0_0) shapeCasts_S1x1600000_S1600000)
              (constantI T0 32 51199#32) pads_S1600000_S1601536_015360 h_S_))
          (broadcastInDim TEp ![] bcast_S_S1601536 (constant (F := Ideal) T0 .f32 0x3F800000#32)))
        (broadcastInDim TN ![] bcast_S_S51200 (constant (F := Ideal) T0 .f32 0x3F800000#32))) shapeCasts_S51200_S51200x1
      : Spec.SDen.Idx → EReal) j = Spec.denP a1 j := by
  obtain ⟨n, u, rfl⟩ : ∃ (n : Fin 51200) (u : Fin 1), j = ix2 n u := ⟨j 0, j 1, eq_ix2 j⟩
  refine (shapeCast_a_a1_apply _ _ n u).trans ?_
  rw [maximumf_apply, scatterDen_apply]
  have hz : broadcastInDim TN ![] bcast_S_S51200 (constant (F := Ideal) T0 .f32 0x00000000#32) (ix1 n) = (0 : EReal) := Ideal.ofBits_zero_f32
  have hone : broadcastInDim TN ![] bcast_S_S51200 (constant (F := Ideal) T0 .f32 0x3F800000#32) (ix1 n) = (1 : EReal) := Ideal.ofBits_one_f32
  rw [hz, hone]
  unfold Spec.denP
  refine congrArg (fun s : EReal => max (0 + s) 1) ?_
  refine Finset.sum_congr (Finset.filter_congr fun e _ => ?_) (fun e _ => Ideal.ofBits_one_f32)
  rw [col_apply _ _ e (0 : Fin 1), headVec_apply]

theorem V9_v23 : (Gen.V9 m c (Proc.devRef .tc main_v23) : Spec.SDen.Idx → EReal) = Spec.denP (m ((c : Thread nD τ).loc main_arg1)) := by
  have e : (Gen.V7 m c (Proc.devRef .tc main_v23) : Spec.SDen.Idx → EReal)
      = shapeCast Spec.SDen (maximumf (F := Ideal) (Host.scatterAdd (F := Ideal) (φ := .f32) scatter_S51200_S1601536x1_S1601536_n_0_0_1
            (broadcastInDim TN ![] bcast_S_S51200 (constant (F := Ideal) T0 .f32 0x00000000#32))
            (broadcastInDim TEc ![0] bcast_S1601536_S1601536x1_0
              (pad TEp ![0] ![1536] ![0]
                (shapeCast TE (extractStridedSlice TRow ![0, 0] (m ((c : Thread nD τ).loc main_arg1) : Spec.SArg1.Idx → BitVec 32)
                  slices_S2x1600000_S1x1600000_0_0) shapeCasts_S1x1600000_S1600000)
                (constantI T0 32 51199#32) pads_S1600000_S1601536_015360 h_S_))
            (broadcastInDim TEp ![] bcast_S_S1601536 (constant (F := Ideal) T0 .f32 0x3F800000#32)))
          (broadcastInDim TN ![] bcast_S_S51200 (constant (F := Ideal) T0 .f32 0x3F800000#32))) shapeCasts_S51200_S51200x1 := by
    show StableHlo.after hostOps0_6 (V6 m c) (Proc.devRef .tc main_v23) = _
    after_results_simp
    (simp only [StableHlo.TRef.ofBuf, StableHlo.TRef.toBuf, cast_eq]) <;> rfl
  refine ((V9_of m c main_v23 (by decide)).trans ((V8_of m c main_v23 (by decide)).trans e)).trans ?_
  exact funext fun j => den_read _ j

end Cert.KernelIdeal.Glue

end
-- ==== Proof.KI.R0Pay.lean ====
import proofs.«428098_j75917841924563_1_alg».proof.Proof.KI.R0Dat
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem r0_hz : (![0, 0] : Fin 2 → Nat) = fun _ => 0 := funext fun a => by fin_cases a <;> rfl

section Body

variable (c : Dev nD) (i : grid0.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

theorem sout0_A_0_eq (hc0 : cond0_0 i) (hc1 : ¬cond0_1 i) (x0 : Vec F S1x4096 .i32) (x1 : Vec F S2048x128 .bf16) (x2 : Vec F S4096x128 .bf16) :
    sout0_A_0 c i arg2 harg2 arg3 harg3 arg4 harg4 arg5 harg5 arg6 harg6 hc0 hc1 x0 x1 x2 = k0_pay2 i x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4096x128) r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout0_B_0_eq (hc0 : ¬cond0_0 i) (hc1 : ¬cond0_1 i) (x0 : Vec F S1x4096 .i32) (x1 : Vec F S2048x128 .bf16) (x2 : Vec F S4096x128 .bf16) (xs0 : Vec F S4096x128 .f32) :
    sout0_B_0 c i arg2 harg2 arg3 harg3 arg4 harg4 arg5 harg5 arg6 harg6 hc0 hc1 x0 x1 x2 xs0 = k0_pay2 i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout0_C_0_eq (hc0 : ¬cond0_0 i) (hc1 : cond0_1 i) (x0 : Vec F S1x4096 .i32) (x1 : Vec F S2048x128 .bf16) (x2 : Vec F S4096x128 .bf16) (xs0 : Vec F S4096x128 .f32) :
    sout0_C_0 c i arg2 harg2 arg3 harg3 arg4 harg4 arg5 harg5 arg6 harg6 hc0 hc1 x0 x1 x2 xs0 = k0_pay2 i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem out0_C_3_eq (hc0 : ¬cond0_0 i) (hc1 : cond0_1 i) (x0 : Vec F S1x4096 .i32) (x1 : Vec F S2048x128 .bf16) (x2 : Vec F S4096x128 .bf16) (xs0 : Vec F S4096x128 .f32) :
    out0_C_3 c i arg2 harg2 arg3 harg3 arg4 harg4 arg5 harg5 arg6 harg6 hc0 hc1 x0 x1 x2 xs0 = k0_pay3 (k0_pay2 i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

end Body

theorem r0_entWord (k r : ℕ) :
    IntOp.addi (Scalar.muli (BitVec.ofNat 32 k) 2048#32) (BitVec.ofNat 32 r) = BitVec.ofNat 32 (2048 * k + r) := by
  unfold IntOp.addi Scalar.muli IntOp.muli
  apply BitVec.eq_of_toNat_eq
  simp only [BitVec.toNat_add, BitVec.toNat_mul, BitVec.toNat_ofNat]
  omega

theorem r0_hot_of_cmp (n : ℕ) (w : BitVec 32) :
    (FloatOps.sitofp (F := Ideal) .f32 ((IntOp.cmpi .eq (BitVec.ofNat 32 n) w).setWidth 32) : EReal) = Cert.Spec.hot n w := by
  unfold Cert.Spec.hot IntOp.cmpi
  show (((((BitVec.ofBool (BitVec.ofNat 32 n == w)).setWidth 32).toInt : ℝ)) : EReal) = _
  by_cases h : BitVec.ofNat 32 n = w
  · rw [if_pos h, beq_iff_eq.mpr h]
    show ((((1#32 : BitVec 32).toInt : ℝ)) : EReal) = 1
    norm_num
  · rw [if_neg h, beq_eq_false_iff_ne.mpr h]
    show ((((0#32 : BitVec 32).toInt : ℝ)) : EReal) = 0
    norm_num

def r0_hotBlk (i : grid0.Coords) (v7 : Vec F S1x4096 .i32) : FVec F S2048x4096 .bf16 :=
  truncf .bf16 (sitofp .f32 (extui 32 (cmpi .eq
    (broadcastTo S2048x4096 (addi (broadcast S2048x1 (Scalar.muli (BitVec.ofNat 32 (i 1).val) 2048#32)) (iota .tc S2048x1 32 [0] iota_S2048x1_d0_w32)) broadcasts_S2048x1_S2048x4096)
    (broadcastTo S2048x4096 (shapeCast S1x4096 v7 shapeCasts_S1x4096_S1x4096) broadcasts_S1x4096_S2048x4096)) natLt_1_32)) bitsLt_bf16_f32

theorem r0_pay2_eq (i : grid0.Coords) (v7 : Vec F S1x4096 .i32) (v15 : Vec F S2048x128 .bf16) (v18 : Vec F S4096x128 .f32) :
    k0_pay2 i v7 v15 v18 = shapeCast S4096x128 (addf v18 (matmul dot_S2048x4096_S2048x128_S4096x128_0_0_1_1_n_n none (r0_hotBlk i v7)
      (shapeCast S2048x128 v15 shapeCasts_S2048x128_S2048x128) (constant S4096x128 .f32 0x00000000#32))) shapeCasts_S4096x128_S4096x128 := rfl

theorem r0_hotBlk_apply (i : grid0.Coords) (x0 : Vec Ideal S1x4096 .i32) (r : Fin 2048) (p : Fin 4096) :
    r0_hotBlk (F := Ideal) i x0 (ix2 r p) = Cert.Spec.hot (2048 * (i 1).val + r.val) (x0 (ix2 (0 : Fin 1) p)) := by
  unfold r0_hotBlk
  refine (truncf_apply (φ := .f32) (ψ := .bf16) _ bitsLt_bf16_f32 (ix2 r p)).trans ?_
  refine (sitofp_apply (F := Ideal) (φ := .f32) _ (ix2 r p)).trans ?_
  refine (congrArg (FloatOps.sitofp (F := Ideal) .f32) (extui_apply _ natLt_1_32 (ix2 r p))).trans ?_
  refine Eq.trans ?_ (r0_hot_of_cmp _ _)
  refine congrArg (fun b : BitVec 1 => (FloatOps.sitofp (F := Ideal) .f32 (b.setWidth 32) : EReal)) ?_
  show IntOp.cmpi .eq _ _ = IntOp.cmpi .eq _ _
  refine congrArg₂ (IntOp.cmpi .eq) ?_ ?_
  · refine (broadcastTo_apply _ _ (ix2 r p) (ix2 r (0 : Fin 1)) (fun a => by
      match a with
      | ⟨0, _⟩ => rfl
      | ⟨1, _⟩ => rfl)).trans ?_
    show IntOp.addi _ (iota .tc S2048x1 32 [0] iota_S2048x1_d0_w32 (ix2 r (0 : Fin 1))) = _
    rw [iota_single_apply]
    exact r0_entWord _ _
  · refine (broadcastTo_apply _ _ (ix2 r p) (ix2 (0 : Fin 1) p) (fun a => by
      match a with
      | ⟨0, _⟩ => rfl
      | ⟨1, _⟩ => rfl)).trans ?_
    rw [shapeCast_self]

theorem r0_lhs_0 (j : S4096x128.Idx) (k : dot_S2048x4096_S2048x128_S4096x128_0_0_1_1_n_n.contr.Idx) :
    (dot_S2048x4096_S2048x128_S4096x128_0_0_1_1_n_n.lhsIdx j k 0).val = (k ⟨0, by decide⟩).val :=
  dot_S2048x4096_S2048x128_S4096x128_0_0_1_1_n_n.lhsIdx_val_of_single rfl j k
theorem r0_lhs_1 (j : S4096x128.Idx) (k : dot_S2048x4096_S2048x128_S4096x128_0_0_1_1_n_n.contr.Idx) :
    (dot_S2048x4096_S2048x128_S4096x128_0_0_1_1_n_n.lhsIdx j k 1).val = (j 0).val := by
  unfold DotDims.lhsIdx
  rw [dif_neg (show ¬(1 : Fin S2048x4096.rank) ∈ dot_S2048x4096_S2048x128_S4096x128_0_0_1_1_n_n.lhsBatch by decide), dif_pos (show (1 : Fin S2048x4096.rank) ∈ dot_S2048x4096_S2048x128_S4096x128_0_0_1_1_n_n.lhsNonContracting by decide)]
  rfl
theorem r0_rhs_0 (j : S4096x128.Idx) (k : dot_S2048x4096_S2048x128_S4096x128_0_0_1_1_n_n.contr.Idx) :
    (dot_S2048x4096_S2048x128_S4096x128_0_0_1_1_n_n.rhsIdx j k 0).val = (k ⟨0, by decide⟩).val :=
  dot_S2048x4096_S2048x128_S4096x128_0_0_1_1_n_n.rhsIdx_val_of_single rfl j k
theorem r0_rhs_1 (j : S4096x128.Idx) (k : dot_S2048x4096_S2048x128_S4096x128_0_0_1_1_n_n.contr.Idx) :
    (dot_S2048x4096_S2048x128_S4096x128_0_0_1_1_n_n.rhsIdx j k 1).val = (j 1).val := by
  unfold DotDims.rhsIdx
  rw [dif_neg (show ¬(1 : Fin S2048x128.rank) ∈ dot_S2048x4096_S2048x128_S4096x128_0_0_1_1_n_n.rhsBatch by decide), dif_pos (show (1 : Fin S2048x128.rank) ∈ dot_S2048x4096_S2048x128_S4096x128_0_0_1_1_n_n.rhsNonContracting by decide)]
  rfl

theorem r0_mm_apply (L : FVec Ideal S2048x4096 .bf16) (R : FVec Ideal S2048x128 .bf16) (p : Fin 4096) (q : Fin 128) :
    matmul dot_S2048x4096_S2048x128_S4096x128_0_0_1_1_n_n none L R (constant S4096x128 .f32 0x00000000#32) (ix2 p q)
      = ∑ r : Fin 2048, L (ix2 r p) * R (ix2 r q) := by
  refine (Ideal.matmul_constant_zero_apply dot_S2048x4096_S2048x128_S4096x128_0_0_1_1_n_n none L R (ix2 p q)).trans ?_
  rw [← Equiv.sum_comp (contrEquiv1 dot_S2048x4096_S2048x128_S4096x128_0_0_1_1_n_n 2048 rfl rfl).symm]
  refine Finset.sum_congr rfl fun r _ => ?_
  have hk := contrEquiv1_symm_val dot_S2048x4096_S2048x128_S4096x128_0_0_1_1_n_n 2048 rfl rfl r
  have el : dot_S2048x4096_S2048x128_S4096x128_0_0_1_1_n_n.lhsIdx (ix2 p q) ((contrEquiv1 dot_S2048x4096_S2048x128_S4096x128_0_0_1_1_n_n 2048 rfl rfl).symm r) = ix2 r p := funext fun a => Fin.ext (by
    match a with
    | ⟨0, _⟩ => exact (r0_lhs_0 _ _).trans hk
    | ⟨1, _⟩ => exact r0_lhs_1 _ _)
  have er : dot_S2048x4096_S2048x128_S4096x128_0_0_1_1_n_n.rhsIdx (ix2 p q) ((contrEquiv1 dot_S2048x4096_S2048x128_S4096x128_0_0_1_1_n_n 2048 rfl rfl).symm r) = ix2 r q := funext fun a => Fin.ext (by
    match a with
    | ⟨0, _⟩ => exact (r0_rhs_0 _ _).trans hk
    | ⟨1, _⟩ => exact r0_rhs_1 _ _)
  rw [el, er]

theorem k0_pay1_apply (j : S4096x128.Idx) : k0_pay1 (F := Ideal) j = 0 := by
  unfold k0_pay1
  refine (congrFun (shapeCast_self _ _) j).trans ?_
  exact Ideal.ofBits_zero_f32

theorem k0_pay2_apply (i : grid0.Coords) (x0 : Vec Ideal S1x4096 .i32) (x1 : Vec Ideal S2048x128 .bf16) (acc : Vec Ideal S4096x128 .f32)
    (p : Fin 4096) (q : Fin 128) :
    k0_pay2 i x0 x1 acc (ix2 p q)
      = acc (ix2 p q) + ∑ r : Fin 2048, Cert.Spec.hot (2048 * (i 1).val + r.val) (x0 (ix2 (0 : Fin 1) p)) * x1 (ix2 r q) := by
  rw [r0_pay2_eq]
  refine (congrFun (shapeCast_self _ _) (ix2 p q)).trans ?_
  refine (addf_apply _ _ _).trans ?_
  refine congrArg (fun z : EReal => acc (ix2 p q) + z) ?_
  refine (r0_mm_apply _ _ p q).trans ?_
  refine Finset.sum_congr rfl fun r _ => ?_
  rw [r0_hotBlk_apply, shapeCast_self]

theorem k0_pay3_apply (a : Vec Ideal S4096x128 .f32) (x2 : Vec Ideal S4096x128 .bf16) (j : S4096x128.Idx) :
    k0_pay3 a x2 j = a j * x2 j := by
  unfold k0_pay3
  refine (truncf_apply (φ := .f32) (ψ := .bf16) _ bitsLt_bf16_f32 j).trans ?_
  refine (mulf_apply (φ := .f32) _ _ j).trans ?_
  refine congrArg (fun z : EReal => a j * z) ?_
  refine (extf_apply (φ := .bf16) (ψ := .f32) _ bitsLt_bf16_f32 j).trans ?_
  exact congrFun (shapeCast_self _ _) j

end Cert.KernelIdeal.Hand

end
-- ==== Proof.KI.R0Val.Idx.lean ====
import proofs.«428098_j75917841924563_1_alg».proof.Proof.Gen.KernelIdeal.Points
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r0_idx_tail : ∀ t : Fin cfg0.N, win0_0.index t (0 : Fin 2) = 0 ∧ win0_0.index t (1 : Fin 2) = t.val / 25 :=
  (by decide +kernel : ∀ t : Fin grid0.N, win0_0.index t (0 : Fin 2) = 0 ∧ win0_0.index t (1 : Fin 2) = t.val / 25)

theorem r0_idx_ent : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

theorem r0_idx_rel : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)

theorem r0_idx_msg : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)

theorem r0_coord_k : ∀ t : Fin cfg0.N, ((grid0.coords t) 1).val = t.val % 25 :=
  (by decide +kernel : ∀ t : Fin grid0.N, ((grid0.coords t) 1).val = t.val % 25)

theorem r0_sum_rows_block (g : ℕ → EReal) (k : ℕ) :
    ∑ m ∈ Finset.range (2048 * k), g m + ∑ r : Fin 2048, g (2048 * k + r.val) = ∑ m ∈ Finset.range (2048 * (k + 1)), g m := by
  rw [show 2048 * (k + 1) = 2048 * k + 2048 from by ring, Finset.sum_range_add, Finset.sum_range (fun x => g (2048 * k + x))]

end Cert.KernelIdeal.Hand

end
-- ==== Proof.KI.R0Val.Inv.lean ====
import proofs.«428098_j75917841924563_1_alg».proof.Proof.KI.R0Pay
import proofs.«428098_j75917841924563_1_alg».proof.Proof.KI.R0Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r0_tailArr (c : Dev nD) : Vec Ideal S1x1601536 .i32 := V c (Pipeline.arrRef spec0 0)

abbrev r0_embArr (c : Dev nD) : Vec Ideal S51200x128 .bf16 := V c (Pipeline.arrRef spec0 1)

abbrev r0_relArr (c : Dev nD) : Vec Ideal S1601536x128 .bf16 := V c (Pipeline.arrRef spec0 2)

abbrev r0_tailBlk (c : Dev nD) (t : Fin cfg0.N) : Vec Ideal S1x4096 .i32 := iblk0 V c 0 t

abbrev r0_embBlk (c : Dev nD) (t : Fin cfg0.N) : Vec Ideal S2048x128 .bf16 := iblk0 V c 1 t

abbrev r0_relBlk (c : Dev nD) (t : Fin cfg0.N) : Vec Ideal S4096x128 .bf16 := iblk0 V c 2 t

def r0_tailAt (c : Dev nD) (j : ℕ) : BitVec 32 :=
  if h : j < 1601536 then r0_tailArr V c (ix2 (0 : Fin 1) (⟨j, h⟩ : Fin 1601536)) else 0#32

def r0_embAt (c : Dev nD) (n : ℕ) (q : Fin 128) : EReal :=
  if h : n < 51200 then r0_embArr V c (ix2 (⟨n, h⟩ : Fin 51200) q) else 0

theorem r0_tailBlk_apply (c : Dev nD) (t : Fin cfg0.N) (p : Fin 4096) :
    r0_tailBlk V c t (ix2 (0 : Fin 1) p) = r0_tailAt V c (4096 * (t.val / 25) + p.val) := by
  have hN : cfg0.N = 9775 := N_0
  have ht := t.isLt
  have hp := p.isLt
  have hb : 4096 * (t.val / 25) + p.val < 1601536 := by omega
  obtain ⟨e0, e1⟩ := r0_idx_tail t
  unfold r0_tailAt
  rw [dif_pos hb]
  show V c (Pipeline.arrRef spec0 0) (((cfg0.win 0).blk t).view.emb (ix2 (0 : Fin 1) p))
    = V c (Pipeline.arrRef spec0 0) (ix2 (0 : Fin 1) (⟨4096 * (t.val / 25) + p.val, hb⟩ : Fin 1601536))
  congr 1
  funext a
  apply Fin.ext
  match a with
  | ⟨0, _⟩ => show win0_0.index t (0 : Fin 2) * 1 + 1 * 0 = 0; omega
  | ⟨1, _⟩ => show win0_0.index t (1 : Fin 2) * 4096 + 1 * p.val = 4096 * (t.val / 25) + p.val; omega

theorem r0_embBlk_apply (c : Dev nD) (t : Fin cfg0.N) (r : Fin 2048) (q : Fin 128) :
    r0_embBlk V c t (ix2 r q) = r0_embAt V c (2048 * (t.val % 25) + r.val) q := by
  have hr := r.isLt
  have hb : 2048 * (t.val % 25) + r.val < 51200 := by omega
  obtain ⟨e0, e1⟩ := r0_idx_ent t
  unfold r0_embAt
  rw [dif_pos hb]
  show V c (Pipeline.arrRef spec0 1) (((cfg0.win 1).blk t).view.emb (ix2 r q))
    = V c (Pipeline.arrRef spec0 1) (ix2 (⟨2048 * (t.val % 25) + r.val, hb⟩ : Fin 51200) q)
  congr 1
  funext a
  apply Fin.ext
  match a with
  | ⟨0, _⟩ => show win0_1.index t (0 : Fin 2) * 2048 + 1 * r.val = 2048 * (t.val % 25) + r.val; omega
  | ⟨1, _⟩ => show win0_1.index t (1 : Fin 2) * 128 + 1 * q.val = q.val; omega

theorem r0_relBlk_apply (c : Dev nD) (t : Fin cfg0.N) (p : Fin 4096) (q : Fin 128) (e : Fin 1601536)
    (he : e.val = 4096 * (t.val / 25) + p.val) :
    r0_relBlk V c t (ix2 p q) = r0_relArr V c (ix2 e q) := by
  obtain ⟨e0, e1⟩ := r0_idx_rel t
  show V c (Pipeline.arrRef spec0 2) (((cfg0.win 2).blk t).view.emb (ix2 p q)) = V c (Pipeline.arrRef spec0 2) (ix2 e q)
  congr 1
  funext a
  apply Fin.ext
  match a with
  | ⟨0, _⟩ => show win0_2.index t (0 : Fin 2) * 4096 + 1 * p.val = e.val; omega
  | ⟨1, _⟩ => show win0_2.index t (1 : Fin 2) * 128 + 1 * q.val = q.val; omega

theorem r0_pay_step (i : grid0.Coords) (x0 : Vec Ideal S1x4096 .i32) (x1 : Vec Ideal S2048x128 .bf16)
    (acc : Vec Ideal S4096x128 .f32) (p : Fin 4096) (q : Fin 128) (k : ℕ) (w : BitVec 32) (g : ℕ → EReal)
    (hk : (i 1).val = k) (hw : x0 (ix2 (0 : Fin 1) p) = w) (hg : ∀ r : Fin 2048, x1 (ix2 r q) = g (2048 * k + r.val))
    (hacc : acc (ix2 p q) = ∑ m ∈ Finset.range (2048 * k), Cert.Spec.hot m w * g m) :
    k0_pay2 i x0 x1 acc (ix2 p q) = ∑ m ∈ Finset.range (2048 * (k + 1)), Cert.Spec.hot m w * g m := by
  refine (k0_pay2_apply i x0 x1 acc p q).trans ?_
  rw [hacc, hk, hw, ← r0_sum_rows_block (fun m => Cert.Spec.hot m w * g m) k]
  congr 1
  exact Finset.sum_congr rfl fun r _ => by rw [hg r]

theorem r0_acc_first (c : Dev nD) (t : Fin cfg0.N) (h0 : t.val % 25 = 0) :
    (outsAt0 V c t.val t.isLt).2 = k0_pay2 (grid0.coords t) (r0_tailBlk V c t) (r0_embBlk V c t) (k0_pay1 (F := Ideal)) := by
  have h1 : ¬t.val % 25 = 24 := by omega
  rw [outsAt0_A V c t h0 h1]
  dsimp only
  exact sout0_A_0_eq (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk0 V c 0 t) (iblk0 V c 1 t) (iblk0 V c 2 t)

theorem r0_acc_next (c : Dev nD) (t : Fin cfg0.N) (h0 : ¬t.val % 25 = 0) :
    (outsAt0 V c t.val t.isLt).2 = k0_pay2 (grid0.coords t) (r0_tailBlk V c t) (r0_embBlk V c t)
      (outsAt0 V c (t.val - 1) (Nat.lt_of_le_of_lt (Nat.sub_le _ _) t.isLt)).2 := by
  by_cases h1 : t.val % 25 = 24
  · rw [outsAt0_C V c t h0 h1]
    dsimp only
    exact sout0_C_0_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk0 V c 0 t) (iblk0 V c 1 t) (iblk0 V c 2 t)
      (outsAt0 V c (t.val - 1) (Nat.lt_of_le_of_lt (Nat.sub_le _ _) t.isLt)).2
  · rw [outsAt0_B V c t h0 h1]
    dsimp only
    exact sout0_B_0_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk0 V c 0 t) (iblk0 V c 1 t) (iblk0 V c 2 t)
      (outsAt0 V c (t.val - 1) (Nat.lt_of_le_of_lt (Nat.sub_le _ _) t.isLt)).2

theorem r0_out_last (c : Dev nD) (t : Fin cfg0.N) (h1 : t.val % 25 = 24) :
    (outsAt0 V c t.val t.isLt).1 = k0_pay3 (outsAt0 V c t.val t.isLt).2 (r0_relBlk V c t) := by
  have h0 : ¬t.val % 25 = 0 := by omega
  rw [outsAt0_C V c t h0 h1]
  dsimp only
  rw [sout0_C_0_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk0 V c 0 t) (iblk0 V c 1 t) (iblk0 V c 2 t)
      (outsAt0 V c (t.val - 1) (Nat.lt_of_le_of_lt (Nat.sub_le _ _) t.isLt)).2]
  exact out0_C_3_eq (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk0 V c 0 t) (iblk0 V c 1 t) (iblk0 V c 2 t)
      (outsAt0 V c (t.val - 1) (Nat.lt_of_le_of_lt (Nat.sub_le _ _) t.isLt)).2

def r0_rowSum (c : Dev nD) (j : ℕ) (K : ℕ) (q : Fin 128) : EReal :=
  ∑ m ∈ Finset.range K, Cert.Spec.hot m (r0_tailAt V c j) * r0_embAt V c m q

theorem r0_inv_first (c : Dev nD) (t : Fin cfg0.N) (h0 : t.val % 25 = 0) (p : Fin 4096) (q : Fin 128) :
    (outsAt0 V c t.val t.isLt).2 (ix2 p q) = r0_rowSum V c (4096 * (t.val / 25) + p.val) (2048 * (t.val % 25 + 1)) q := by
  refine (congrFun (r0_acc_first V c t h0) (ix2 p q)).trans ?_
  refine r0_pay_step (grid0.coords t) (r0_tailBlk V c t) (r0_embBlk V c t) (k0_pay1 (F := Ideal)) p q (t.val % 25)
    (r0_tailAt V c (4096 * (t.val / 25) + p.val)) (fun m => r0_embAt V c m q) (r0_coord_k t) (r0_tailBlk_apply V c t p)
    (fun r => r0_embBlk_apply V c t r q) ?_
  rw [k0_pay1_apply, h0, Nat.mul_zero, Finset.range_zero, Finset.sum_empty]

theorem r0_inv_next (c : Dev nD) (t : Fin cfg0.N) (h0 : ¬t.val % 25 = 0) (p : Fin 4096) (q : Fin 128)
    (ih : (outsAt0 V c (t.val - 1) (Nat.lt_of_le_of_lt (Nat.sub_le _ _) t.isLt)).2 (ix2 p q)
      = r0_rowSum V c (4096 * ((t.val - 1) / 25) + p.val) (2048 * ((t.val - 1) % 25 + 1)) q) :
    (outsAt0 V c t.val t.isLt).2 (ix2 p q) = r0_rowSum V c (4096 * (t.val / 25) + p.val) (2048 * (t.val % 25 + 1)) q := by
  have e1 : (t.val - 1) % 25 + 1 = t.val % 25 := by omega
  have e2 : (t.val - 1) / 25 = t.val / 25 := by omega
  rw [e1, e2] at ih
  refine (congrFun (r0_acc_next V c t h0) (ix2 p q)).trans ?_
  exact r0_pay_step (grid0.coords t) (r0_tailBlk V c t) (r0_embBlk V c t)
    (outsAt0 V c (t.val - 1) (Nat.lt_of_le_of_lt (Nat.sub_le _ _) t.isLt)).2 p q (t.val % 25)
    (r0_tailAt V c (4096 * (t.val / 25) + p.val)) (fun m => r0_embAt V c m q) (r0_coord_k t) (r0_tailBlk_apply V c t p)
    (fun r => r0_embBlk_apply V c t r q) ih

theorem r0_acc_inv (c : Dev nD) : ∀ (n : ℕ) (hn : n < cfg0.N) (p : Fin 4096) (q : Fin 128),
    (outsAt0 V c n hn).2 (ix2 p q) = r0_rowSum V c (4096 * (n / 25) + p.val) (2048 * (n % 25 + 1)) q
  | 0, hn, p, q => r0_inv_first V c ⟨0, hn⟩ (Nat.zero_mod 25) p q
  | n + 1, hn, p, q => by
    by_cases h0 : (n + 1) % 25 = 0
    · exact r0_inv_first V c ⟨n + 1, hn⟩ h0 p q
    · exact r0_inv_next V c ⟨n + 1, hn⟩ h0 p q (r0_acc_inv c n (Nat.lt_of_succ_lt hn) p q)

end Cert.KernelIdeal.Hand

end
-- ==== Proof.KI.R0Val.lean ====
import proofs.«428098_j75917841924563_1_alg».proof.Proof.KI.R0Val.Inv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem r0_rowSum_full (c : Dev nD) (j : ℕ) (e : Fin 1601536) (he : e.val = j) (q : Fin 128) :
    r0_rowSum V c j (2048 * (24 + 1)) q
      = ∑ n : Fin 51200, Cert.Spec.hot n.val (r0_tailArr V c (ix2 (0 : Fin 1) e)) * r0_embArr V c (ix2 n q) := by
  have hw : r0_tailAt V c j = r0_tailArr V c (ix2 (0 : Fin 1) e) := by
    subst he
    unfold r0_tailAt
    rw [dif_pos e.isLt]
  unfold r0_rowSum
  rw [hw, show 2048 * (24 + 1) = 51200 from rfl, Finset.sum_range]
  refine Finset.sum_congr rfl fun n _ => ?_
  unfold r0_embAt
  rw [dif_pos n.isLt]

theorem r0_tile_elem (a : Vec Ideal S4096x128 .f32) (x2 : Vec Ideal S4096x128 .bf16) (p : Fin 4096) (q : Fin 128) (s rv : EReal)
    (ha : a (ix2 p q) = s) (hx : x2 (ix2 p q) = rv) : k0_pay3 a x2 (ix2 p q) = s * rv := by
  refine (k0_pay3_apply a x2 (ix2 p q)).trans ?_
  rw [ha, hx]

theorem r0_tile_apply (c : Dev nD) (t : Fin cfg0.N) (h1 : t.val % 25 = 24) (p : Fin 4096) (q : Fin 128) (e : Fin 1601536)
    (he : e.val = 4096 * (t.val / 25) + p.val) :
    (outsAt0 V c t.val t.isLt).1 (ix2 p q) = Cert.Spec.gatherAt (r0_tailArr V c) (r0_embArr V c) (r0_relArr V c) e q := by
  rw [r0_out_last V c t h1]
  refine (r0_tile_elem (outsAt0 V c t.val t.isLt).2 (r0_relBlk V c t) p q
    (r0_rowSum V c (4096 * (t.val / 25) + p.val) (2048 * (t.val % 25 + 1)) q) (r0_relArr V c (ix2 e q))
    (r0_acc_inv V c t.val t.isLt p q) (r0_relBlk_apply V c t p q e he)).trans ?_
  rw [h1, r0_rowSum_full V c (4096 * (t.val / 25) + p.val) e he q]
  rfl

theorem r0_tile_at (c : Dev nD) (t : Fin cfg0.N) (h1 : t.val % 25 = 24) (j : S4096x128.Idx) (i : S1601536x128.Idx)
    (hi0 : (i 0).val = 4096 * (t.val / 25) + (j 0).val) (hi1 : (i 1).val = (j 1).val) :
    (outsAt0 V c t.val t.isLt).1 j = Cert.Spec.gatherStep (r0_tailArr V c) (r0_embArr V c) (r0_relArr V c) i := by
  obtain ⟨p, q, rfl⟩ : ∃ (p : Fin 4096) (q : Fin 128), j = ix2 p q := ⟨j 0, j 1, eq_ix2 j⟩
  have hq : i 1 = q := Fin.ext hi1
  show _ = Cert.Spec.gatherAt (r0_tailArr V c) (r0_embArr V c) (r0_relArr V c) (i 0) (i 1)
  rw [hq]
  exact r0_tile_apply V c t h1 p q (i 0) hi0

theorem r0_flushed_eq (c : Dev nD) (t : Fin cfg0.N) (hf : (cfg0.win 3).flush t = true) :
    (dat0 V c).flushed 3 t
      = ((cfg0.win 3).blk t).view.read (Elt Ideal) (Cert.Spec.gatherStep (r0_tailArr V c) (r0_embArr V c) (r0_relArr V c)) := by
  have h1 : t.val % 25 = 24 := (flush0_3 t).mp hf
  obtain ⟨e0, e1⟩ := r0_idx_msg t
  show (cfg0.win 3).cut (grid0.coords t) ((dat0 V c).after 3 t) = _
  rw [after0_3]
  funext y
  show (outsAt0 V c t.val t.isLt).1 ((cfg0.win 3).xinj (grid0.coords t) y)
    = Cert.Spec.gatherStep (r0_tailArr V c) (r0_embArr V c) (r0_relArr V c) (((cfg0.win 3).blk t).view.emb y)
  refine r0_tile_at V c t h1 ((cfg0.win 3).xinj (grid0.coords t) y) (((cfg0.win 3).blk t).view.emb y) ?_ ?_
  · show win0_3.index t (0 : Fin 2) * 4096 + 1 * (y 0).val = 4096 * (t.val / 25) + (y 0).val
    omega
  · show win0_3.index t (1 : Fin 2) * 128 + 1 * (y 1).val = (y 1).val
    omega

theorem r0_mem_blk (t : Fin cfg0.N) (i : S1601536x128.Idx) :
    i ∈ ((cfg0.win 3).blk t).view.set
      ↔ ∀ a : Fin 2, win0_3.index t a * S4096x128.size a ≤ (i a).val ∧ (i a).val < win0_3.index t a * S4096x128.size a + S4096x128.size a := by
  show i ∈ ((View.whole (Pipeline.arrRef spec0 3)).slice (win0_3.rect t)).set ↔ _
  rw [View.set_slice_whole, Rect.mem_set_unit]
  exact Iff.rfl

theorem r0_mem_of (t : Fin cfg0.N) (i : S1601536x128.Idx) (h : t.val / 25 = (i 0).val / 4096) :
    i ∈ ((cfg0.win 3).blk t).view.set := by
  have hi1 : (i 1).val < 128 := idx2_lt1 i
  obtain ⟨e0, e1⟩ := r0_idx_msg t
  rw [r0_mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

theorem r0_cover (i : S1601536x128.Idx) :
    ∃ t : Fin cfg0.N, (cfg0.win 3).flush t = true ∧ i ∈ ((cfg0.win 3).blk t).view.set := by
  have hN : cfg0.N = 9775 := N_0
  have hi0 : (i 0).val < 1601536 := idx2_lt0 i
  have ht : 25 * ((i 0).val / 4096) + 24 < cfg0.N := by omega
  refine ⟨⟨25 * ((i 0).val / 4096) + 24, ht⟩, (flush0_3 _).mpr ?_, r0_mem_of _ i ?_⟩
  · show (25 * ((i 0).val / 4096) + 24) % 25 = 24
    omega
  · show (25 * ((i 0).val / 4096) + 24) / 25 = (i 0).val / 4096
    omega

theorem region0_out (c : Dev nD) :
    ((dat0 (F := Ideal) V c).arrAt 3 cfg0.N : Cert.Spec.SEdge.Idx → EReal)
      = Cert.Spec.gatherStep (V c (Pipeline.arrRef spec0 0) : Cert.Spec.SRow.Idx → BitVec 32)
          (V c (Pipeline.arrRef spec0 1) : Cert.Spec.SEnt.Idx → EReal) (V c (Pipeline.arrRef spec0 2) : Cert.Spec.SEdge.Idx → EReal) :=
  (dat0 V c).arrAt_eq_of_cover 3 (Cert.Spec.gatherStep (r0_tailArr V c) (r0_embArr V c) (r0_relArr V c))
    (fun t hf => r0_flushed_eq V c t hf) (fun i => r0_cover i)

end Cert.KernelIdeal.Hand

end
-- ==== Proof.KI.R1Pay.lean ====
import proofs.«428098_j75917841924563_1_alg».proof.Proof.KI.R1Dat
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem r1_hz : (![0, 0] : Fin 2 → Nat) = fun _ => 0 := funext fun a => by
  match a with
  | ⟨0, _⟩ => rfl
  | ⟨1, _⟩ => rfl

section Body

variable (c : Dev nD) (i : grid1.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

theorem sout1_A_0_eq (hc0 : cond1_0 i) (hc1 : ¬cond1_1 i) (x0 : Vec F S1x4096 .i32) (x1 : Vec F S4096x128 .bf16) (x2 : Vec F S2048x1 .f32) :
    sout1_A_0 c i arg2 harg2 arg3 harg3 arg4 harg4 arg5 harg5 arg6 harg6 hc0 hc1 x0 x1 x2 = k1_pay2 i x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) r1_hz]
  simp only [View.readAt_eq_ld, harg2.read_unread, harg3.read_unread, View.ld_unit_zero (S := S1x4096) r1_hz,
    View.ld_unit_zero (S := S4096x128) r1_hz, View.readCov_unit_zero (S := S2048x128) _ r1_hz]

theorem sout1_B_0_eq (hc0 : ¬cond1_0 i) (hc1 : ¬cond1_1 i) (x0 : Vec F S1x4096 .i32) (x1 : Vec F S4096x128 .bf16) (x2 : Vec F S2048x1 .f32) (xs0 : Vec F S2048x128 .f32) :
    sout1_B_0 c i arg2 harg2 arg3 harg3 arg4 harg4 arg5 harg5 arg6 harg6 hc0 hc1 x0 x1 x2 xs0 = k1_pay2 i x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem sout1_C_0_eq (hc0 : ¬cond1_0 i) (hc1 : cond1_1 i) (x0 : Vec F S1x4096 .i32) (x1 : Vec F S4096x128 .bf16) (x2 : Vec F S2048x1 .f32) (xs0 : Vec F S2048x128 .f32) :
    sout1_C_0 c i arg2 harg2 arg3 harg3 arg4 harg4 arg5 harg5 arg6 harg6 hc0 hc1 x0 x1 x2 xs0 = k1_pay2 i x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem out1_C_3_eq (hc0 : ¬cond1_0 i) (hc1 : cond1_1 i) (x0 : Vec F S1x4096 .i32) (x1 : Vec F S4096x128 .bf16) (x2 : Vec F S2048x1 .f32) (xs0 : Vec F S2048x128 .f32) :
    out1_C_3 c i arg2 harg2 arg3 harg3 arg4 harg4 arg5 harg5 arg6 harg6 hc0 hc1 x0 x1 x2 xs0 = k1_pay3 (k1_pay2 i x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg4.read_unread, harg6.read_unread, View.ld_unit_zero (S := S1x4096) r1_hz,
    View.ld_unit_zero (S := S4096x128) r1_hz, View.ld_unit_zero (S := S2048x1) r1_hz, View.ld_unit_zero (S := S2048x128) r1_hz,
    View.readCov_unit_zero (S := S2048x128) _ r1_hz]

end Body

theorem r1_entWord (k r : ℕ) :
    IntOp.addi (Scalar.muli (BitVec.ofNat 32 k) 2048#32) (BitVec.ofNat 32 r) = BitVec.ofNat 32 (2048 * k + r) := by
  unfold IntOp.addi Scalar.muli IntOp.muli
  apply BitVec.eq_of_toNat_eq
  simp only [BitVec.toNat_add, BitVec.toNat_mul, BitVec.toNat_ofNat]
  omega

theorem r1_hot_of_cmp (n : ℕ) (w : BitVec 32) :
    (FloatOps.sitofp (F := Ideal) .f32 ((IntOp.cmpi .eq (BitVec.ofNat 32 n) w).setWidth 32) : EReal) = Cert.Spec.hot n w := by
  unfold Cert.Spec.hot IntOp.cmpi
  show (((((BitVec.ofBool (BitVec.ofNat 32 n == w)).setWidth 32).toInt : ℝ)) : EReal) = _
  by_cases h : BitVec.ofNat 32 n = w
  · rw [if_pos h, beq_iff_eq.mpr h]
    show ((((1#32 : BitVec 32).toInt : ℝ)) : EReal) = 1
    norm_num
  · rw [if_neg h, beq_eq_false_iff_ne.mpr h]
    show ((((0#32 : BitVec 32).toInt : ℝ)) : EReal) = 0
    norm_num

def r1_hotBlk (i : grid1.Coords) (v7 : Vec F S1x4096 .i32) : FVec F S2048x4096 .bf16 :=
  truncf .bf16 (sitofp .f32 (extui 32 (cmpi .eq
    (broadcastTo S2048x4096 (addi (broadcast S2048x1 (Scalar.muli (BitVec.ofNat 32 (i 0).val) 2048#32)) (iota .tc S2048x1 32 [0] iota_S2048x1_d0_w32)) broadcasts_S2048x1_S2048x4096)
    (broadcastTo S2048x4096 (shapeCast S1x4096 v7 shapeCasts_S1x4096_S1x4096) broadcasts_S1x4096_S2048x4096)) natLt_1_32)) bitsLt_bf16_f32

theorem r1_pay2_eq (i : grid1.Coords) (v7 : Vec F S1x4096 .i32) (v15 : Vec F S4096x128 .bf16) (v18 : Vec F S2048x128 .f32) :
    k1_pay2 i v7 v15 v18 = shapeCast S2048x128 (addf v18 (matmul dot_S2048x4096_S4096x128_S2048x128_1_0_0_1_n_n none (r1_hotBlk i v7)
      (shapeCast S4096x128 v15 shapeCasts_S4096x128_S4096x128) (constant S2048x128 .f32 0x00000000#32))) shapeCasts_S2048x128_S2048x128 := rfl

theorem r1_hotBlk_apply (i : grid1.Coords) (x0 : Vec Ideal S1x4096 .i32) (p : Fin 2048) (r : Fin 4096) :
    r1_hotBlk (F := Ideal) i x0 (ix2 p r) = Cert.Spec.hot (2048 * (i 0).val + p.val) (x0 (ix2 (0 : Fin 1) r)) := by
  unfold r1_hotBlk
  refine (truncf_apply (φ := .f32) (ψ := .bf16) _ bitsLt_bf16_f32 (ix2 p r)).trans ?_
  refine (sitofp_apply (F := Ideal) (φ := .f32) _ (ix2 p r)).trans ?_
  refine (congrArg (FloatOps.sitofp (F := Ideal) .f32) (extui_apply _ natLt_1_32 (ix2 p r))).trans ?_
  refine Eq.trans ?_ (r1_hot_of_cmp _ _)
  refine congrArg (fun b : BitVec 1 => (FloatOps.sitofp (F := Ideal) .f32 (b.setWidth 32) : EReal)) ?_
  show IntOp.cmpi .eq _ _ = IntOp.cmpi .eq _ _
  refine congrArg₂ (IntOp.cmpi .eq) ?_ ?_
  · refine (broadcastTo_apply _ _ (ix2 p r) (ix2 p (0 : Fin 1)) (fun a => by
      match a with
      | ⟨0, _⟩ => rfl
      | ⟨1, _⟩ => rfl)).trans ?_
    show IntOp.addi _ (iota .tc S2048x1 32 [0] iota_S2048x1_d0_w32 (ix2 p (0 : Fin 1))) = _
    rw [iota_single_apply]
    exact r1_entWord _ _
  · refine (broadcastTo_apply _ _ (ix2 p r) (ix2 (0 : Fin 1) r) (fun a => by
      match a with
      | ⟨0, _⟩ => rfl
      | ⟨1, _⟩ => rfl)).trans ?_
    rw [shapeCast_self]

theorem r1_lhs_0 (j : S2048x128.Idx) (k : dot_S2048x4096_S4096x128_S2048x128_1_0_0_1_n_n.contr.Idx) :
    (dot_S2048x4096_S4096x128_S2048x128_1_0_0_1_n_n.lhsIdx j k 0).val = (j 0).val := by
  unfold DotDims.lhsIdx
  rw [dif_neg (show ¬(0 : Fin S2048x4096.rank) ∈ dot_S2048x4096_S4096x128_S2048x128_1_0_0_1_n_n.lhsBatch by decide), dif_pos (show (0 : Fin S2048x4096.rank) ∈ dot_S2048x4096_S4096x128_S2048x128_1_0_0_1_n_n.lhsNonContracting by decide)]
  rfl
theorem r1_lhs_1 (j : S2048x128.Idx) (k : dot_S2048x4096_S4096x128_S2048x128_1_0_0_1_n_n.contr.Idx) :
    (dot_S2048x4096_S4096x128_S2048x128_1_0_0_1_n_n.lhsIdx j k 1).val = (k ⟨0, by decide⟩).val :=
  dot_S2048x4096_S4096x128_S2048x128_1_0_0_1_n_n.lhsIdx_val_of_single rfl j k
theorem r1_rhs_0 (j : S2048x128.Idx) (k : dot_S2048x4096_S4096x128_S2048x128_1_0_0_1_n_n.contr.Idx) :
    (dot_S2048x4096_S4096x128_S2048x128_1_0_0_1_n_n.rhsIdx j k 0).val = (k ⟨0, by decide⟩).val :=
  dot_S2048x4096_S4096x128_S2048x128_1_0_0_1_n_n.rhsIdx_val_of_single rfl j k
theorem r1_rhs_1 (j : S2048x128.Idx) (k : dot_S2048x4096_S4096x128_S2048x128_1_0_0_1_n_n.contr.Idx) :
    (dot_S2048x4096_S4096x128_S2048x128_1_0_0_1_n_n.rhsIdx j k 1).val = (j 1).val := by
  unfold DotDims.rhsIdx
  rw [dif_neg (show ¬(1 : Fin S4096x128.rank) ∈ dot_S2048x4096_S4096x128_S2048x128_1_0_0_1_n_n.rhsBatch by decide), dif_pos (show (1 : Fin S4096x128.rank) ∈ dot_S2048x4096_S4096x128_S2048x128_1_0_0_1_n_n.rhsNonContracting by decide)]
  rfl

theorem r1_mm_apply (L : FVec Ideal S2048x4096 .bf16) (R : FVec Ideal S4096x128 .bf16) (p : Fin 2048) (q : Fin 128) :
    matmul dot_S2048x4096_S4096x128_S2048x128_1_0_0_1_n_n none L R (constant S2048x128 .f32 0x00000000#32) (ix2 p q)
      = ∑ r : Fin 4096, L (ix2 p r) * R (ix2 r q) := by
  refine (Ideal.matmul_constant_zero_apply dot_S2048x4096_S4096x128_S2048x128_1_0_0_1_n_n none L R (ix2 p q)).trans ?_
  rw [← Equiv.sum_comp (contrEquiv1 dot_S2048x4096_S4096x128_S2048x128_1_0_0_1_n_n 4096 rfl rfl).symm]
  refine Finset.sum_congr rfl fun r _ => ?_
  have hk := contrEquiv1_symm_val dot_S2048x4096_S4096x128_S2048x128_1_0_0_1_n_n 4096 rfl rfl r
  have el : dot_S2048x4096_S4096x128_S2048x128_1_0_0_1_n_n.lhsIdx (ix2 p q) ((contrEquiv1 dot_S2048x4096_S4096x128_S2048x128_1_0_0_1_n_n 4096 rfl rfl).symm r) = ix2 p r := funext fun a => Fin.ext (by
    match a with
    | ⟨0, _⟩ => exact r1_lhs_0 _ _
    | ⟨1, _⟩ => exact (r1_lhs_1 _ _).trans hk)
  have er : dot_S2048x4096_S4096x128_S2048x128_1_0_0_1_n_n.rhsIdx (ix2 p q) ((contrEquiv1 dot_S2048x4096_S4096x128_S2048x128_1_0_0_1_n_n 4096 rfl rfl).symm r) = ix2 r q := funext fun a => Fin.ext (by
    match a with
    | ⟨0, _⟩ => exact (r1_rhs_0 _ _).trans hk
    | ⟨1, _⟩ => exact r1_rhs_1 _ _)
  rw [el, er]

theorem k1_pay1_apply (j : S2048x128.Idx) : k1_pay1 (F := Ideal) j = 0 := by
  unfold k1_pay1
  refine (congrFun (shapeCast_self _ _) j).trans ?_
  exact Ideal.ofBits_zero_f32

theorem k1_pay2_apply (i : grid1.Coords) (x0 : Vec Ideal S1x4096 .i32) (x1 : Vec Ideal S4096x128 .bf16) (acc : Vec Ideal S2048x128 .f32)
    (p : Fin 2048) (q : Fin 128) :
    k1_pay2 i x0 x1 acc (ix2 p q)
      = acc (ix2 p q) + ∑ r : Fin 4096, Cert.Spec.hot (2048 * (i 0).val + p.val) (x0 (ix2 (0 : Fin 1) r)) * x1 (ix2 r q) := by
  rw [r1_pay2_eq]
  refine (congrFun (shapeCast_self _ _) (ix2 p q)).trans ?_
  refine (addf_apply _ _ _).trans ?_
  refine congrArg (fun z : EReal => acc (ix2 p q) + z) ?_
  refine (r1_mm_apply _ _ p q).trans ?_
  refine Finset.sum_congr rfl fun r _ => ?_
  rw [r1_hotBlk_apply, shapeCast_self]

theorem r1_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem r1_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

def r1_agg (a : Vec F S2048x128 .f32) (d : Vec F S2048x1 .f32) : FVec F S2048x128 .f32 :=
  divf a (broadcastTo S2048x128 (shapeCast S2048x1 d shapeCasts_S2048x1_S2048x1) broadcasts_S2048x1_S2048x128)

def r1_floor (a : Vec F S2048x128 .f32) (d : Vec F S2048x1 .f32) : FVec F S2048x1 .f32 :=
  maximumf (sqrt (shapeCast S2048x1 (multiReduction .add [1] S2048 (mulf (r1_agg a d) (r1_agg a d)) 0x00000000#32 reduces_S2048x128_S2048 (.inl rfl) rfl) shapeCasts_S2048_S2048x1))
    (broadcast S2048x1 (Scalar.ofBits .f32 0x2B8CBCCC#32))

theorem r1_pay3_eq (a : Vec F S2048x128 .f32) (d : Vec F S2048x1 .f32) :
    k1_pay3 a d = divf (r1_agg a d) (broadcastTo S2048x128 (r1_floor a d) broadcasts_S2048x1_S2048x128) := rfl

theorem r1_agg_apply (a : Vec Ideal S2048x128 .f32) (d : Vec Ideal S2048x1 .f32) (p : Fin 2048) (q : Fin 128) :
    r1_agg (F := Ideal) a d (ix2 p q) = Ideal.div (a (ix2 p q)) (d (ix2 p (0 : Fin 1))) := by
  unfold r1_agg
  refine (divf_apply _ _ _).trans ?_
  refine congrArg (Ideal.div (a (ix2 p q))) ?_
  refine (r1_broadcastTo_a1_ab_apply _ _ p q).trans ?_
  exact congrFun (shapeCast_self _ _) _

theorem r1_floor_apply (a : Vec Ideal S2048x128 .f32) (d : Vec Ideal S2048x1 .f32) (p : Fin 2048) :
    r1_floor (F := Ideal) a d (ix2 p (0 : Fin 1))
      = max (Ideal.sqrt (∑ q' : Fin 128, Ideal.div (a (ix2 p q')) (d (ix2 p (0 : Fin 1))) * Ideal.div (a (ix2 p q')) (d (ix2 p (0 : Fin 1))))) Cert.Spec.eps := by
  unfold r1_floor
  refine (maximumf_apply _ _ _).trans ?_
  refine congrArg₂ max ?_ rfl
  show Ideal.sqrt _ = Ideal.sqrt _
  refine congrArg Ideal.sqrt ?_
  refine (r1_shapeCast_a_a1_apply _ _ p (0 : Fin 1)).trans ?_
  refine (Ideal.multiReduction_add_single _ 0x00000000#32 reduces_S2048x128_S2048 (.inl rfl) rfl (ix1 p)).trans ?_
  refine Finset.sum_congr rfl fun (q' : Fin 128) _ => ?_
  have e : reduces_S2048x128_S2048.lift (ix1 p) q' = ix2 p q' := funext fun ax => Fin.ext (by
    match ax with
    | ⟨0, _⟩ => rfl
    | ⟨1, _⟩ => rfl)
  refine (congrArg (mulf (r1_agg (F := Ideal) a d) (r1_agg (F := Ideal) a d)) e).trans ?_
  refine (mulf_apply _ _ _).trans ?_
  rw [r1_agg_apply]

theorem k1_pay3_apply (a : Vec Ideal S2048x128 .f32) (d : Vec Ideal S2048x1 .f32) (p : Fin 2048) (q : Fin 128) :
    k1_pay3 a d (ix2 p q) = Ideal.div (Ideal.div (a (ix2 p q)) (d (ix2 p (0 : Fin 1))))
      (max (Ideal.sqrt (∑ q' : Fin 128, Ideal.div (a (ix2 p q')) (d (ix2 p (0 : Fin 1))) * Ideal.div (a (ix2 p q')) (d (ix2 p (0 : Fin 1))))) Cert.Spec.eps) := by
  rw [r1_pay3_eq]
  refine (divf_apply _ _ _).trans ?_
  refine congrArg₂ Ideal.div (r1_agg_apply a d p q) ?_
  refine (r1_broadcastTo_a1_ab_apply _ _ p q).trans ?_
  exact r1_floor_apply a d p

end Cert.KernelIdeal.Hand

end
-- ==== Proof.KI.R1Val.Idx.lean ====
import proofs.«428098_j75917841924563_1_alg».proof.Proof.Gen.KernelIdeal.Points
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r1_idx : ∀ t : Fin cfg1.N,
    (win1_0.index t (0 : Fin 2) = 0 ∧ win1_0.index t (1 : Fin 2) = t.val % 391)
    ∧ (win1_1.index t (0 : Fin 2) = t.val % 391 ∧ win1_1.index t (1 : Fin 2) = 0)
    ∧ (win1_2.index t (0 : Fin 2) = t.val / 391 ∧ win1_2.index t (1 : Fin 2) = 0)
    ∧ (win1_3.index t (0 : Fin 2) = t.val / 391 ∧ win1_3.index t (1 : Fin 2) = 0)
    ∧ ((grid1.coords t) 0).val = t.val / 391 :=
  (by decide +kernel : ∀ t : Fin grid1.N,
    (win1_0.index t (0 : Fin 2) = 0 ∧ win1_0.index t (1 : Fin 2) = t.val % 391)
    ∧ (win1_1.index t (0 : Fin 2) = t.val % 391 ∧ win1_1.index t (1 : Fin 2) = 0)
    ∧ (win1_2.index t (0 : Fin 2) = t.val / 391 ∧ win1_2.index t (1 : Fin 2) = 0)
    ∧ (win1_3.index t (0 : Fin 2) = t.val / 391 ∧ win1_3.index t (1 : Fin 2) = 0)
    ∧ ((grid1.coords t) 0).val = t.val / 391)

theorem r1_sum_tile (g : ℕ → EReal) (k : ℕ) :
    ∑ m ∈ Finset.range (4096 * k), g m + ∑ r : Fin 4096, g (4096 * k + r.val) = ∑ m ∈ Finset.range (4096 * (k + 1)), g m := by
  rw [show 4096 * (k + 1) = 4096 * k + 4096 from by ring, Finset.sum_range_add, Finset.sum_range (fun x => g (4096 * k + x))]

theorem r1_sum_range_fin (n : ℕ) (g : ℕ → EReal) : ∑ m ∈ Finset.range n, g m = ∑ e : Fin n, g e.val :=
  (Fin.sum_univ_eq_sum_range g n).symm

end Cert.KernelIdeal.Hand

end
-- ==== Proof.KI.R1Val.lean ====
import proofs.«428098_j75917841924563_1_alg».proof.Proof.KI.R1Pay
import proofs.«428098_j75917841924563_1_alg».proof.Proof.KI.R1Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r1_harr (c : Dev nD) : Vec Ideal S1x1601536 .i32 := V c (Pipeline.arrRef spec1 0)

abbrev r1_marr (c : Dev nD) : Vec Ideal S1601536x128 .bf16 := V c (Pipeline.arrRef spec1 1)

abbrev r1_darr (c : Dev nD) : Vec Ideal S51200x1 .f32 := V c (Pipeline.arrRef spec1 2)

abbrev r1_hblk (c : Dev nD) (t : Fin cfg1.N) : Vec Ideal S1x4096 .i32 := iblk1 V c 0 t

abbrev r1_mblk (c : Dev nD) (t : Fin cfg1.N) : Vec Ideal S4096x128 .bf16 := iblk1 V c 1 t

abbrev r1_dblk (c : Dev nD) (t : Fin cfg1.N) : Vec Ideal S2048x1 .f32 := iblk1 V c 2 t

def r1_hw (c : Dev nD) (e : ℕ) : BitVec 32 :=
  if h : e < 1601536 then r1_harr V c (ix2 (0 : Fin 1) (⟨e, h⟩ : Fin 1601536)) else 0#32

def r1_mg (c : Dev nD) (e : ℕ) (q : Fin 128) : EReal :=
  if h : e < 1601536 then r1_marr V c (ix2 (⟨e, h⟩ : Fin 1601536) q) else 0

def r1_term (c : Dev nD) (n : ℕ) (q : Fin 128) (e : ℕ) : EReal :=
  Cert.Spec.hot n (r1_hw V c e) * r1_mg V c e q

theorem r1_hblk_apply (c : Dev nD) (t : Fin cfg1.N) (r : Fin 4096) :
    r1_hblk V c t (ix2 (0 : Fin 1) r) = r1_hw V c (4096 * (t.val % 391) + r.val) := by
  have hlt : 4096 * (t.val % 391) + r.val < 1601536 := by
    have := r.isLt; have := Nat.mod_lt t.val (show 0 < 391 by decide); omega
  obtain ⟨⟨e0, e1⟩, -⟩ := r1_idx t
  unfold r1_hw
  rw [dif_pos hlt]
  show ((cfg1.win 0).blk t).view.read (Elt Ideal) (V c (Pipeline.arrRef spec1 0)) (ix2 (0 : Fin 1) r) = _
  rw [View.read_apply]
  show V c (Pipeline.arrRef spec1 0) _ = V c (Pipeline.arrRef spec1 0) _
  congr 1
  funext a; apply Fin.ext
  match a with
  | ⟨0, _⟩ => show win1_0.index t 0 * 1 + 1 * 0 = 0; rw [e0]
  | ⟨1, _⟩ => show win1_0.index t 1 * 4096 + 1 * r.val = 4096 * (t.val % 391) + r.val; rw [e1]; omega

theorem r1_mblk_apply (c : Dev nD) (t : Fin cfg1.N) (r : Fin 4096) (q : Fin 128) :
    r1_mblk V c t (ix2 r q) = r1_mg V c (4096 * (t.val % 391) + r.val) q := by
  have hlt : 4096 * (t.val % 391) + r.val < 1601536 := by
    have := r.isLt; have := Nat.mod_lt t.val (show 0 < 391 by decide); omega
  obtain ⟨-, ⟨e0, e1⟩, -⟩ := r1_idx t
  unfold r1_mg
  rw [dif_pos hlt]
  show ((cfg1.win 1).blk t).view.read (Elt Ideal) (V c (Pipeline.arrRef spec1 1)) (ix2 r q) = _
  rw [View.read_apply]
  show V c (Pipeline.arrRef spec1 1) _ = V c (Pipeline.arrRef spec1 1) _
  congr 1
  funext a; apply Fin.ext
  match a with
  | ⟨0, _⟩ => show win1_1.index t 0 * 4096 + 1 * r.val = 4096 * (t.val % 391) + r.val; rw [e0]; omega
  | ⟨1, _⟩ => show win1_1.index t 1 * 128 + 1 * q.val = q.val; rw [e1]; omega

theorem r1_dblk_apply (c : Dev nD) (t : Fin cfg1.N) (p : Fin 2048) (n : Fin 51200) (hn : n.val = 2048 * (t.val / 391) + p.val) :
    r1_dblk V c t (ix2 p (0 : Fin 1)) = r1_darr V c (ix2 n (0 : Fin 1)) := by
  obtain ⟨-, -, ⟨e0, e1⟩, -⟩ := r1_idx t
  show ((cfg1.win 2).blk t).view.read (Elt Ideal) (V c (Pipeline.arrRef spec1 2)) (ix2 p (0 : Fin 1)) = _
  rw [View.read_apply]
  show V c (Pipeline.arrRef spec1 2) _ = V c (Pipeline.arrRef spec1 2) _
  congr 1
  funext a; apply Fin.ext
  match a with
  | ⟨0, _⟩ => show win1_2.index t 0 * 2048 + 1 * p.val = n.val; rw [e0, hn]; omega
  | ⟨1, _⟩ => show win1_2.index t 1 * 1 + 1 * 0 = 0; rw [e1]

theorem r1_tile_sum (c : Dev nD) (t : Fin cfg1.N) (p : Fin 2048) (q : Fin 128) :
    ∑ r : Fin 4096, Cert.Spec.hot (2048 * ((grid1.coords t) 0).val + p.val) (r1_hblk V c t (ix2 (0 : Fin 1) r)) * r1_mblk V c t (ix2 r q)
      = ∑ r : Fin 4096, r1_term V c (2048 * (t.val / 391) + p.val) q (4096 * (t.val % 391) + r.val) := by
  obtain ⟨-, -, -, -, ej⟩ := r1_idx t
  refine Finset.sum_congr rfl fun r _ => ?_
  rw [r1_hblk_apply V c t r, r1_mblk_apply V c t r q, ej]
  rfl

theorem r1_step (c : Dev nD) (t : Fin cfg1.N) (p : Fin 2048) (q : Fin 128) :
    (outsAt1 V c t.val t.isLt).2 (ix2 p q)
      = (if t.val % 391 = 0 then (0 : EReal) else (outsAt1 V c (t.val - 1) (Nat.lt_of_le_of_lt (Nat.sub_le _ _) t.isLt)).2 (ix2 p q))
        + ∑ r : Fin 4096, r1_term V c (2048 * (t.val / 391) + p.val) q (4096 * (t.val % 391) + r.val) := by
  rw [← r1_tile_sum V c t p q]
  by_cases h0 : t.val % 391 = 0
  · have h1 : ¬t.val % 391 = 390 := by omega
    rw [if_pos h0, outsAt1_A V c t h0 h1]
    dsimp only
    refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (r1_hblk V c t) (r1_mblk V c t) (r1_dblk V c t)) (ix2 p q)).trans ?_
    refine (k1_pay2_apply (grid1.coords t) (r1_hblk V c t) (r1_mblk V c t) (k1_pay1 (F := Ideal)) p q).trans ?_
    rw [k1_pay1_apply]
  · rw [if_neg h0]
    by_cases h1 : t.val % 391 = 390
    · rw [outsAt1_C V c t h0 h1]
      dsimp only
      refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (r1_hblk V c t) (r1_mblk V c t) (r1_dblk V c t) (outsAt1 V c (t.val - 1) (Nat.lt_of_le_of_lt (Nat.sub_le _ _) t.isLt)).2) (ix2 p q)).trans ?_
      exact k1_pay2_apply (grid1.coords t) (r1_hblk V c t) (r1_mblk V c t) (outsAt1 V c (t.val - 1) (Nat.lt_of_le_of_lt (Nat.sub_le _ _) t.isLt)).2 p q
    · rw [outsAt1_B V c t h0 h1]
      dsimp only
      refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (r1_hblk V c t) (r1_mblk V c t) (r1_dblk V c t) (outsAt1 V c (t.val - 1) (Nat.lt_of_le_of_lt (Nat.sub_le _ _) t.isLt)).2) (ix2 p q)).trans ?_
      exact k1_pay2_apply (grid1.coords t) (r1_hblk V c t) (r1_mblk V c t) (outsAt1 V c (t.val - 1) (Nat.lt_of_le_of_lt (Nat.sub_le _ _) t.isLt)).2 p q

theorem r1_acc_apply (c : Dev nD) : ∀ (n : ℕ) (hn : n < cfg1.N) (p : Fin 2048) (q : Fin 128),
    (outsAt1 V c n hn).2 (ix2 p q)
      = ∑ e ∈ Finset.range (4096 * (n % 391 + 1)), r1_term V c (2048 * (n / 391) + p.val) q e := by
  intro n
  induction n with
  | zero =>
    intro hn p q
    refine (r1_step V c ⟨0, hn⟩ p q).trans ?_
    show (if 0 % 391 = 0 then (0 : EReal) else _) + _ = _
    rw [if_pos (Nat.zero_mod 391), ← r1_sum_tile (r1_term V c (2048 * (0 / 391) + p.val) q) (0 % 391)]
    congr 1
  | succ n ih =>
    intro hn p q
    refine (r1_step V c ⟨n + 1, hn⟩ p q).trans ?_
    show (if (n + 1) % 391 = 0 then (0 : EReal) else (outsAt1 V c n _).2 (ix2 p q)) + _ = _
    rw [← r1_sum_tile (r1_term V c (2048 * ((n + 1) / 391) + p.val) q) ((n + 1) % 391)]
    congr 1
    by_cases h0 : (n + 1) % 391 = 0
    · rw [if_pos h0, h0, Nat.mul_zero, Finset.range_zero, Finset.sum_empty]
    · rw [if_neg h0, ih (Nat.lt_of_succ_lt hn) p q]
      have e1 : (n + 1) / 391 = n / 391 := by omega
      have e2 : (n + 1) % 391 = n % 391 + 1 := by omega
      rw [e1, e2]

theorem r1_sum_all (c : Dev nD) (n : ℕ) (q : Fin 128) :
    ∑ e ∈ Finset.range 1601536, r1_term V c n q e
      = ∑ e : Fin 1601536, Cert.Spec.hot n (r1_harr V c (ix2 (0 : Fin 1) e)) * r1_marr V c (ix2 e q) := by
  rw [r1_sum_range_fin]
  refine Finset.sum_congr rfl fun e _ => ?_
  unfold r1_term r1_hw r1_mg
  rw [dif_pos e.isLt, dif_pos e.isLt]

theorem r1_acc_full (c : Dev nD) (t : Fin cfg1.N) (h0 : ¬t.val % 391 = 0) (h1 : t.val % 391 = 390) (p : Fin 2048) (q : Fin 128) :
    k1_pay2 (grid1.coords t) (r1_hblk V c t) (r1_mblk V c t) (outsAt1 V c (t.val - 1) (Nat.lt_of_le_of_lt (Nat.sub_le _ _) t.isLt)).2 (ix2 p q)
      = ∑ e : Fin 1601536, Cert.Spec.hot (2048 * (t.val / 391) + p.val) (r1_harr V c (ix2 (0 : Fin 1) e)) * r1_marr V c (ix2 e q) := by
  rw [← r1_sum_all V c (2048 * (t.val / 391) + p.val) q]
  have hacc := r1_acc_apply V c t.val t.isLt p q
  rw [h1] at hacc
  refine Eq.trans ?_ hacc
  rw [outsAt1_C V c t h0 h1]
  dsimp only
  exact (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (r1_hblk V c t) (r1_mblk V c t) (r1_dblk V c t) (outsAt1 V c (t.val - 1) (Nat.lt_of_le_of_lt (Nat.sub_le _ _) t.isLt)).2) (ix2 p q)).symm

theorem r1_out_apply (c : Dev nD) (t : Fin cfg1.N) (h0 : ¬t.val % 391 = 0) (h1 : t.val % 391 = 390) (p : Fin 2048) (q : Fin 128)
    (n : Fin 51200) (hn : n.val = 2048 * (t.val / 391) + p.val) :
    out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2 (ix2 p q)
      = Cert.Spec.scatterAt (r1_harr V c) (r1_marr V c) (r1_darr V c) n q := by
  refine (congrFun (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (r1_hblk V c t) (r1_mblk V c t) (r1_dblk V c t) (outsAt1 V c (t.val - 1) (Nat.lt_of_le_of_lt (Nat.sub_le _ _) t.isLt)).2) (ix2 p q)).trans ?_
  refine (k1_pay3_apply (k1_pay2 (grid1.coords t) (r1_hblk V c t) (r1_mblk V c t) (outsAt1 V c (t.val - 1) (Nat.lt_of_le_of_lt (Nat.sub_le _ _) t.isLt)).2) (r1_dblk V c t) p q).trans ?_
  have ha : ∀ q' : Fin 128, k1_pay2 (grid1.coords t) (r1_hblk V c t) (r1_mblk V c t) (outsAt1 V c (t.val - 1) (Nat.lt_of_le_of_lt (Nat.sub_le _ _) t.isLt)).2 (ix2 p q')
      = ∑ e : Fin 1601536, Cert.Spec.hot n.val (r1_harr V c (ix2 (0 : Fin 1) e)) * r1_marr V c (ix2 e q') :=
    fun q' => by rw [hn]; exact r1_acc_full V c t h0 h1 p q'
  have hd := r1_dblk_apply V c t p n hn
  unfold Cert.Spec.scatterAt Cert.Spec.aggAt
  rw [hd]
  simp only [ha]

theorem r1_flushed_eq (c : Dev nD) (t : Fin cfg1.N) (hf : (cfg1.win 3).flush t = true) :
    (dat1 (F := Ideal) V c).flushed 3 t
      = ((cfg1.win 3).blk t).view.read (Elt Ideal) (Cert.Spec.scatterStep (r1_harr V c) (r1_marr V c) (r1_darr V c)) := by
  have h1 : t.val % 391 = 390 := (flush1_3 t).mp hf
  have h0 : ¬t.val % 391 = 0 := by omega
  have hN : cfg1.N = 9775 := N_1
  obtain ⟨-, -, -, ⟨e0, e1⟩, -⟩ := r1_idx t
  show (cfg1.win 3).cut (grid1.coords t) ((dat1 (F := Ideal) V c).after 3 t) = _
  rw [after1_3, outsAt1_C V c t h0 h1]
  dsimp only
  funext j
  obtain ⟨p, q, rfl⟩ : ∃ (p : Fin 2048) (q : Fin 128), j = ix2 p q := ⟨j 0, j 1, eq_ix2 j⟩
  have hlt : 2048 * (t.val / 391) + p.val < 51200 := by have := p.isLt; have := t.isLt; omega
  refine (r1_out_apply V c t h0 h1 p q ⟨2048 * (t.val / 391) + p.val, hlt⟩ rfl).trans ?_
  show _ = Cert.Spec.scatterStep (r1_harr V c) (r1_marr V c) (r1_darr V c) (((cfg1.win 3).blk t).view.emb (ix2 p q))
  unfold Cert.Spec.scatterStep
  dsimp only
  congr 1
  · apply Fin.ext
    show 2048 * (t.val / 391) + p.val = win1_3.index t 0 * 2048 + 1 * p.val
    rw [e0]; omega
  · apply Fin.ext
    show q.val = win1_3.index t 1 * 128 + 1 * q.val
    rw [e1]; omega

theorem r1_mem_blk (t : Fin cfg1.N) (i : S51200x128.Idx) :
    i ∈ ((cfg1.win 3).blk t).view.set
      ↔ ∀ a : Fin 2, win1_3.index t a * S2048x128.size a ≤ (i a).val ∧ (i a).val < win1_3.index t a * S2048x128.size a + S2048x128.size a := by
  show i ∈ ((View.whole (Pipeline.arrRef spec1 3)).slice (win1_3.rect t)).set ↔ _
  rw [View.set_slice_whole, Rect.mem_set_unit]
  exact Iff.rfl

theorem r1_cover (i : S51200x128.Idx) :
    ∃ t : Fin cfg1.N, (cfg1.win 3).flush t = true ∧ i ∈ ((cfg1.win 3).blk t).view.set := by
  have hi0 : (i 0).val < 51200 := (i 0).isLt
  have hi1 : (i 1).val < 128 := (i 1).isLt
  have hN : cfg1.N = 9775 := N_1
  have ht : 391 * ((i 0).val / 2048) + 390 < cfg1.N := by omega
  obtain ⟨-, -, -, ⟨e0, e1⟩, -⟩ := r1_idx ⟨391 * ((i 0).val / 2048) + 390, ht⟩
  have hv : (⟨391 * ((i 0).val / 2048) + 390, ht⟩ : Fin cfg1.N).val = 391 * ((i 0).val / 2048) + 390 := rfl
  rw [hv] at e0
  refine ⟨⟨391 * ((i 0).val / 2048) + 390, ht⟩, (flush1_3 _).mpr (by rw [hv]; omega), ?_⟩
  rw [r1_mem_blk]
  intro a
  match a with
  | ⟨0, _⟩ =>
    show win1_3.index ⟨391 * ((i 0).val / 2048) + 390, ht⟩ 0 * 2048 ≤ (i 0).val ∧ (i 0).val < win1_3.index ⟨391 * ((i 0).val / 2048) + 390, ht⟩ 0 * 2048 + 2048
    rw [e0]; omega
  | ⟨1, _⟩ =>
    show win1_3.index ⟨391 * ((i 0).val / 2048) + 390, ht⟩ 1 * 128 ≤ (i 1).val ∧ (i 1).val < win1_3.index ⟨391 * ((i 0).val / 2048) + 390, ht⟩ 1 * 128 + 128
    rw [e1]; omega

theorem region1_out (c : Dev nD) :
    ((dat1 (F := Ideal) V c).arrAt 3 cfg1.N : Cert.Spec.SEnt.Idx → EReal)
      = Cert.Spec.scatterStep (V c (Pipeline.arrRef spec1 0) : Cert.Spec.SRow.Idx → BitVec 32)
          (V c (Pipeline.arrRef spec1 1) : Cert.Spec.SEdge.Idx → EReal) (V c (Pipeline.arrRef spec1 2) : Cert.Spec.SDen.Idx → EReal) :=
  (dat1 (F := Ideal) V c).arrAt_eq_of_cover 3 (Cert.Spec.scatterStep (r1_harr V c) (r1_marr V c) (r1_darr V c))
    (r1_flushed_eq V c) r1_cover

end Cert.KernelIdeal.Hand

end
-- ==== Proof.KI.R2Pay.lean ====
import proofs.«428098_j75917841924563_1_alg».proof.Proof.KI.R2Dat
import proofs.«428098_j75917841924563_1_alg».proof.Proof.KI.R0Pay
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Body

variable (c : Dev nD) (i : grid2.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

theorem sout2_A_0_eq (hc0 : cond2_0 i) (hc1 : ¬cond2_1 i) (x0 : Vec F S1x4096 .i32) (x1 : Vec F S2048x128 .bf16) (x2 : Vec F S4096x128 .bf16) :
    sout2_A_0 c i arg2 harg2 arg3 harg3 arg4 harg4 arg5 harg5 arg6 harg6 hc0 hc1 x0 x1 x2 = k0_pay2 i x0 x1 (k0_pay1 (F := F)) := by
  unfold sout2_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4096x128) r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout2_B_0_eq (hc0 : ¬cond2_0 i) (hc1 : ¬cond2_1 i) (x0 : Vec F S1x4096 .i32) (x1 : Vec F S2048x128 .bf16) (x2 : Vec F S4096x128 .bf16) (xs0 : Vec F S4096x128 .f32) :
    sout2_B_0 c i arg2 harg2 arg3 harg3 arg4 harg4 arg5 harg5 arg6 harg6 hc0 hc1 x0 x1 x2 xs0 = k0_pay2 i x0 x1 xs0 := by
  unfold sout2_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout2_C_0_eq (hc0 : ¬cond2_0 i) (hc1 : cond2_1 i) (x0 : Vec F S1x4096 .i32) (x1 : Vec F S2048x128 .bf16) (x2 : Vec F S4096x128 .bf16) (xs0 : Vec F S4096x128 .f32) :
    sout2_C_0 c i arg2 harg2 arg3 harg3 arg4 harg4 arg5 harg5 arg6 harg6 hc0 hc1 x0 x1 x2 xs0 = k0_pay2 i x0 x1 xs0 := by
  unfold sout2_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem out2_C_3_eq (hc0 : ¬cond2_0 i) (hc1 : cond2_1 i) (x0 : Vec F S1x4096 .i32) (x1 : Vec F S2048x128 .bf16) (x2 : Vec F S4096x128 .bf16) (xs0 : Vec F S4096x128 .f32) :
    out2_C_3 c i arg2 harg2 arg3 harg3 arg4 harg4 arg5 harg5 arg6 harg6 hc0 hc1 x0 x1 x2 xs0 = k0_pay3 (k0_pay2 i x0 x1 xs0) x2 := by
  unfold out2_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

end Body

end Cert.KernelIdeal.Hand

end
-- ==== Proof.KI.R2Val.Idx.lean ====
import proofs.«428098_j75917841924563_1_alg».proof.Proof.Gen.KernelIdeal.Points
import proofs.«428098_j75917841924563_1_alg».proof.Proof.KI.R0Val.Idx
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r2_idx_tail : ∀ t : Fin cfg2.N, win2_0.index t (0 : Fin 2) = 0 ∧ win2_0.index t (1 : Fin 2) = t.val / 25 :=
  (by decide +kernel : ∀ t : Fin grid2.N, win2_0.index t (0 : Fin 2) = 0 ∧ win2_0.index t (1 : Fin 2) = t.val / 25)

theorem r2_idx_ent : ∀ t : Fin cfg2.N, win2_1.index t (0 : Fin 2) = t.val % 25 ∧ win2_1.index t (1 : Fin 2) = 0 :=
  (by decide +kernel : ∀ t : Fin grid2.N, win2_1.index t (0 : Fin 2) = t.val % 25 ∧ win2_1.index t (1 : Fin 2) = 0)

theorem r2_idx_rel : ∀ t : Fin cfg2.N, win2_2.index t (0 : Fin 2) = t.val / 25 ∧ win2_2.index t (1 : Fin 2) = 0 :=
  (by decide +kernel : ∀ t : Fin grid2.N, win2_2.index t (0 : Fin 2) = t.val / 25 ∧ win2_2.index t (1 : Fin 2) = 0)

theorem r2_idx_msg : ∀ t : Fin cfg2.N, win2_3.index t (0 : Fin 2) = t.val / 25 ∧ win2_3.index t (1 : Fin 2) = 0 :=
  (by decide +kernel : ∀ t : Fin grid2.N, win2_3.index t (0 : Fin 2) = t.val / 25 ∧ win2_3.index t (1 : Fin 2) = 0)

theorem r2_coord_k : ∀ t : Fin cfg2.N, ((grid2.coords t) 1).val = t.val % 25 :=
  (by decide +kernel : ∀ t : Fin grid2.N, ((grid2.coords t) 1).val = t.val % 25)

end Cert.KernelIdeal.Hand

end
-- ==== Proof.KI.R2Val.Inv.lean ====
import proofs.«428098_j75917841924563_1_alg».proof.Proof.KI.R2Pay
import proofs.«428098_j75917841924563_1_alg».proof.Proof.KI.R0Val.Inv
import proofs.«428098_j75917841924563_1_alg».proof.Proof.KI.R2Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r2_tailArr (c : Dev nD) : Vec Ideal S1x1601536 .i32 := V c (Pipeline.arrRef spec2 0)

abbrev r2_embArr (c : Dev nD) : Vec Ideal S51200x128 .bf16 := V c (Pipeline.arrRef spec2 1)

abbrev r2_relArr (c : Dev nD) : Vec Ideal S1601536x128 .bf16 := V c (Pipeline.arrRef spec2 2)

abbrev r2_tailBlk (c : Dev nD) (t : Fin cfg2.N) : Vec Ideal S1x4096 .i32 := iblk2 V c 0 t

abbrev r2_embBlk (c : Dev nD) (t : Fin cfg2.N) : Vec Ideal S2048x128 .bf16 := iblk2 V c 1 t

abbrev r2_relBlk (c : Dev nD) (t : Fin cfg2.N) : Vec Ideal S4096x128 .bf16 := iblk2 V c 2 t

def r2_tailAt (c : Dev nD) (j : ℕ) : BitVec 32 :=
  if h : j < 1601536 then r2_tailArr V c (ix2 (0 : Fin 1) (⟨j, h⟩ : Fin 1601536)) else 0#32

def r2_embAt (c : Dev nD) (n : ℕ) (q : Fin 128) : EReal :=
  if h : n < 51200 then r2_embArr V c (ix2 (⟨n, h⟩ : Fin 51200) q) else 0

theorem r2_tailBlk_apply (c : Dev nD) (t : Fin cfg2.N) (p : Fin 4096) :
    r2_tailBlk V c t (ix2 (0 : Fin 1) p) = r2_tailAt V c (4096 * (t.val / 25) + p.val) := by
  have hN : cfg2.N = 9775 := N_2
  have ht := t.isLt
  have hp := p.isLt
  have hb : 4096 * (t.val / 25) + p.val < 1601536 := by omega
  obtain ⟨e0, e1⟩ := r2_idx_tail t
  unfold r2_tailAt
  rw [dif_pos hb]
  show V c (Pipeline.arrRef spec2 0) (((cfg2.win 0).blk t).view.emb (ix2 (0 : Fin 1) p))
    = V c (Pipeline.arrRef spec2 0) (ix2 (0 : Fin 1) (⟨4096 * (t.val / 25) + p.val, hb⟩ : Fin 1601536))
  congr 1
  funext a
  apply Fin.ext
  match a with
  | ⟨0, _⟩ => show win2_0.index t (0 : Fin 2) * 1 + 1 * 0 = 0; omega
  | ⟨1, _⟩ => show win2_0.index t (1 : Fin 2) * 4096 + 1 * p.val = 4096 * (t.val / 25) + p.val; omega

theorem r2_embBlk_apply (c : Dev nD) (t : Fin cfg2.N) (r : Fin 2048) (q : Fin 128) :
    r2_embBlk V c t (ix2 r q) = r2_embAt V c (2048 * (t.val % 25) + r.val) q := by
  have hr := r.isLt
  have hb : 2048 * (t.val % 25) + r.val < 51200 := by omega
  obtain ⟨e0, e1⟩ := r2_idx_ent t
  unfold r2_embAt
  rw [dif_pos hb]
  show V c (Pipeline.arrRef spec2 1) (((cfg2.win 1).blk t).view.emb (ix2 r q))
    = V c (Pipeline.arrRef spec2 1) (ix2 (⟨2048 * (t.val % 25) + r.val, hb⟩ : Fin 51200) q)
  congr 1
  funext a
  apply Fin.ext
  match a with
  | ⟨0, _⟩ => show win2_1.index t (0 : Fin 2) * 2048 + 1 * r.val = 2048 * (t.val % 25) + r.val; omega
  | ⟨1, _⟩ => show win2_1.index t (1 : Fin 2) * 128 + 1 * q.val = q.val; omega

theorem r2_relBlk_apply (c : Dev nD) (t : Fin cfg2.N) (p : Fin 4096) (q : Fin 128) (e : Fin 1601536)
    (he : e.val = 4096 * (t.val / 25) + p.val) :
    r2_relBlk V c t (ix2 p q) = r2_relArr V c (ix2 e q) := by
  obtain ⟨e0, e1⟩ := r2_idx_rel t
  show V c (Pipeline.arrRef spec2 2) (((cfg2.win 2).blk t).view.emb (ix2 p q)) = V c (Pipeline.arrRef spec2 2) (ix2 e q)
  congr 1
  funext a
  apply Fin.ext
  match a with
  | ⟨0, _⟩ => show win2_2.index t (0 : Fin 2) * 4096 + 1 * p.val = e.val; omega
  | ⟨1, _⟩ => show win2_2.index t (1 : Fin 2) * 128 + 1 * q.val = q.val; omega

theorem r2_acc_first (c : Dev nD) (t : Fin cfg2.N) (h0 : t.val % 25 = 0) :
    (outsAt2 V c t.val t.isLt).2 = k0_pay2 (grid2.coords t) (r2_tailBlk V c t) (r2_embBlk V c t) (k0_pay1 (F := Ideal)) := by
  have h1 : ¬t.val % 25 = 24 := by omega
  rw [outsAt2_A V c t h0 h1]
  dsimp only
  exact sout2_A_0_eq (F := Ideal) c (grid2.coords t) (ms2_0 t) (hs2_0 t) (ms2_1 t) (hs2_1 t) (ms2_2 t) (hs2_2 t) (ms2_3 t) (hs2_3 t)
    scM2_0 (Memref.isWhole_whole _) ((hcond2_0 t).mpr h0) (fun h => h1 ((hcond2_1 t).mp h)) (iblk2 V c 0 t) (iblk2 V c 1 t) (iblk2 V c 2 t)

theorem r2_acc_next (c : Dev nD) (t : Fin cfg2.N) (h0 : ¬t.val % 25 = 0) :
    (outsAt2 V c t.val t.isLt).2 = k0_pay2 (grid2.coords t) (r2_tailBlk V c t) (r2_embBlk V c t)
      (outsAt2 V c (t.val - 1) (Nat.lt_of_le_of_lt (Nat.sub_le _ _) t.isLt)).2 := by
  by_cases h1 : t.val % 25 = 24
  · rw [outsAt2_C V c t h0 h1]
    dsimp only
    exact sout2_C_0_eq (F := Ideal) c (grid2.coords t) (ms2_0 t) (hs2_0 t) (ms2_1 t) (hs2_1 t) (ms2_2 t) (hs2_2 t) (ms2_3 t) (hs2_3 t)
      scM2_0 (Memref.isWhole_whole _) (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt)).2
  · rw [outsAt2_B V c t h0 h1]
    dsimp only
    exact sout2_B_0_eq (F := Ideal) c (grid2.coords t) (ms2_0 t) (hs2_0 t) (ms2_1 t) (hs2_1 t) (ms2_2 t) (hs2_2 t) (ms2_3 t) (hs2_3 t)
      scM2_0 (Memref.isWhole_whole _) (fun h => h0 ((hcond2_0 t).mp h)) (fun h => h1 ((hcond2_1 t).mp h)) (iblk2 V c 0 t) (iblk2 V c 1 t) (iblk2 V c 2 t)
      (outsAt2 V c (t.val - 1) (Nat.lt_of_le_of_lt (Nat.sub_le _ _) t.isLt)).2

theorem r2_out_last (c : Dev nD) (t : Fin cfg2.N) (h1 : t.val % 25 = 24) :
    (outsAt2 V c t.val t.isLt).1 = k0_pay3 (outsAt2 V c t.val t.isLt).2 (r2_relBlk V c t) := by
  have h0 : ¬t.val % 25 = 0 := by omega
  rw [outsAt2_C V c t h0 h1]
  dsimp only
  rw [sout2_C_0_eq (F := Ideal) c (grid2.coords t) (ms2_0 t) (hs2_0 t) (ms2_1 t) (hs2_1 t) (ms2_2 t) (hs2_2 t) (ms2_3 t) (hs2_3 t)
      scM2_0 (Memref.isWhole_whole _) (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt)).2]
  exact out2_C_3_eq (F := Ideal) c (grid2.coords t) (ms2_0 t) (hs2_0 t) (ms2_1 t) (hs2_1 t) (ms2_2 t) (hs2_2 t) (ms2_3 t) (hs2_3 t)
      scM2_0 (Memref.isWhole_whole _) (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt)).2

def r2_rowSum (c : Dev nD) (j : ℕ) (K : ℕ) (q : Fin 128) : EReal :=
  ∑ m ∈ Finset.range K, Cert.Spec.hot m (r2_tailAt V c j) * r2_embAt V c m q

theorem r2_inv_first (c : Dev nD) (t : Fin cfg2.N) (h0 : t.val % 25 = 0) (p : Fin 4096) (q : Fin 128) :
    (outsAt2 V c t.val t.isLt).2 (ix2 p q) = r2_rowSum V c (4096 * (t.val / 25) + p.val) (2048 * (t.val % 25 + 1)) q := by
  refine (congrFun (r2_acc_first V c t h0) (ix2 p q)).trans ?_
  refine r0_pay_step (grid2.coords t) (r2_tailBlk V c t) (r2_embBlk V c t) (k0_pay1 (F := Ideal)) p q (t.val % 25)
    (r2_tailAt V c (4096 * (t.val / 25) + p.val)) (fun m => r2_embAt V c m q) (r2_coord_k t) (r2_tailBlk_apply V c t p)
    (fun r => r2_embBlk_apply V c t r q) ?_
  rw [k0_pay1_apply, h0, Nat.mul_zero, Finset.range_zero, Finset.sum_empty]

theorem r2_inv_next (c : Dev nD) (t : Fin cfg2.N) (h0 : ¬t.val % 25 = 0) (p : Fin 4096) (q : Fin 128)
    (ih : (outsAt2 V c (t.val - 1) (Nat.lt_of_le_of_lt (Nat.sub_le _ _) t.isLt)).2 (ix2 p q)
      = r2_rowSum V c (4096 * ((t.val - 1) / 25) + p.val) (2048 * ((t.val - 1) % 25 + 1)) q) :
    (outsAt2 V c t.val t.isLt).2 (ix2 p q) = r2_rowSum V c (4096 * (t.val / 25) + p.val) (2048 * (t.val % 25 + 1)) q := by
  have e1 : (t.val - 1) % 25 + 1 = t.val % 25 := by omega
  have e2 : (t.val - 1) / 25 = t.val / 25 := by omega
  rw [e1, e2] at ih
  refine (congrFun (r2_acc_next V c t h0) (ix2 p q)).trans ?_
  exact r0_pay_step (grid2.coords t) (r2_tailBlk V c t) (r2_embBlk V c t)
    (outsAt2 V c (t.val - 1) (Nat.lt_of_le_of_lt (Nat.sub_le _ _) t.isLt)).2 p q (t.val % 25)
    (r2_tailAt V c (4096 * (t.val / 25) + p.val)) (fun m => r2_embAt V c m q) (r2_coord_k t) (r2_tailBlk_apply V c t p)
    (fun r => r2_embBlk_apply V c t r q) ih

theorem r2_acc_inv (c : Dev nD) : ∀ (n : ℕ) (hn : n < cfg2.N) (p : Fin 4096) (q : Fin 128),
    (outsAt2 V c n hn).2 (ix2 p q) = r2_rowSum V c (4096 * (n / 25) + p.val) (2048 * (n % 25 + 1)) q
  | 0, hn, p, q => r2_inv_first V c ⟨0, hn⟩ (Nat.zero_mod 25) p q
  | n + 1, hn, p, q => by
    by_cases h0 : (n + 1) % 25 = 0
    · exact r2_inv_first V c ⟨n + 1, hn⟩ h0 p q
    · exact r2_inv_next V c ⟨n + 1, hn⟩ h0 p q (r2_acc_inv c n (Nat.lt_of_succ_lt hn) p q)

end Cert.KernelIdeal.Hand

end
-- ==== Proof.KI.R2Val.lean ====
import proofs.«428098_j75917841924563_1_alg».proof.Proof.KI.R2Val.Inv
import proofs.«428098_j75917841924563_1_alg».proof.Proof.KI.R0Val
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem r2_rowSum_full (c : Dev nD) (j : ℕ) (e : Fin 1601536) (he : e.val = j) (q : Fin 128) :
    r2_rowSum V c j (2048 * (24 + 1)) q
      = ∑ n : Fin 51200, Cert.Spec.hot n.val (r2_tailArr V c (ix2 (0 : Fin 1) e)) * r2_embArr V c (ix2 n q) := by
  have hw : r2_tailAt V c j = r2_tailArr V c (ix2 (0 : Fin 1) e) := by
    subst he
    unfold r2_tailAt
    rw [dif_pos e.isLt]
  unfold r2_rowSum
  rw [hw, show 2048 * (24 + 1) = 51200 from rfl, Finset.sum_range]
  refine Finset.sum_congr rfl fun n _ => ?_
  unfold r2_embAt
  rw [dif_pos n.isLt]

theorem r2_tile_apply (c : Dev nD) (t : Fin cfg2.N) (h1 : t.val % 25 = 24) (p : Fin 4096) (q : Fin 128) (e : Fin 1601536)
    (he : e.val = 4096 * (t.val / 25) + p.val) :
    (outsAt2 V c t.val t.isLt).1 (ix2 p q) = Cert.Spec.gatherAt (r2_tailArr V c) (r2_embArr V c) (r2_relArr V c) e q := by
  rw [r2_out_last V c t h1]
  refine (r0_tile_elem (outsAt2 V c t.val t.isLt).2 (r2_relBlk V c t) p q
    (r2_rowSum V c (4096 * (t.val / 25) + p.val) (2048 * (t.val % 25 + 1)) q) (r2_relArr V c (ix2 e q))
    (r2_acc_inv V c t.val t.isLt p q) (r2_relBlk_apply V c t p q e he)).trans ?_
  rw [h1, r2_rowSum_full V c (4096 * (t.val / 25) + p.val) e he q]
  rfl

theorem r2_tile_at (c : Dev nD) (t : Fin cfg2.N) (h1 : t.val % 25 = 24) (j : S4096x128.Idx) (i : S1601536x128.Idx)
    (hi0 : (i 0).val = 4096 * (t.val / 25) + (j 0).val) (hi1 : (i 1).val = (j 1).val) :
    (outsAt2 V c t.val t.isLt).1 j = Cert.Spec.gatherStep (r2_tailArr V c) (r2_embArr V c) (r2_relArr V c) i := by
  obtain ⟨p, q, rfl⟩ : ∃ (p : Fin 4096) (q : Fin 128), j = ix2 p q := ⟨j 0, j 1, eq_ix2 j⟩
  have hq : i 1 = q := Fin.ext hi1
  show _ = Cert.Spec.gatherAt (r2_tailArr V c) (r2_embArr V c) (r2_relArr V c) (i 0) (i 1)
  rw [hq]
  exact r2_tile_apply V c t h1 p q (i 0) hi0

theorem r2_flushed_eq (c : Dev nD) (t : Fin cfg2.N) (hf : (cfg2.win 3).flush t = true) :
    (dat2 V c).flushed 3 t
      = ((cfg2.win 3).blk t).view.read (Elt Ideal) (Cert.Spec.gatherStep (r2_tailArr V c) (r2_embArr V c) (r2_relArr V c)) := by
  have h1 : t.val % 25 = 24 := (flush2_3 t).mp hf
  obtain ⟨e0, e1⟩ := r2_idx_msg t
  show (cfg2.win 3).cut (grid2.coords t) ((dat2 V c).after 3 t) = _
  rw [after2_3]
  funext y
  show (outsAt2 V c t.val t.isLt).1 ((cfg2.win 3).xinj (grid2.coords t) y)
    = Cert.Spec.gatherStep (r2_tailArr V c) (r2_embArr V c) (r2_relArr V c) (((cfg2.win 3).blk t).view.emb y)
  refine r2_tile_at V c t h1 ((cfg2.win 3).xinj (grid2.coords t) y) (((cfg2.win 3).blk t).view.emb y) ?_ ?_
  · show win2_3.index t (0 : Fin 2) * 4096 + 1 * (y 0).val = 4096 * (t.val / 25) + (y 0).val
    omega
  · show win2_3.index t (1 : Fin 2) * 128 + 1 * (y 1).val = (y 1).val
    omega

theorem r2_mem_blk (t : Fin cfg2.N) (i : S1601536x128.Idx) :
    i ∈ ((cfg2.win 3).blk t).view.set
      ↔ ∀ a : Fin 2, win2_3.index t a * S4096x128.size a ≤ (i a).val ∧ (i a).val < win2_3.index t a * S4096x128.size a + S4096x128.size a := by
  show i ∈ ((View.whole (Pipeline.arrRef spec2 3)).slice (win2_3.rect t)).set ↔ _
  rw [View.set_slice_whole, Rect.mem_set_unit]
  exact Iff.rfl

theorem r2_mem_of (t : Fin cfg2.N) (i : S1601536x128.Idx) (h : t.val / 25 = (i 0).val / 4096) :
    i ∈ ((cfg2.win 3).blk t).view.set := by
  have hi1 : (i 1).val < 128 := idx2_lt1 i
  obtain ⟨e0, e1⟩ := r2_idx_msg t
  rw [r2_mem_blk]
  intro a
  match a with
  | ⟨0, _⟩ =>
    show win2_3.index t (0 : Fin 2) * 4096 ≤ (i 0).val ∧ (i 0).val < win2_3.index t (0 : Fin 2) * 4096 + 4096
    omega
  | ⟨1, _⟩ =>
    show win2_3.index t (1 : Fin 2) * 128 ≤ (i 1).val ∧ (i 1).val < win2_3.index t (1 : Fin 2) * 128 + 128
    omega

theorem r2_cover (i : S1601536x128.Idx) :
    ∃ t : Fin cfg2.N, (cfg2.win 3).flush t = true ∧ i ∈ ((cfg2.win 3).blk t).view.set := by
  have hN : cfg2.N = 9775 := N_2
  have hi0 : (i 0).val < 1601536 := idx2_lt0 i
  have ht : 25 * ((i 0).val / 4096) + 24 < cfg2.N := by omega
  refine ⟨⟨25 * ((i 0).val / 4096) + 24, ht⟩, (flush2_3 _).mpr ?_, r2_mem_of _ i ?_⟩
  · show (25 * ((i 0).val / 4096) + 24) % 25 = 24
    omega
  · show (25 * ((i 0).val / 4096) + 24) / 25 = (i 0).val / 4096
    omega

theorem region2_out (c : Dev nD) :
    ((dat2 (F := Ideal) V c).arrAt 3 cfg2.N : Cert.Spec.SEdge.Idx → EReal)
      = Cert.Spec.gatherStep (V c (Pipeline.arrRef spec2 0) : Cert.Spec.SRow.Idx → BitVec 32)
          (V c (Pipeline.arrRef spec2 1) : Cert.Spec.SEnt.Idx → EReal) (V c (Pipeline.arrRef spec2 2) : Cert.Spec.SEdge.Idx → EReal) :=
  (dat2 V c).arrAt_eq_of_cover 3 (Cert.Spec.gatherStep (r2_tailArr V c) (r2_embArr V c) (r2_relArr V c))
    (fun t hf => r2_flushed_eq V c t hf) (fun i => r2_cover i)

end Cert.KernelIdeal.Hand

end
-- ==== Proof.KI.R3Pay.lean ====
import proofs.«428098_j75917841924563_1_alg».proof.Proof.KI.R3Dat
import proofs.«428098_j75917841924563_1_alg».proof.Proof.KI.R1Pay
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Body

variable (c : Dev nD) (i : grid3.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

theorem sout3_A_0_eq (hc0 : cond3_0 i) (hc1 : ¬cond3_1 i) (x0 : Vec F S1x4096 .i32) (x1 : Vec F S4096x128 .bf16) (x2 : Vec F S2048x1 .f32) :
    sout3_A_0 c i arg2 harg2 arg3 harg3 arg4 harg4 arg5 harg5 arg6 harg6 hc0 hc1 x0 x1 x2 = k1_pay2 i x0 x1 (k1_pay1 (F := F)) := by
  unfold sout3_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) r1_hz]
  simp only [View.readAt_eq_ld, harg2.read_unread, harg3.read_unread, View.ld_unit_zero (S := S1x4096) r1_hz,
    View.ld_unit_zero (S := S4096x128) r1_hz, View.readCov_unit_zero (S := S2048x128) _ r1_hz]

theorem sout3_B_0_eq (hc0 : ¬cond3_0 i) (hc1 : ¬cond3_1 i) (x0 : Vec F S1x4096 .i32) (x1 : Vec F S4096x128 .bf16) (x2 : Vec F S2048x1 .f32) (xs0 : Vec F S2048x128 .f32) :
    sout3_B_0 c i arg2 harg2 arg3 harg3 arg4 harg4 arg5 harg5 arg6 harg6 hc0 hc1 x0 x1 x2 xs0 = k1_pay2 i x0 x1 xs0 := by
  unfold sout3_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem sout3_C_0_eq (hc0 : ¬cond3_0 i) (hc1 : cond3_1 i) (x0 : Vec F S1x4096 .i32) (x1 : Vec F S4096x128 .bf16) (x2 : Vec F S2048x1 .f32) (xs0 : Vec F S2048x128 .f32) :
    sout3_C_0 c i arg2 harg2 arg3 harg3 arg4 harg4 arg5 harg5 arg6 harg6 hc0 hc1 x0 x1 x2 xs0 = k1_pay2 i x0 x1 xs0 := by
  unfold sout3_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem out3_C_3_eq (hc0 : ¬cond3_0 i) (hc1 : cond3_1 i) (x0 : Vec F S1x4096 .i32) (x1 : Vec F S4096x128 .bf16) (x2 : Vec F S2048x1 .f32) (xs0 : Vec F S2048x128 .f32) :
    out3_C_3 c i arg2 harg2 arg3 harg3 arg4 harg4 arg5 harg5 arg6 harg6 hc0 hc1 x0 x1 x2 xs0 = k1_pay3 (k1_pay2 i x0 x1 xs0) x2 := by
  unfold out3_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg4.read_unread, harg6.read_unread, View.ld_unit_zero (S := S1x4096) r1_hz,
    View.ld_unit_zero (S := S4096x128) r1_hz, View.ld_unit_zero (S := S2048x1) r1_hz, View.ld_unit_zero (S := S2048x128) r1_hz,
    View.readCov_unit_zero (S := S2048x128) _ r1_hz]

end Body

end Cert.KernelIdeal.Hand

end
-- ==== Proof.KI.R3Val.Idx.lean ====
import proofs.«428098_j75917841924563_1_alg».proof.Proof.Gen.KernelIdeal.Points
import proofs.«428098_j75917841924563_1_alg».proof.Proof.KI.R1Val.Idx
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r3_idx : ∀ t : Fin cfg3.N,
    (win3_0.index t (0 : Fin 2) = 0 ∧ win3_0.index t (1 : Fin 2) = t.val % 391)
    ∧ (win3_1.index t (0 : Fin 2) = t.val % 391 ∧ win3_1.index t (1 : Fin 2) = 0)
    ∧ (win3_2.index t (0 : Fin 2) = t.val / 391 ∧ win3_2.index t (1 : Fin 2) = 0)
    ∧ (win3_3.index t (0 : Fin 2) = t.val / 391 ∧ win3_3.index t (1 : Fin 2) = 0)
    ∧ ((grid3.coords t) 0).val = t.val / 391 :=
  (by decide +kernel : ∀ t : Fin grid3.N,
    (win3_0.index t (0 : Fin 2) = 0 ∧ win3_0.index t (1 : Fin 2) = t.val % 391)
    ∧ (win3_1.index t (0 : Fin 2) = t.val % 391 ∧ win3_1.index t (1 : Fin 2) = 0)
    ∧ (win3_2.index t (0 : Fin 2) = t.val / 391 ∧ win3_2.index t (1 : Fin 2) = 0)
    ∧ (win3_3.index t (0 : Fin 2) = t.val / 391 ∧ win3_3.index t (1 : Fin 2) = 0)
    ∧ ((grid3.coords t) 0).val = t.val / 391)

end Cert.KernelIdeal.Hand

end
-- ==== Proof.KI.R3Val.lean ====
import proofs.«428098_j75917841924563_1_alg».proof.Proof.KI.R3Pay
import proofs.«428098_j75917841924563_1_alg».proof.Proof.KI.R1Val
import proofs.«428098_j75917841924563_1_alg».proof.Proof.KI.R3Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r3_harr (c : Dev nD) : Vec Ideal S1x1601536 .i32 := V c (Pipeline.arrRef spec3 0)

abbrev r3_marr (c : Dev nD) : Vec Ideal S1601536x128 .bf16 := V c (Pipeline.arrRef spec3 1)

abbrev r3_darr (c : Dev nD) : Vec Ideal S51200x1 .f32 := V c (Pipeline.arrRef spec3 2)

abbrev r3_hblk (c : Dev nD) (t : Fin cfg3.N) : Vec Ideal S1x4096 .i32 := iblk3 V c 0 t

abbrev r3_mblk (c : Dev nD) (t : Fin cfg3.N) : Vec Ideal S4096x128 .bf16 := iblk3 V c 1 t

abbrev r3_dblk (c : Dev nD) (t : Fin cfg3.N) : Vec Ideal S2048x1 .f32 := iblk3 V c 2 t

def r3_hw (c : Dev nD) (e : ℕ) : BitVec 32 :=
  if h : e < 1601536 then r3_harr V c (ix2 (0 : Fin 1) (⟨e, h⟩ : Fin 1601536)) else 0#32

def r3_mg (c : Dev nD) (e : ℕ) (q : Fin 128) : EReal :=
  if h : e < 1601536 then r3_marr V c (ix2 (⟨e, h⟩ : Fin 1601536) q) else 0

def r3_term (c : Dev nD) (n : ℕ) (q : Fin 128) (e : ℕ) : EReal :=
  Cert.Spec.hot n (r3_hw V c e) * r3_mg V c e q

theorem r3_hblk_apply (c : Dev nD) (t : Fin cfg3.N) (r : Fin 4096) :
    r3_hblk V c t (ix2 (0 : Fin 1) r) = r3_hw V c (4096 * (t.val % 391) + r.val) := by
  have hlt : 4096 * (t.val % 391) + r.val < 1601536 := by
    have := r.isLt; have := Nat.mod_lt t.val (show 0 < 391 by decide); omega
  obtain ⟨⟨e0, e1⟩, -⟩ := r3_idx t
  unfold r3_hw
  rw [dif_pos hlt]
  show ((cfg3.win 0).blk t).view.read (Elt Ideal) (V c (Pipeline.arrRef spec3 0)) (ix2 (0 : Fin 1) r) = _
  rw [View.read_apply]
  show V c (Pipeline.arrRef spec3 0) _ = V c (Pipeline.arrRef spec3 0) _
  congr 1
  funext a; apply Fin.ext
  match a with
  | ⟨0, _⟩ => show win3_0.index t 0 * 1 + 1 * 0 = 0; rw [e0]
  | ⟨1, _⟩ => show win3_0.index t 1 * 4096 + 1 * r.val = 4096 * (t.val % 391) + r.val; rw [e1]; omega

theorem r3_mblk_apply (c : Dev nD) (t : Fin cfg3.N) (r : Fin 4096) (q : Fin 128) :
    r3_mblk V c t (ix2 r q) = r3_mg V c (4096 * (t.val % 391) + r.val) q := by
  have hlt : 4096 * (t.val % 391) + r.val < 1601536 := by
    have := r.isLt; have := Nat.mod_lt t.val (show 0 < 391 by decide); omega
  obtain ⟨-, ⟨e0, e1⟩, -⟩ := r3_idx t
  unfold r3_mg
  rw [dif_pos hlt]
  show ((cfg3.win 1).blk t).view.read (Elt Ideal) (V c (Pipeline.arrRef spec3 1)) (ix2 r q) = _
  rw [View.read_apply]
  show V c (Pipeline.arrRef spec3 1) _ = V c (Pipeline.arrRef spec3 1) _
  congr 1
  funext a; apply Fin.ext
  match a with
  | ⟨0, _⟩ => show win3_1.index t 0 * 4096 + 1 * r.val = 4096 * (t.val % 391) + r.val; rw [e0]; omega
  | ⟨1, _⟩ => show win3_1.index t 1 * 128 + 1 * q.val = q.val; rw [e1]; omega

theorem r3_dblk_apply (c : Dev nD) (t : Fin cfg3.N) (p : Fin 2048) (n : Fin 51200) (hn : n.val = 2048 * (t.val / 391) + p.val) :
    r3_dblk V c t (ix2 p (0 : Fin 1)) = r3_darr V c (ix2 n (0 : Fin 1)) := by
  obtain ⟨-, -, ⟨e0, e1⟩, -⟩ := r3_idx t
  show ((cfg3.win 2).blk t).view.read (Elt Ideal) (V c (Pipeline.arrRef spec3 2)) (ix2 p (0 : Fin 1)) = _
  rw [View.read_apply]
  show V c (Pipeline.arrRef spec3 2) _ = V c (Pipeline.arrRef spec3 2) _
  congr 1
  funext a; apply Fin.ext
  match a with
  | ⟨0, _⟩ => show win3_2.index t 0 * 2048 + 1 * p.val = n.val; rw [e0, hn]; omega
  | ⟨1, _⟩ => show win3_2.index t 1 * 1 + 1 * 0 = 0; rw [e1]

theorem r3_tile_sum (c : Dev nD) (t : Fin cfg3.N) (p : Fin 2048) (q : Fin 128) :
    ∑ r : Fin 4096, Cert.Spec.hot (2048 * ((grid3.coords t) 0).val + p.val) (r3_hblk V c t (ix2 (0 : Fin 1) r)) * r3_mblk V c t (ix2 r q)
      = ∑ r : Fin 4096, r3_term V c (2048 * (t.val / 391) + p.val) q (4096 * (t.val % 391) + r.val) := by
  obtain ⟨-, -, -, -, ej⟩ := r3_idx t
  refine Finset.sum_congr rfl fun r _ => ?_
  rw [r3_hblk_apply V c t r, r3_mblk_apply V c t r q, ej]
  rfl

theorem r3_step (c : Dev nD) (t : Fin cfg3.N) (p : Fin 2048) (q : Fin 128) :
    (outsAt3 V c t.val t.isLt).2 (ix2 p q)
      = (if t.val % 391 = 0 then (0 : EReal) else (outsAt3 V c (t.val - 1) (Nat.lt_of_le_of_lt (Nat.sub_le _ _) t.isLt)).2 (ix2 p q))
        + ∑ r : Fin 4096, r3_term V c (2048 * (t.val / 391) + p.val) q (4096 * (t.val % 391) + r.val) := by
  rw [← r3_tile_sum V c t p q]
  by_cases h0 : t.val % 391 = 0
  · have h1 : ¬t.val % 391 = 390 := by omega
    rw [if_pos h0, outsAt3_A V c t h0 h1]
    dsimp only
    refine (congrFun (sout3_A_0_eq (F := Ideal) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (r3_hblk V c t) (r3_mblk V c t) (r3_dblk V c t)) (ix2 p q)).trans ?_
    refine (k1_pay2_apply (grid3.coords t) (r3_hblk V c t) (r3_mblk V c t) (k1_pay1 (F := Ideal)) p q).trans ?_
    rw [k1_pay1_apply]
  · rw [if_neg h0]
    by_cases h1 : t.val % 391 = 390
    · rw [outsAt3_C V c t h0 h1]
      dsimp only
      refine (congrFun (sout3_C_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (r3_hblk V c t) (r3_mblk V c t) (r3_dblk V c t) (outsAt3 V c (t.val - 1) (Nat.lt_of_le_of_lt (Nat.sub_le _ _) t.isLt)).2) (ix2 p q)).trans ?_
      exact k1_pay2_apply (grid3.coords t) (r3_hblk V c t) (r3_mblk V c t) (outsAt3 V c (t.val - 1) (Nat.lt_of_le_of_lt (Nat.sub_le _ _) t.isLt)).2 p q
    · rw [outsAt3_B V c t h0 h1]
      dsimp only
      refine (congrFun (sout3_B_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (r3_hblk V c t) (r3_mblk V c t) (r3_dblk V c t) (outsAt3 V c (t.val - 1) (Nat.lt_of_le_of_lt (Nat.sub_le _ _) t.isLt)).2) (ix2 p q)).trans ?_
      exact k1_pay2_apply (grid3.coords t) (r3_hblk V c t) (r3_mblk V c t) (outsAt3 V c (t.val - 1) (Nat.lt_of_le_of_lt (Nat.sub_le _ _) t.isLt)).2 p q

theorem r3_acc_apply (c : Dev nD) : ∀ (n : ℕ) (hn : n < cfg3.N) (p : Fin 2048) (q : Fin 128),
    (outsAt3 V c n hn).2 (ix2 p q)
      = ∑ e ∈ Finset.range (4096 * (n % 391 + 1)), r3_term V c (2048 * (n / 391) + p.val) q e := by
  intro n
  induction n with
  | zero =>
    intro hn p q
    refine (r3_step V c ⟨0, hn⟩ p q).trans ?_
    show (if 0 % 391 = 0 then (0 : EReal) else _) + _ = _
    rw [if_pos (Nat.zero_mod 391), ← r1_sum_tile (r3_term V c (2048 * (0 / 391) + p.val) q) (0 % 391)]
    congr 1
  | succ n ih =>
    intro hn p q
    refine (r3_step V c ⟨n + 1, hn⟩ p q).trans ?_
    show (if (n + 1) % 391 = 0 then (0 : EReal) else (outsAt3 V c n _).2 (ix2 p q)) + _ = _
    rw [← r1_sum_tile (r3_term V c (2048 * ((n + 1) / 391) + p.val) q) ((n + 1) % 391)]
    congr 1
    by_cases h0 : (n + 1) % 391 = 0
    · rw [if_pos h0, h0, Nat.mul_zero, Finset.range_zero, Finset.sum_empty]
    · rw [if_neg h0, ih (Nat.lt_of_succ_lt hn) p q]
      have e1 : (n + 1) / 391 = n / 391 := by omega
      have e2 : (n + 1) % 391 = n % 391 + 1 := by omega
      rw [e1, e2]

theorem r3_sum_all (c : Dev nD) (n : ℕ) (q : Fin 128) :
    ∑ e ∈ Finset.range 1601536, r3_term V c n q e
      = ∑ e : Fin 1601536, Cert.Spec.hot n (r3_harr V c (ix2 (0 : Fin 1) e)) * r3_marr V c (ix2 e q) := by
  rw [r1_sum_range_fin]
  refine Finset.sum_congr rfl fun e _ => ?_
  unfold r3_term r3_hw r3_mg
  rw [dif_pos e.isLt, dif_pos e.isLt]

theorem r3_acc_full (c : Dev nD) (t : Fin cfg3.N) (h0 : ¬t.val % 391 = 0) (h1 : t.val % 391 = 390) (p : Fin 2048) (q : Fin 128) :
    k1_pay2 (grid3.coords t) (r3_hblk V c t) (r3_mblk V c t) (outsAt3 V c (t.val - 1) (Nat.lt_of_le_of_lt (Nat.sub_le _ _) t.isLt)).2 (ix2 p q)
      = ∑ e : Fin 1601536, Cert.Spec.hot (2048 * (t.val / 391) + p.val) (r3_harr V c (ix2 (0 : Fin 1) e)) * r3_marr V c (ix2 e q) := by
  rw [← r3_sum_all V c (2048 * (t.val / 391) + p.val) q]
  have hacc := r3_acc_apply V c t.val t.isLt p q
  rw [h1] at hacc
  refine Eq.trans ?_ hacc
  rw [outsAt3_C V c t h0 h1]
  dsimp only
  exact (congrFun (sout3_C_0_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (r3_hblk V c t) (r3_mblk V c t) (r3_dblk V c t) (outsAt3 V c (t.val - 1) (Nat.lt_of_le_of_lt (Nat.sub_le _ _) t.isLt)).2) (ix2 p q)).symm

theorem r3_out_apply (c : Dev nD) (t : Fin cfg3.N) (h0 : ¬t.val % 391 = 0) (h1 : t.val % 391 = 390) (p : Fin 2048) (q : Fin 128)
    (n : Fin 51200) (hn : n.val = 2048 * (t.val / 391) + p.val) :
    out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2 (ix2 p q)
      = Cert.Spec.scatterAt (r3_harr V c) (r3_marr V c) (r3_darr V c) n q := by
  refine (congrFun (out3_C_3_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (r3_hblk V c t) (r3_mblk V c t) (r3_dblk V c t) (outsAt3 V c (t.val - 1) (Nat.lt_of_le_of_lt (Nat.sub_le _ _) t.isLt)).2) (ix2 p q)).trans ?_
  refine (k1_pay3_apply (k1_pay2 (grid3.coords t) (r3_hblk V c t) (r3_mblk V c t) (outsAt3 V c (t.val - 1) (Nat.lt_of_le_of_lt (Nat.sub_le _ _) t.isLt)).2) (r3_dblk V c t) p q).trans ?_
  have ha : ∀ q' : Fin 128, k1_pay2 (grid3.coords t) (r3_hblk V c t) (r3_mblk V c t) (outsAt3 V c (t.val - 1) (Nat.lt_of_le_of_lt (Nat.sub_le _ _) t.isLt)).2 (ix2 p q')
      = ∑ e : Fin 1601536, Cert.Spec.hot n.val (r3_harr V c (ix2 (0 : Fin 1) e)) * r3_marr V c (ix2 e q') :=
    fun q' => by rw [hn]; exact r3_acc_full V c t h0 h1 p q'
  have hd := r3_dblk_apply V c t p n hn
  unfold Cert.Spec.scatterAt Cert.Spec.aggAt
  rw [hd]
  simp only [ha]

theorem r3_flushed_eq (c : Dev nD) (t : Fin cfg3.N) (hf : (cfg3.win 3).flush t = true) :
    (dat3 (F := Ideal) V c).flushed 3 t
      = ((cfg3.win 3).blk t).view.read (Elt Ideal) (Cert.Spec.scatterStep (r3_harr V c) (r3_marr V c) (r3_darr V c)) := by
  have h1 : t.val % 391 = 390 := (flush3_3 t).mp hf
  have h0 : ¬t.val % 391 = 0 := by omega
  have hN : cfg3.N = 9775 := N_3
  obtain ⟨-, -, -, ⟨e0, e1⟩, -⟩ := r3_idx t
  show (cfg3.win 3).cut (grid3.coords t) ((dat3 (F := Ideal) V c).after 3 t) = _
  rw [after3_3, outsAt3_C V c t h0 h1]
  dsimp only
  funext j
  obtain ⟨p, q, rfl⟩ : ∃ (p : Fin 2048) (q : Fin 128), j = ix2 p q := ⟨j 0, j 1, eq_ix2 j⟩
  have hlt : 2048 * (t.val / 391) + p.val < 51200 := by have := p.isLt; have := t.isLt; omega
  refine (r3_out_apply V c t h0 h1 p q ⟨2048 * (t.val / 391) + p.val, hlt⟩ rfl).trans ?_
  show _ = Cert.Spec.scatterStep (r3_harr V c) (r3_marr V c) (r3_darr V c) (((cfg3.win 3).blk t).view.emb (ix2 p q))
  unfold Cert.Spec.scatterStep
  dsimp only
  congr 1
  · apply Fin.ext
    show 2048 * (t.val / 391) + p.val = win3_3.index t 0 * 2048 + 1 * p.val
    rw [e0]; omega
  · apply Fin.ext
    show q.val = win3_3.index t 1 * 128 + 1 * q.val
    rw [e1]; omega

theorem r3_mem_blk (t : Fin cfg3.N) (i : S51200x128.Idx) :
    i ∈ ((cfg3.win 3).blk t).view.set
      ↔ ∀ a : Fin 2, win3_3.index t a * S2048x128.size a ≤ (i a).val ∧ (i a).val < win3_3.index t a * S2048x128.size a + S2048x128.size a := by
  show i ∈ ((View.whole (Pipeline.arrRef spec3 3)).slice (win3_3.rect t)).set ↔ _
  rw [View.set_slice_whole, Rect.mem_set_unit]
  exact Iff.rfl

theorem r3_cover (i : S51200x128.Idx) :
    ∃ t : Fin cfg3.N, (cfg3.win 3).flush t = true ∧ i ∈ ((cfg3.win 3).blk t).view.set := by
  have hi0 : (i 0).val < 51200 := (i 0).isLt
  have hi1 : (i 1).val < 128 := (i 1).isLt
  have hN : cfg3.N = 9775 := N_3
  have ht : 391 * ((i 0).val / 2048) + 390 < cfg3.N := by omega
  obtain ⟨-, -, -, ⟨e0, e1⟩, -⟩ := r3_idx ⟨391 * ((i 0).val / 2048) + 390, ht⟩
  have hv : (⟨391 * ((i 0).val / 2048) + 390, ht⟩ : Fin cfg3.N).val = 391 * ((i 0).val / 2048) + 390 := rfl
  rw [hv] at e0
  refine ⟨⟨391 * ((i 0).val / 2048) + 390, ht⟩, (flush3_3 _).mpr (by rw [hv]; omega), ?_⟩
  rw [r3_mem_blk]
  intro a
  match a with
  | ⟨0, _⟩ =>
    show win3_3.index ⟨391 * ((i 0).val / 2048) + 390, ht⟩ 0 * 2048 ≤ (i 0).val ∧ (i 0).val < win3_3.index ⟨391 * ((i 0).val / 2048) + 390, ht⟩ 0 * 2048 + 2048
    rw [e0]; omega
  | ⟨1, _⟩ =>
    show win3_3.index ⟨391 * ((i 0).val / 2048) + 390, ht⟩ 1 * 128 ≤ (i 1).val ∧ (i 1).val < win3_3.index ⟨391 * ((i 0).val / 2048) + 390, ht⟩ 1 * 128 + 128
    rw [e1]; omega

theorem region3_out (c : Dev nD) :
    ((dat3 (F := Ideal) V c).arrAt 3 cfg3.N : Cert.Spec.SEnt.Idx → EReal)
      = Cert.Spec.scatterStep (V c (Pipeline.arrRef spec3 0) : Cert.Spec.SRow.Idx → BitVec 32)
          (V c (Pipeline.arrRef spec3 1) : Cert.Spec.SEdge.Idx → EReal) (V c (Pipeline.arrRef spec3 2) : Cert.Spec.SDen.Idx → EReal) :=
  (dat3 (F := Ideal) V c).arrAt_eq_of_cover 3 (Cert.Spec.scatterStep (r3_harr V c) (r3_marr V c) (r3_darr V c))
    (r3_flushed_eq V c) r3_cover

end Cert.KernelIdeal.Hand

end
-- ==== Proof.KI.R4Pay.lean ====
import proofs.«428098_j75917841924563_1_alg».proof.Proof.KI.R4Dat
import proofs.«428098_j75917841924563_1_alg».proof.Proof.KI.R0Pay
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Body

variable (c : Dev nD) (i : grid4.Coords) (arg2 : Memref sig .tc .vmem S1x4096 .i32) (harg2 : arg2.IsWhole) (arg3 : Memref sig .tc .vmem S2048x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S4096x128 .f32) (harg6 : arg6.IsWhole)

theorem sout4_A_0_eq (hc0 : cond4_0 i) (hc1 : ¬cond4_1 i) (x0 : Vec F S1x4096 .i32) (x1 : Vec F S2048x128 .bf16) (x2 : Vec F S4096x128 .bf16) :
    sout4_A_0 c i arg2 harg2 arg3 harg3 arg4 harg4 arg5 harg5 arg6 harg6 hc0 hc1 x0 x1 x2 = k0_pay2 i x0 x1 (k0_pay1 (F := F)) := by
  unfold sout4_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4096x128) r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout4_B_0_eq (hc0 : ¬cond4_0 i) (hc1 : ¬cond4_1 i) (x0 : Vec F S1x4096 .i32) (x1 : Vec F S2048x128 .bf16) (x2 : Vec F S4096x128 .bf16) (xs0 : Vec F S4096x128 .f32) :
    sout4_B_0 c i arg2 harg2 arg3 harg3 arg4 harg4 arg5 harg5 arg6 harg6 hc0 hc1 x0 x1 x2 xs0 = k0_pay2 i x0 x1 xs0 := by
  unfold sout4_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem sout4_C_0_eq (hc0 : ¬cond4_0 i) (hc1 : cond4_1 i) (x0 : Vec F S1x4096 .i32) (x1 : Vec F S2048x128 .bf16) (x2 : Vec F S4096x128 .bf16) (xs0 : Vec F S4096x128 .f32) :
    sout4_C_0 c i arg2 harg2 arg3 harg3 arg4 harg4 arg5 harg5 arg6 harg6 hc0 hc1 x0 x1 x2 xs0 = k0_pay2 i x0 x1 xs0 := by
  unfold sout4_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

theorem out4_C_3_eq (hc0 : ¬cond4_0 i) (hc1 : cond4_1 i) (x0 : Vec F S1x4096 .i32) (x1 : Vec F S2048x128 .bf16) (x2 : Vec F S4096x128 .bf16) (xs0 : Vec F S4096x128 .f32) :
    out4_C_3 c i arg2 harg2 arg3 harg3 arg4 harg4 arg5 harg5 arg6 harg6 hc0 hc1 x0 x1 x2 xs0 = k0_pay3 (k0_pay2 i x0 x1 xs0) x2 := by
  unfold out4_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero r0_hz, View.readCov_unit_zero (S := S4096x128) _ r0_hz]
  simp only [View.readAt_eq_ld, harg2.read_unread, harg3.read_unread, harg4.read_unread, harg6.read_unread, View.ld_unit_zero (S := S1x4096) r0_hz, View.ld_unit_zero (S := S2048x128) r0_hz, View.ld_unit_zero (S := S4096x128) r0_hz]

end Body

end Cert.KernelIdeal.Hand

end
-- ==== Proof.KI.R4Val.Idx.lean ====
import proofs.«428098_j75917841924563_1_alg».proof.Proof.Gen.KernelIdeal.Points
import proofs.«428098_j75917841924563_1_alg».proof.Proof.KI.R0Val.Idx
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r4_idx_tail : ∀ t : Fin cfg4.N, win4_0.index t (0 : Fin 2) = 0 ∧ win4_0.index t (1 : Fin 2) = t.val / 25 :=
  (by decide +kernel : ∀ t : Fin grid4.N, win4_0.index t (0 : Fin 2) = 0 ∧ win4_0.index t (1 : Fin 2) = t.val / 25)

theorem r4_idx_ent : ∀ t : Fin cfg4.N, win4_1.index t (0 : Fin 2) = t.val % 25 ∧ win4_1.index t (1 : Fin 2) = 0 :=
  (by decide +kernel : ∀ t : Fin grid4.N, win4_1.index t (0 : Fin 2) = t.val % 25 ∧ win4_1.index t (1 : Fin 2) = 0)

theorem r4_idx_rel : ∀ t : Fin cfg4.N, win4_2.index t (0 : Fin 2) = t.val / 25 ∧ win4_2.index t (1 : Fin 2) = 0 :=
  (by decide +kernel : ∀ t : Fin grid4.N, win4_2.index t (0 : Fin 2) = t.val / 25 ∧ win4_2.index t (1 : Fin 2) = 0)

theorem r4_idx_msg : ∀ t : Fin cfg4.N, win4_3.index t (0 : Fin 2) = t.val / 25 ∧ win4_3.index t (1 : Fin 2) = 0 :=
  (by decide +kernel : ∀ t : Fin grid4.N, win4_3.index t (0 : Fin 2) = t.val / 25 ∧ win4_3.index t (1 : Fin 2) = 0)

theorem r4_coord_k : ∀ t : Fin cfg4.N, ((grid4.coords t) 1).val = t.val % 25 :=
  (by decide +kernel : ∀ t : Fin grid4.N, ((grid4.coords t) 1).val = t.val % 25)

end Cert.KernelIdeal.Hand

end
-- ==== Proof.KI.R4Val.Inv.lean ====
import proofs.«428098_j75917841924563_1_alg».proof.Proof.KI.R4Pay
import proofs.«428098_j75917841924563_1_alg».proof.Proof.KI.R0Val.Inv
import proofs.«428098_j75917841924563_1_alg».proof.Proof.KI.R4Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r4_tailArr (c : Dev nD) : Vec Ideal S1x1601536 .i32 := V c (Pipeline.arrRef spec4 0)

abbrev r4_embArr (c : Dev nD) : Vec Ideal S51200x128 .bf16 := V c (Pipeline.arrRef spec4 1)

abbrev r4_relArr (c : Dev nD) : Vec Ideal S1601536x128 .bf16 := V c (Pipeline.arrRef spec4 2)

abbrev r4_tailBlk (c : Dev nD) (t : Fin cfg4.N) : Vec Ideal S1x4096 .i32 := iblk4 V c 0 t

abbrev r4_embBlk (c : Dev nD) (t : Fin cfg4.N) : Vec Ideal S2048x128 .bf16 := iblk4 V c 1 t

abbrev r4_relBlk (c : Dev nD) (t : Fin cfg4.N) : Vec Ideal S4096x128 .bf16 := iblk4 V c 2 t

def r4_tailAt (c : Dev nD) (j : ℕ) : BitVec 32 :=
  if h : j < 1601536 then r4_tailArr V c (ix2 (0 : Fin 1) (⟨j, h⟩ : Fin 1601536)) else 0#32

def r4_embAt (c : Dev nD) (n : ℕ) (q : Fin 128) : EReal :=
  if h : n < 51200 then r4_embArr V c (ix2 (⟨n, h⟩ : Fin 51200) q) else 0

theorem r4_tailBlk_apply (c : Dev nD) (t : Fin cfg4.N) (p : Fin 4096) :
    r4_tailBlk V c t (ix2 (0 : Fin 1) p) = r4_tailAt V c (4096 * (t.val / 25) + p.val) := by
  have hN : cfg4.N = 9775 := N_4
  have ht := t.isLt
  have hp := p.isLt
  have hb : 4096 * (t.val / 25) + p.val < 1601536 := by omega
  obtain ⟨e0, e1⟩ := r4_idx_tail t
  unfold r4_tailAt
  rw [dif_pos hb]
  show V c (Pipeline.arrRef spec4 0) (((cfg4.win 0).blk t).view.emb (ix2 (0 : Fin 1) p))
    = V c (Pipeline.arrRef spec4 0) (ix2 (0 : Fin 1) (⟨4096 * (t.val / 25) + p.val, hb⟩ : Fin 1601536))
  congr 1
  funext a
  apply Fin.ext
  match a with
  | ⟨0, _⟩ => show win4_0.index t (0 : Fin 2) * 1 + 1 * 0 = 0; omega
  | ⟨1, _⟩ => show win4_0.index t (1 : Fin 2) * 4096 + 1 * p.val = 4096 * (t.val / 25) + p.val; omega

theorem r4_embBlk_apply (c : Dev nD) (t : Fin cfg4.N) (r : Fin 2048) (q : Fin 128) :
    r4_embBlk V c t (ix2 r q) = r4_embAt V c (2048 * (t.val % 25) + r.val) q := by
  have hr := r.isLt
  have hb : 2048 * (t.val % 25) + r.val < 51200 := by omega
  obtain ⟨e0, e1⟩ := r4_idx_ent t
  unfold r4_embAt
  rw [dif_pos hb]
  show V c (Pipeline.arrRef spec4 1) (((cfg4.win 1).blk t).view.emb (ix2 r q))
    = V c (Pipeline.arrRef spec4 1) (ix2 (⟨2048 * (t.val % 25) + r.val, hb⟩ : Fin 51200) q)
  congr 1
  funext a
  apply Fin.ext
  match a with
  | ⟨0, _⟩ => show win4_1.index t (0 : Fin 2) * 2048 + 1 * r.val = 2048 * (t.val % 25) + r.val; omega
  | ⟨1, _⟩ => show win4_1.index t (1 : Fin 2) * 128 + 1 * q.val = q.val; omega

theorem r4_relBlk_apply (c : Dev nD) (t : Fin cfg4.N) (p : Fin 4096) (q : Fin 128) (e : Fin 1601536)
    (he : e.val = 4096 * (t.val / 25) + p.val) :
    r4_relBlk V c t (ix2 p q) = r4_relArr V c (ix2 e q) := by
  obtain ⟨e0, e1⟩ := r4_idx_rel t
  show V c (Pipeline.arrRef spec4 2) (((cfg4.win 2).blk t).view.emb (ix2 p q)) = V c (Pipeline.arrRef spec4 2) (ix2 e q)
  congr 1
  funext a
  apply Fin.ext
  match a with
  | ⟨0, _⟩ => show win4_2.index t (0 : Fin 2) * 4096 + 1 * p.val = e.val; omega
  | ⟨1, _⟩ => show win4_2.index t (1 : Fin 2) * 128 + 1 * q.val = q.val; omega

theorem r4_acc_first (c : Dev nD) (t : Fin cfg4.N) (h0 : t.val % 25 = 0) :
    (outsAt4 V c t.val t.isLt).2 = k0_pay2 (grid4.coords t) (r4_tailBlk V c t) (r4_embBlk V c t) (k0_pay1 (F := Ideal)) := by
  have h1 : ¬t.val % 25 = 24 := by omega
  rw [outsAt4_A V c t h0 h1]
  dsimp only
  exact sout4_A_0_eq (F := Ideal) c (grid4.coords t) (ms4_0 t) (hs4_0 t) (ms4_1 t) (hs4_1 t) (ms4_2 t) (hs4_2 t) (ms4_3 t) (hs4_3 t)
    scM4_0 (Memref.isWhole_whole _) ((hcond4_0 t).mpr h0) (fun h => h1 ((hcond4_1 t).mp h)) (iblk4 V c 0 t) (iblk4 V c 1 t) (iblk4 V c 2 t)

theorem r4_acc_next (c : Dev nD) (t : Fin cfg4.N) (h0 : ¬t.val % 25 = 0) :
    (outsAt4 V c t.val t.isLt).2 = k0_pay2 (grid4.coords t) (r4_tailBlk V c t) (r4_embBlk V c t)
      (outsAt4 V c (t.val - 1) (Nat.lt_of_le_of_lt (Nat.sub_le _ _) t.isLt)).2 := by
  by_cases h1 : t.val % 25 = 24
  · rw [outsAt4_C V c t h0 h1]
    dsimp only
    exact sout4_C_0_eq (F := Ideal) c (grid4.coords t) (ms4_0 t) (hs4_0 t) (ms4_1 t) (hs4_1 t) (ms4_2 t) (hs4_2 t) (ms4_3 t) (hs4_3 t)
      scM4_0 (Memref.isWhole_whole _) (fun h => h0 ((hcond4_0 t).mp h)) ((hcond4_1 t).mpr h1) (iblk4 V c 0 t) (iblk4 V c 1 t) (iblk4 V c 2 t)
      (outsAt4 V c (t.val - 1) (Nat.lt_of_le_of_lt (Nat.sub_le _ _) t.isLt)).2
  · rw [outsAt4_B V c t h0 h1]
    dsimp only
    exact sout4_B_0_eq (F := Ideal) c (grid4.coords t) (ms4_0 t) (hs4_0 t) (ms4_1 t) (hs4_1 t) (ms4_2 t) (hs4_2 t) (ms4_3 t) (hs4_3 t)
      scM4_0 (Memref.isWhole_whole _) (fun h => h0 ((hcond4_0 t).mp h)) (fun h => h1 ((hcond4_1 t).mp h)) (iblk4 V c 0 t) (iblk4 V c 1 t) (iblk4 V c 2 t)
      (outsAt4 V c (t.val - 1) (Nat.lt_of_le_of_lt (Nat.sub_le _ _) t.isLt)).2

theorem r4_out_last (c : Dev nD) (t : Fin cfg4.N) (h1 : t.val % 25 = 24) :
    (outsAt4 V c t.val t.isLt).1 = k0_pay3 (outsAt4 V c t.val t.isLt).2 (r4_relBlk V c t) := by
  have h0 : ¬t.val % 25 = 0 := by omega
  rw [outsAt4_C V c t h0 h1]
  dsimp only
  rw [sout4_C_0_eq (F := Ideal) c (grid4.coords t) (ms4_0 t) (hs4_0 t) (ms4_1 t) (hs4_1 t) (ms4_2 t) (hs4_2 t) (ms4_3 t) (hs4_3 t)
      scM4_0 (Memref.isWhole_whole _) (fun h => h0 ((hcond4_0 t).mp h)) ((hcond4_1 t).mpr h1) (iblk4 V c 0 t) (iblk4 V c 1 t) (iblk4 V c 2 t)
      (outsAt4 V c (t.val - 1) (Nat.lt_of_le_of_lt (Nat.sub_le _ _) t.isLt)).2]
  exact out4_C_3_eq (F := Ideal) c (grid4.coords t) (ms4_0 t) (hs4_0 t) (ms4_1 t) (hs4_1 t) (ms4_2 t) (hs4_2 t) (ms4_3 t) (hs4_3 t)
      scM4_0 (Memref.isWhole_whole _) (fun h => h0 ((hcond4_0 t).mp h)) ((hcond4_1 t).mpr h1) (iblk4 V c 0 t) (iblk4 V c 1 t) (iblk4 V c 2 t)
      (outsAt4 V c (t.val - 1) (Nat.lt_of_le_of_lt (Nat.sub_le _ _) t.isLt)).2

def r4_rowSum (c : Dev nD) (j : ℕ) (K : ℕ) (q : Fin 128) : EReal :=
  ∑ m ∈ Finset.range K, Cert.Spec.hot m (r4_tailAt V c j) * r4_embAt V c m q

theorem r4_inv_first (c : Dev nD) (t : Fin cfg4.N) (h0 : t.val % 25 = 0) (p : Fin 4096) (q : Fin 128) :
    (outsAt4 V c t.val t.isLt).2 (ix2 p q) = r4_rowSum V c (4096 * (t.val / 25) + p.val) (2048 * (t.val % 25 + 1)) q := by
  refine (congrFun (r4_acc_first V c t h0) (ix2 p q)).trans ?_
  refine r0_pay_step (grid4.coords t) (r4_tailBlk V c t) (r4_embBlk V c t) (k0_pay1 (F := Ideal)) p q (t.val % 25)
    (r4_tailAt V c (4096 * (t.val / 25) + p.val)) (fun m => r4_embAt V c m q) (r4_coord_k t) (r4_tailBlk_apply V c t p)
    (fun r => r4_embBlk_apply V c t r q) ?_
  rw [k0_pay1_apply, h0, Nat.mul_zero, Finset.range_zero, Finset.sum_empty]

theorem r4_inv_next (c : Dev nD) (t : Fin cfg4.N) (h0 : ¬t.val % 25 = 0) (p : Fin 4096) (q : Fin 128)
    (ih : (outsAt4 V c (t.val - 1) (Nat.lt_of_le_of_lt (Nat.sub_le _ _) t.isLt)).2 (ix2 p q)
      = r4_rowSum V c (4096 * ((t.val - 1) / 25) + p.val) (2048 * ((t.val - 1) % 25 + 1)) q) :
    (outsAt4 V c t.val t.isLt).2 (ix2 p q) = r4_rowSum V c (4096 * (t.val / 25) + p.val) (2048 * (t.val % 25 + 1)) q := by
  have e1 : (t.val - 1) % 25 + 1 = t.val % 25 := by omega
  have e2 : (t.val - 1) / 25 = t.val / 25 := by omega
  rw [e1, e2] at ih
  refine (congrFun (r4_acc_next V c t h0) (ix2 p q)).trans ?_
  exact r0_pay_step (grid4.coords t) (r4_tailBlk V c t) (r4_embBlk V c t)
    (outsAt4 V c (t.val - 1) (Nat.lt_of_le_of_lt (Nat.sub_le _ _) t.isLt)).2 p q (t.val % 25)
    (r4_tailAt V c (4096 * (t.val / 25) + p.val)) (fun m => r4_embAt V c m q) (r4_coord_k t) (r4_tailBlk_apply V c t p)
    (fun r => r4_embBlk_apply V c t r q) ih

theorem r4_acc_inv (c : Dev nD) : ∀ (n : ℕ) (hn : n < cfg4.N) (p : Fin 4096) (q : Fin 128),
    (outsAt4 V c n hn).2 (ix2 p q) = r4_rowSum V c (4096 * (n / 25) + p.val) (2048 * (n % 25 + 1)) q
  | 0, hn, p, q => r4_inv_first V c ⟨0, hn⟩ (Nat.zero_mod 25) p q
  | n + 1, hn, p, q => by
    by_cases h0 : (n + 1) % 25 = 0
    · exact r4_inv_first V c ⟨n + 1, hn⟩ h0 p q
    · exact r4_inv_next V c ⟨n + 1, hn⟩ h0 p q (r4_acc_inv c n (Nat.lt_of_succ_lt hn) p q)

end Cert.KernelIdeal.Hand

end
-- ==== Proof.KI.R4Val.lean ====
import proofs.«428098_j75917841924563_1_alg».proof.Proof.KI.R4Val.Inv
import proofs.«428098_j75917841924563_1_alg».proof.Proof.KI.R0Val
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

theorem r4_rowSum_full (c : Dev nD) (j : ℕ) (e : Fin 1601536) (he : e.val = j) (q : Fin 128) :
    r4_rowSum V c j (2048 * (24 + 1)) q
      = ∑ n : Fin 51200, Cert.Spec.hot n.val (r4_tailArr V c (ix2 (0 : Fin 1) e)) * r4_embArr V c (ix2 n q) := by
  have hw : r4_tailAt V c j = r4_tailArr V c (ix2 (0 : Fin 1) e) := by
    subst he
    unfold r4_tailAt
    rw [dif_pos e.isLt]
  unfold r4_rowSum
  rw [hw, show 2048 * (24 + 1) = 51200 from rfl, Finset.sum_range]
  refine Finset.sum_congr rfl fun n _ => ?_
  unfold r4_embAt
  rw [dif_pos n.isLt]

theorem r4_tile_apply (c : Dev nD) (t : Fin cfg4.N) (h1 : t.val % 25 = 24) (p : Fin 4096) (q : Fin 128) (e : Fin 1601536)
    (he : e.val = 4096 * (t.val / 25) + p.val) :
    (outsAt4 V c t.val t.isLt).1 (ix2 p q) = Cert.Spec.gatherAt (r4_tailArr V c) (r4_embArr V c) (r4_relArr V c) e q := by
  rw [r4_out_last V c t h1]
  refine (r0_tile_elem (outsAt4 V c t.val t.isLt).2 (r4_relBlk V c t) p q
    (r4_rowSum V c (4096 * (t.val / 25) + p.val) (2048 * (t.val % 25 + 1)) q) (r4_relArr V c (ix2 e q))
    (r4_acc_inv V c t.val t.isLt p q) (r4_relBlk_apply V c t p q e he)).trans ?_
  rw [h1, r4_rowSum_full V c (4096 * (t.val / 25) + p.val) e he q]
  rfl

theorem r4_tile_at (c : Dev nD) (t : Fin cfg4.N) (h1 : t.val % 25 = 24) (j : S4096x128.Idx) (i : S1601536x128.Idx)
    (hi0 : (i 0).val = 4096 * (t.val / 25) + (j 0).val) (hi1 : (i 1).val = (j 1).val) :
    (outsAt4 V c t.val t.isLt).1 j = Cert.Spec.gatherStep (r4_tailArr V c) (r4_embArr V c) (r4_relArr V c) i := by
  obtain ⟨p, q, rfl⟩ : ∃ (p : Fin 4096) (q : Fin 128), j = ix2 p q := ⟨j 0, j 1, eq_ix2 j⟩
  have hq : i 1 = q := Fin.ext hi1
  show _ = Cert.Spec.gatherAt (r4_tailArr V c) (r4_embArr V c) (r4_relArr V c) (i 0) (i 1)
  rw [hq]
  exact r4_tile_apply V c t h1 p q (i 0) hi0

theorem r4_flushed_eq (c : Dev nD) (t : Fin cfg4.N) (hf : (cfg4.win 3).flush t = true) :
    (dat4 V c).flushed 3 t
      = ((cfg4.win 3).blk t).view.read (Elt Ideal) (Cert.Spec.gatherStep (r4_tailArr V c) (r4_embArr V c) (r4_relArr V c)) := by
  have h1 : t.val % 25 = 24 := (flush4_3 t).mp hf
  obtain ⟨e0, e1⟩ := r4_idx_msg t
  show (cfg4.win 3).cut (grid4.coords t) ((dat4 V c).after 3 t) = _
  rw [after4_3]
  funext y
  show (outsAt4 V c t.val t.isLt).1 ((cfg4.win 3).xinj (grid4.coords t) y)
    = Cert.Spec.gatherStep (r4_tailArr V c) (r4_embArr V c) (r4_relArr V c) (((cfg4.win 3).blk t).view.emb y)
  refine r4_tile_at V c t h1 ((cfg4.win 3).xinj (grid4.coords t) y) (((cfg4.win 3).blk t).view.emb y) ?_ ?_
  · show win4_3.index t (0 : Fin 2) * 4096 + 1 * (y 0).val = 4096 * (t.val / 25) + (y 0).val
    omega
  · show win4_3.index t (1 : Fin 2) * 128 + 1 * (y 1).val = (y 1).val
    omega

theorem r4_mem_blk (t : Fin cfg4.N) (i : S1601536x128.Idx) :
    i ∈ ((cfg4.win 3).blk t).view.set
      ↔ ∀ a : Fin 2, win4_3.index t a * S4096x128.size a ≤ (i a).val ∧ (i a).val < win4_3.index t a * S4096x128.size a + S4096x128.size a := by
  show i ∈ ((View.whole (Pipeline.arrRef spec4 3)).slice (win4_3.rect t)).set ↔ _
  rw [View.set_slice_whole, Rect.mem_set_unit]
  exact Iff.rfl

theorem r4_mem_of (t : Fin cfg4.N) (i : S1601536x128.Idx) (h : t.val / 25 = (i 0).val / 4096) :
    i ∈ ((cfg4.win 3).blk t).view.set := by
  have hi1 : (i 1).val < 128 := idx2_lt1 i
  obtain ⟨e0, e1⟩ := r4_idx_msg t
  rw [r4_mem_blk]
  intro a
  match a with
  | ⟨0, _⟩ =>
    show win4_3.index t (0 : Fin 2) * 4096 ≤ (i 0).val ∧ (i 0).val < win4_3.index t (0 : Fin 2) * 4096 + 4096
    omega
  | ⟨1, _⟩ =>
    show win4_3.index t (1 : Fin 2) * 128 ≤ (i 1).val ∧ (i 1).val < win4_3.index t (1 : Fin 2) * 128 + 128
    omega

theorem r4_cover (i : S1601536x128.Idx) :
    ∃ t : Fin cfg4.N, (cfg4.win 3).flush t = true ∧ i ∈ ((cfg4.win 3).blk t).view.set := by
  have hN : cfg4.N = 9775 := N_4
  have hi0 : (i 0).val < 1601536 := idx2_lt0 i
  have ht : 25 * ((i 0).val / 4096) + 24 < cfg4.N := by omega
  refine ⟨⟨25 * ((i 0).val / 4096) + 24, ht⟩, (flush4_3 _).mpr ?_, r4_mem_of _ i ?_⟩
  · show (25 * ((i 0).val / 4096) + 24) % 25 = 24
    omega
  · show (25 * ((i 0).val / 4096) + 24) / 25 = (i 0).val / 4096
    omega

theorem region4_out (c : Dev nD) :
    ((dat4 (F := Ideal) V c).arrAt 3 cfg4.N : Cert.Spec.SEdge.Idx → EReal)
      = Cert.Spec.gatherStep (V c (Pipeline.arrRef spec4 0) : Cert.Spec.SRow.Idx → BitVec 32)
          (V c (Pipeline.arrRef spec4 1) : Cert.Spec.SEnt.Idx → EReal) (V c (Pipeline.arrRef spec4 2) : Cert.Spec.SEdge.Idx → EReal) :=
  (dat4 V c).arrAt_eq_of_cover 3 (Cert.Spec.gatherStep (r4_tailArr V c) (r4_embArr V c) (r4_relArr V c))
    (fun t hf => r4_flushed_eq V c t hf) (fun i => r4_cover i)

end Cert.KernelIdeal.Hand

end
-- ==== Proof.KI.R5Pay.lean ====
import proofs.«428098_j75917841924563_1_alg».proof.Proof.KI.R5Dat
import proofs.«428098_j75917841924563_1_alg».proof.Proof.KI.R1Pay
import proofs.«428098_j75917841924563_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Body

variable (c : Dev nD) (i : grid5.Coords) (arg2 : Memref sig .tc .vmem S1x4096 .i32) (harg2 : arg2.IsWhole) (arg3 : Memref sig .tc .vmem S4096x128 .bf16) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole)

theorem sout5_A_0_eq (hc0 : cond5_0 i) (hc1 : ¬cond5_1 i) (x0 : Vec F S1x4096 .i32) (x1 : Vec F S4096x128 .bf16) (x2 : Vec F S2048x1 .f32) :
    sout5_A_0 c i arg2 harg2 arg3 harg3 arg4 harg4 arg5 harg5 arg6 harg6 hc0 hc1 x0 x1 x2 = k1_pay2 i x0 x1 (k1_pay1 (F := F)) := by
  unfold sout5_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) r1_hz]
  simp only [View.readAt_eq_ld, harg2.read_unread, harg3.read_unread, View.ld_unit_zero (S := S1x4096) r1_hz,
    View.ld_unit_zero (S := S4096x128) r1_hz, View.readCov_unit_zero (S := S2048x128) _ r1_hz]

theorem sout5_B_0_eq (hc0 : ¬cond5_0 i) (hc1 : ¬cond5_1 i) (x0 : Vec F S1x4096 .i32) (x1 : Vec F S4096x128 .bf16) (x2 : Vec F S2048x1 .f32) (xs0 : Vec F S2048x128 .f32) :
    sout5_B_0 c i arg2 harg2 arg3 harg3 arg4 harg4 arg5 harg5 arg6 harg6 hc0 hc1 x0 x1 x2 xs0 = k1_pay2 i x0 x1 xs0 := by
  unfold sout5_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem sout5_C_0_eq (hc0 : ¬cond5_0 i) (hc1 : cond5_1 i) (x0 : Vec F S1x4096 .i32) (x1 : Vec F S4096x128 .bf16) (x2 : Vec F S2048x1 .f32) (xs0 : Vec F S2048x128 .f32) :
    sout5_C_0 c i arg2 harg2 arg3 harg3 arg4 harg4 arg5 harg5 arg6 harg6 hc0 hc1 x0 x1 x2 xs0 = k1_pay2 i x0 x1 xs0 := by
  unfold sout5_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg6.read_unread, View.ld_unit_zero (S := S1x4096) r1_hz,
    View.ld_unit_zero (S := S4096x128) r1_hz, View.ld_unit_zero (S := S2048x128) r1_hz]

theorem out5_C_3_eq (hc0 : ¬cond5_0 i) (hc1 : cond5_1 i) (x0 : Vec F S1x4096 .i32) (x1 : Vec F S4096x128 .bf16) (x2 : Vec F S2048x1 .f32) (xs0 : Vec F S2048x128 .f32) :
    out5_C_3 c i arg2 harg2 arg3 harg3 arg4 harg4 arg5 harg5 arg6 harg6 hc0 hc1 x0 x1 x2 xs0 = k1_pay3 (k1_pay2 i x0 x1 xs0) x2 := by
  unfold out5_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S2048x128) r1_hz]
  simp only [View.readAt_eq_ld, harg2.read_unread, harg3.read_unread, harg4.read_unread, harg6.read_unread, View.ld_unit_zero (S := S1x4096) r1_hz,
    View.ld_unit_zero (S := S4096x128) r1_hz, View.ld_unit_zero (S := S2048x1) r1_hz, View.ld_unit_zero (S := S2048x128) r1_hz,
    View.readCov_unit_zero (S := S2048x128) _ r1_hz]

end Body

end Cert.KernelIdeal.Hand

end
-- ==== Proof.KI.R5Val.Idx.lean ====
import proofs.«428098_j75917841924563_1_alg».proof.Proof.Gen.KernelIdeal.Points
import proofs.«428098_j75917841924563_1_alg».proof.Proof.KI.R1Val.Idx
import proofs.«428098_j75917841924563_1_alg».proof.Proof.Spec
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

theorem r5_idx : ∀ t : Fin cfg5.N,
    (win5_0.index t (0 : Fin 2) = 0 ∧ win5_0.index t (1 : Fin 2) = t.val % 391)
    ∧ (win5_1.index t (0 : Fin 2) = t.val % 391 ∧ win5_1.index t (1 : Fin 2) = 0)
    ∧ (win5_2.index t (0 : Fin 2) = t.val / 391 ∧ win5_2.index t (1 : Fin 2) = 0)
    ∧ (win5_3.index t (0 : Fin 2) = t.val / 391 ∧ win5_3.index t (1 : Fin 2) = 0)
    ∧ ((grid5.coords t) 0).val = t.val / 391 :=
  (by decide +kernel : ∀ t : Fin grid5.N,
    (win5_0.index t (0 : Fin 2) = 0 ∧ win5_0.index t (1 : Fin 2) = t.val % 391)
    ∧ (win5_1.index t (0 : Fin 2) = t.val % 391 ∧ win5_1.index t (1 : Fin 2) = 0)
    ∧ (win5_2.index t (0 : Fin 2) = t.val / 391 ∧ win5_2.index t (1 : Fin 2) = 0)
    ∧ (win5_3.index t (0 : Fin 2) = t.val / 391 ∧ win5_3.index t (1 : Fin 2) = 0)
    ∧ ((grid5.coords t) 0).val = t.val / 391)

end Cert.KernelIdeal.Hand

end
-- ==== Proof.KI.R5Val.lean ====
import proofs.«428098_j75917841924563_1_alg».proof.Proof.KI.R5Pay
import proofs.«428098_j75917841924563_1_alg».proof.Proof.KI.R1Val
import proofs.«428098_j75917841924563_1_alg».proof.Proof.KI.R5Val.Idx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev r5_harr (c : Dev nD) : Vec Ideal S1x1601536 .i32 := V c (Pipeline.arrRef spec5 0)

abbrev r5_marr (c : Dev nD) : Vec Ideal S1601536x128 .bf16 := V c (Pipeline.arrRef spec5 1)

abbrev r5_darr (c : Dev nD) : Vec Ideal S51200x1 .f32 := V c (Pipeline.arrRef spec5 2)

abbrev r5_hblk (c : Dev nD) (t : Fin cfg5.N) : Vec Ideal S1x4096 .i32 := iblk5 V c 0 t

abbrev r5_mblk (c : Dev nD) (t : Fin cfg5.N) : Vec Ideal S4096x128 .bf16 := iblk5 V c 1 t

abbrev r5_dblk (c : Dev nD) (t : Fin cfg5.N) : Vec Ideal S2048x1 .f32 := iblk5 V c 2 t

def r5_hw (c : Dev nD) (e : ℕ) : BitVec 32 :=
  if h : e < 1601536 then r5_harr V c (ix2 (0 : Fin 1) (⟨e, h⟩ : Fin 1601536)) else 0#32

def r5_mg (c : Dev nD) (e : ℕ) (q : Fin 128) : EReal :=
  if h : e < 1601536 then r5_marr V c (ix2 (⟨e, h⟩ : Fin 1601536) q) else 0

def r5_term (c : Dev nD) (n : ℕ) (q : Fin 128) (e : ℕ) : EReal :=
  Cert.Spec.hot n (r5_hw V c e) * r5_mg V c e q

theorem r5_hblk_apply (c : Dev nD) (t : Fin cfg5.N) (r : Fin 4096) :
    r5_hblk V c t (ix2 (0 : Fin 1) r) = r5_hw V c (4096 * (t.val % 391) + r.val) := by
  have hlt : 4096 * (t.val % 391) + r.val < 1601536 := by
    have := r.isLt; have := Nat.mod_lt t.val (show 0 < 391 by decide); omega
  obtain ⟨⟨e0, e1⟩, -⟩ := r5_idx t
  unfold r5_hw
  rw [dif_pos hlt]
  show ((cfg5.win 0).blk t).view.read (Elt Ideal) (V c (Pipeline.arrRef spec5 0)) (ix2 (0 : Fin 1) r) = _
  rw [View.read_apply]
  show V c (Pipeline.arrRef spec5 0) _ = V c (Pipeline.arrRef spec5 0) _
  congr 1
  funext a; apply Fin.ext
  match a with
  | ⟨0, _⟩ => show win5_0.index t 0 * 1 + 1 * 0 = 0; rw [e0]
  | ⟨1, _⟩ => show win5_0.index t 1 * 4096 + 1 * r.val = 4096 * (t.val % 391) + r.val; rw [e1]; omega

theorem r5_mblk_apply (c : Dev nD) (t : Fin cfg5.N) (r : Fin 4096) (q : Fin 128) :
    r5_mblk V c t (ix2 r q) = r5_mg V c (4096 * (t.val % 391) + r.val) q := by
  have hlt : 4096 * (t.val % 391) + r.val < 1601536 := by
    have := r.isLt; have := Nat.mod_lt t.val (show 0 < 391 by decide); omega
  obtain ⟨-, ⟨e0, e1⟩, -⟩ := r5_idx t
  unfold r5_mg
  rw [dif_pos hlt]
  show ((cfg5.win 1).blk t).view.read (Elt Ideal) (V c (Pipeline.arrRef spec5 1)) (ix2 r q) = _
  rw [View.read_apply]
  show V c (Pipeline.arrRef spec5 1) _ = V c (Pipeline.arrRef spec5 1) _
  congr 1
  funext a; apply Fin.ext
  match a with
  | ⟨0, _⟩ => show win5_1.index t 0 * 4096 + 1 * r.val = 4096 * (t.val % 391) + r.val; rw [e0]; omega
  | ⟨1, _⟩ => show win5_1.index t 1 * 128 + 1 * q.val = q.val; rw [e1]; omega

theorem r5_dblk_apply (c : Dev nD) (t : Fin cfg5.N) (p : Fin 2048) (n : Fin 51200) (hn : n.val = 2048 * (t.val / 391) + p.val) :
    r5_dblk V c t (ix2 p (0 : Fin 1)) = r5_darr V c (ix2 n (0 : Fin 1)) := by
  obtain ⟨-, -, ⟨e0, e1⟩, -⟩ := r5_idx t
  show ((cfg5.win 2).blk t).view.read (Elt Ideal) (V c (Pipeline.arrRef spec5 2)) (ix2 p (0 : Fin 1)) = _
  rw [View.read_apply]
  show V c (Pipeline.arrRef spec5 2) _ = V c (Pipeline.arrRef spec5 2) _
  congr 1
  funext a; apply Fin.ext
  match a with
  | ⟨0, _⟩ => show win5_2.index t 0 * 2048 + 1 * p.val = n.val; rw [e0, hn]; omega
  | ⟨1, _⟩ => show win5_2.index t 1 * 1 + 1 * 0 = 0; rw [e1]

theorem r5_tile_sum (c : Dev nD) (t : Fin cfg5.N) (p : Fin 2048) (q : Fin 128) :
    ∑ r : Fin 4096, Cert.Spec.hot (2048 * ((grid5.coords t) 0).val + p.val) (r5_hblk V c t (ix2 (0 : Fin 1) r)) * r5_mblk V c t (ix2 r q)
      = ∑ r : Fin 4096, r5_term V c (2048 * (t.val / 391) + p.val) q (4096 * (t.val % 391) + r.val) := by
  obtain ⟨-, -, -, -, ej⟩ := r5_idx t
  refine Finset.sum_congr rfl fun r _ => ?_
  rw [r5_hblk_apply V c t r, r5_mblk_apply V c t r q, ej]
  rfl

theorem r5_step (c : Dev nD) (t : Fin cfg5.N) (p : Fin 2048) (q : Fin 128) :
    (outsAt5 V c t.val t.isLt).2 (ix2 p q)
      = (if t.val % 391 = 0 then (0 : EReal) else (outsAt5 V c (t.val - 1) (Nat.lt_of_le_of_lt (Nat.sub_le _ _) t.isLt)).2 (ix2 p q))
        + ∑ r : Fin 4096, r5_term V c (2048 * (t.val / 391) + p.val) q (4096 * (t.val % 391) + r.val) := by
  rw [← r5_tile_sum V c t p q]
  by_cases h0 : t.val % 391 = 0
  · have h1 : ¬t.val % 391 = 390 := by omega
    rw [if_pos h0, outsAt5_A V c t h0 h1]
    dsimp only
    refine (congrFun (sout5_A_0_eq (F := Ideal) c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (r5_hblk V c t) (r5_mblk V c t) (r5_dblk V c t)) (ix2 p q)).trans ?_
    refine (k1_pay2_apply (grid5.coords t) (r5_hblk V c t) (r5_mblk V c t) (k1_pay1 (F := Ideal)) p q).trans ?_
    rw [k1_pay1_apply]
  · rw [if_neg h0]
    by_cases h1 : t.val % 391 = 390
    · rw [outsAt5_C V c t h0 h1]
      dsimp only
      refine (congrFun (sout5_C_0_eq (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (r5_hblk V c t) (r5_mblk V c t) (r5_dblk V c t) (outsAt5 V c (t.val - 1) (Nat.lt_of_le_of_lt (Nat.sub_le _ _) t.isLt)).2) (ix2 p q)).trans ?_
      exact k1_pay2_apply (grid5.coords t) (r5_hblk V c t) (r5_mblk V c t) (outsAt5 V c (t.val - 1) (Nat.lt_of_le_of_lt (Nat.sub_le _ _) t.isLt)).2 p q
    · rw [outsAt5_B V c t h0 h1]
      dsimp only
      refine (congrFun (sout5_B_0_eq (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (r5_hblk V c t) (r5_mblk V c t) (r5_dblk V c t) (outsAt5 V c (t.val - 1) (Nat.lt_of_le_of_lt (Nat.sub_le _ _) t.isLt)).2) (ix2 p q)).trans ?_
      exact k1_pay2_apply (grid5.coords t) (r5_hblk V c t) (r5_mblk V c t) (outsAt5 V c (t.val - 1) (Nat.lt_of_le_of_lt (Nat.sub_le _ _) t.isLt)).2 p q

theorem r5_acc_apply (c : Dev nD) : ∀ (n : ℕ) (hn : n < cfg5.N) (p : Fin 2048) (q : Fin 128),
    (outsAt5 V c n hn).2 (ix2 p q)
      = ∑ e ∈ Finset.range (4096 * (n % 391 + 1)), r5_term V c (2048 * (n / 391) + p.val) q e := by
  intro n
  induction n with
  | zero =>
    intro hn p q
    refine (r5_step V c ⟨0, hn⟩ p q).trans ?_
    show (if 0 % 391 = 0 then (0 : EReal) else _) + _ = _
    rw [if_pos (Nat.zero_mod 391), ← r1_sum_tile (r5_term V c (2048 * (0 / 391) + p.val) q) (0 % 391)]
    congr 1
  | succ n ih =>
    intro hn p q
    refine (r5_step V c ⟨n + 1, hn⟩ p q).trans ?_
    show (if (n + 1) % 391 = 0 then (0 : EReal) else (outsAt5 V c n _).2 (ix2 p q)) + _ = _
    rw [← r1_sum_tile (r5_term V c (2048 * ((n + 1) / 391) + p.val) q) ((n + 1) % 391)]
    congr 1
    by_cases h0 : (n + 1) % 391 = 0
    · rw [if_pos h0, h0, Nat.mul_zero, Finset.range_zero, Finset.sum_empty]
    · rw [if_neg h0, ih (Nat.lt_of_succ_lt hn) p q]
      have e1 : (n + 1) / 391 = n / 391 := by omega
      have e2 : (n + 1) % 391 = n % 391 + 1 := by omega
      rw [e1, e2]

theorem r5_sum_all (c : Dev nD) (n : ℕ) (q : Fin 128) :
    ∑ e ∈ Finset.range 1601536, r5_term V c n q e
      = ∑ e : Fin 1601536, Cert.Spec.hot n (r5_harr V c (ix2 (0 : Fin 1) e)) * r5_marr V c (ix2 e q) := by
  rw [r1_sum_range_fin]
  refine Finset.sum_congr rfl fun e _ => ?_
  unfold r5_term r5_hw r5_mg
  rw [dif_pos e.isLt, dif_pos e.isLt]

theorem r5_acc_full (c : Dev nD) (t : Fin cfg5.N) (h0 : ¬t.val % 391 = 0) (h1 : t.val % 391 = 390) (p : Fin 2048) (q : Fin 128) :
    k1_pay2 (grid5.coords t) (r5_hblk V c t) (r5_mblk V c t) (outsAt5 V c (t.val - 1) (Nat.lt_of_le_of_lt (Nat.sub_le _ _) t.isLt)).2 (ix2 p q)
      = ∑ e : Fin 1601536, Cert.Spec.hot (2048 * (t.val / 391) + p.val) (r5_harr V c (ix2 (0 : Fin 1) e)) * r5_marr V c (ix2 e q) := by
  rw [← r5_sum_all V c (2048 * (t.val / 391) + p.val) q]
  have hacc := r5_acc_apply V c t.val t.isLt p q
  rw [h1] at hacc
  refine Eq.trans ?_ hacc
  rw [outsAt5_C V c t h0 h1]
  dsimp only
  exact (congrFun (sout5_C_0_eq (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (r5_hblk V c t) (r5_mblk V c t) (r5_dblk V c t) (outsAt5 V c (t.val - 1) (Nat.lt_of_le_of_lt (Nat.sub_le _ _) t.isLt)).2) (ix2 p q)).symm

theorem r5_out_apply (c : Dev nD) (t : Fin cfg5.N) (h0 : ¬t.val % 391 = 0) (h1 : t.val % 391 = 390) (p : Fin 2048) (q : Fin 128)
    (n : Fin 51200) (hn : n.val = 2048 * (t.val / 391) + p.val) :
    out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2 (ix2 p q)
      = Cert.Spec.scatterAt (r5_harr V c) (r5_marr V c) (r5_darr V c) n q := by
  refine (congrFun (out5_C_3_eq (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (r5_hblk V c t) (r5_mblk V c t) (r5_dblk V c t) (outsAt5 V c (t.val - 1) (Nat.lt_of_le_of_lt (Nat.sub_le _ _) t.isLt)).2) (ix2 p q)).trans ?_
  refine (k1_pay3_apply (k1_pay2 (grid5.coords t) (r5_hblk V c t) (r5_mblk V c t) (outsAt5 V c (t.val - 1) (Nat.lt_of_le_of_lt (Nat.sub_le _ _) t.isLt)).2) (r5_dblk V c t) p q).trans ?_
  have ha : ∀ q' : Fin 128, k1_pay2 (grid5.coords t) (r5_hblk V c t) (r5_mblk V c t) (outsAt5 V c (t.val - 1) (Nat.lt_of_le_of_lt (Nat.sub_le _ _) t.isLt)).2 (ix2 p q')
      = ∑ e : Fin 1601536, Cert.Spec.hot n.val (r5_harr V c (ix2 (0 : Fin 1) e)) * r5_marr V c (ix2 e q') :=
    fun q' => by rw [hn]; exact r5_acc_full V c t h0 h1 p q'
  have hd := r5_dblk_apply V c t p n hn
  unfold Cert.Spec.scatterAt Cert.Spec.aggAt
  rw [hd]
  simp only [ha]

theorem r5_flushed_eq (c : Dev nD) (t : Fin cfg5.N) (hf : (cfg5.win 3).flush t = true) :
    (dat5 (F := Ideal) V c).flushed 3 t
      = ((cfg5.win 3).blk t).view.read (Elt Ideal) (Cert.Spec.scatterStep (r5_harr V c) (r5_marr V c) (r5_darr V c)) := by
  have h1 : t.val % 391 = 390 := (flush5_3 t).mp hf
  have h0 : ¬t.val % 391 = 0 := by omega
  have hN : cfg5.N = 9775 := N_5
  obtain ⟨-, -, -, ⟨e0, e1⟩, -⟩ := r5_idx t
  show (cfg5.win 3).cut (grid5.coords t) ((dat5 (F := Ideal) V c).after 3 t) = _
  rw [after5_3, outsAt5_C V c t h0 h1]
  dsimp only
  funext j
  obtain ⟨p, q, rfl⟩ : ∃ (p : Fin 2048) (q : Fin 128), j = ix2 p q := ⟨j 0, j 1, eq_ix2 j⟩
  have hlt : 2048 * (t.val / 391) + p.val < 51200 := by have := p.isLt; have := t.isLt; omega
  refine (r5_out_apply V c t h0 h1 p q ⟨2048 * (t.val / 391) + p.val, hlt⟩ rfl).trans ?_
  show _ = Cert.Spec.scatterStep (r5_harr V c) (r5_marr V c) (r5_darr V c) (((cfg5.win 3).blk t).view.emb (ix2 p q))
  unfold Cert.Spec.scatterStep
  dsimp only
  congr 1
  · apply Fin.ext
    show 2048 * (t.val / 391) + p.val = win5_3.index t 0 * 2048 + 1 * p.val
    rw [e0]; omega
  · apply Fin.ext
    show q.val = win5_3.index t 1 * 128 + 1 * q.val
    rw [e1]; omega

theorem r5_mem_blk (t : Fin cfg5.N) (i : S51200x128.Idx) :
    i ∈ ((cfg5.win 3).blk t).view.set
      ↔ ∀ a : Fin 2, win5_3.index t a * S2048x128.size a ≤ (i a).val ∧ (i a).val < win5_3.index t a * S2048x128.size a + S2048x128.size a := by
  show i ∈ ((View.whole (Pipeline.arrRef spec5 3)).slice (win5_3.rect t)).set ↔ _
  rw [View.set_slice_whole, Rect.mem_set_unit]
  exact Iff.rfl

theorem r5_cover (i : S51200x128.Idx) :
    ∃ t : Fin cfg5.N, (cfg5.win 3).flush t = true ∧ i ∈ ((cfg5.win 3).blk t).view.set := by
  have hi0 : (i 0).val < 51200 := (i 0).isLt
  have hi1 : (i 1).val < 128 := (i 1).isLt
  have hN : cfg5.N = 9775 := N_5
  have ht : 391 * ((i 0).val / 2048) + 390 < cfg5.N := by omega
  obtain ⟨-, -, -, ⟨e0, e1⟩, -⟩ := r5_idx ⟨391 * ((i 0).val / 2048) + 390, ht⟩
  have hv : (⟨391 * ((i 0).val / 2048) + 390, ht⟩ : Fin cfg5.N).val = 391 * ((i 0).val / 2048) + 390 := rfl
  rw [hv] at e0
  refine ⟨⟨391 * ((i 0).val / 2048) + 390, ht⟩, (flush5_3 _).mpr (by rw [hv]; omega), ?_⟩
  rw [r5_mem_blk]
  intro a
  match a with
  | ⟨0, _⟩ =>
    show win5_3.index ⟨391 * ((i 0).val / 2048) + 390, ht⟩ 0 * 2048 ≤ (i 0).val ∧ (i 0).val < win5_3.index ⟨391 * ((i 0).val / 2048) + 390, ht⟩ 0 * 2048 + 2048
    rw [e0]; omega
  | ⟨1, _⟩ =>
    show win5_3.index ⟨391 * ((i 0).val / 2048) + 390, ht⟩ 1 * 128 ≤ (i 1).val ∧ (i 1).val < win5_3.index ⟨391 * ((i 0).val / 2048) + 390, ht⟩ 1 * 128 + 128
    rw [e1]; omega

theorem region5_out (c : Dev nD) :
    ((dat5 (F := Ideal) V c).arrAt 3 cfg5.N : Cert.Spec.SEnt.Idx → EReal)
      = Cert.Spec.scatterStep (V c (Pipeline.arrRef spec5 0) : Cert.Spec.SRow.Idx → BitVec 32)
          (V c (Pipeline.arrRef spec5 1) : Cert.Spec.SEdge.Idx → EReal) (V c (Pipeline.arrRef spec5 2) : Cert.Spec.SDen.Idx → EReal) :=
  (dat5 (F := Ideal) V c).arrAt_eq_of_cover 3 (Cert.Spec.scatterStep (r5_harr V c) (r5_marr V c) (r5_darr V c))
    (r5_flushed_eq V c) r5_cover

end Cert.KernelIdeal.Hand

end
-- ==== Proof.KI.KernelVal.lean ====
import proofs.«428098_j75917841924563_1_alg».proof.Proof.KI.Fold
import proofs.«428098_j75917841924563_1_alg».proof.Proof.KI.Glue
import proofs.«428098_j75917841924563_1_alg».proof.Proof.KI.R0Val
import proofs.«428098_j75917841924563_1_alg».proof.Proof.KI.R1Val
import proofs.«428098_j75917841924563_1_alg».proof.Proof.KI.R2Val
import proofs.«428098_j75917841924563_1_alg».proof.Proof.KI.R3Val
import proofs.«428098_j75917841924563_1_alg».proof.Proof.KI.R4Val
import proofs.«428098_j75917841924563_1_alg».proof.Proof.KI.R5Val

set_option maxRecDepth 16384

noncomputable section

namespace Cert.KernelIdeal.Hand.KV

open Cert.KernelIdeal Cert.KernelIdeal.Gen Cert.KernelIdeal.Hand
open Idealize.ShloMosaic Idealize.ShloMosaic.TcCoe Idealize.SL.Sem
open Cert.Spec (SRow SEnt SEdge SDen SArg0 SArg1 SArg2 SArg3)

variable (m : (ℓ : Loc nD τ sig) → Buf (Elt Ideal) ℓ)

abbrev arg0 (c : Dev nD) : SArg0.Idx → EReal := m ((c : Thread nD τ).loc main_arg0)
abbrev arg1 (c : Dev nD) : SArg1.Idx → BitVec 32 := m ((c : Thread nD τ).loc main_arg1)
abbrev arg2 (c : Dev nD) : SArg2.Idx → BitVec 32 := m ((c : Thread nD τ).loc main_arg2)
abbrev arg3 (c : Dev nD) : SArg3.Idx → EReal := m ((c : Thread nD τ).loc main_arg3)

abbrev tailW (c : Dev nD) : SRow.Idx → BitVec 32 := Cert.Spec.tailP (arg1 m c)
abbrev headW (c : Dev nD) : SRow.Idx → BitVec 32 := Cert.Spec.headP (arg1 m c)
abbrev relW (c : Dev nD) : SEdge.Idx → EReal := Cert.Spec.relP (arg2 m c) (arg3 m c)
abbrev denW (c : Dev nD) : SDen.Idx → EReal := Cert.Spec.denP (arg1 m c)

abbrev emb0 (c : Dev nD) : SEnt.Idx → EReal := Cert.Spec.embP (arg0 m c)
abbrev msg1 (c : Dev nD) : SEdge.Idx → EReal := Cert.Spec.gatherStep (tailW m c) (emb0 m c) (relW m c)
abbrev emb1 (c : Dev nD) : SEnt.Idx → EReal := Cert.Spec.scatterStep (headW m c) (msg1 m c) (denW m c)
abbrev msg2 (c : Dev nD) : SEdge.Idx → EReal := Cert.Spec.gatherStep (tailW m c) (emb1 m c) (relW m c)
abbrev emb2 (c : Dev nD) : SEnt.Idx → EReal := Cert.Spec.scatterStep (headW m c) (msg2 m c) (denW m c)
abbrev msg3 (c : Dev nD) : SEdge.Idx → EReal := Cert.Spec.gatherStep (tailW m c) (emb2 m c) (relW m c)
abbrev emb3 (c : Dev nD) : SEnt.Idx → EReal := Cert.Spec.scatterStep (headW m c) (msg3 m c) (denW m c)

abbrev sum1 (c : Dev nD) : SArg0.Idx → EReal := Glue.resid (arg0 m c) (emb1 m c)
abbrev sum2 (c : Dev nD) : SArg0.Idx → EReal := Glue.resid (sum1 m c) (emb2 m c)

theorem gather_congr {t t' : SRow.Idx → BitVec 32} {e e' : SEnt.Idx → EReal} {r r' : SEdge.Idx → EReal}
    (ht : t = t') (he : e = e') (hr : r = r') : Cert.Spec.gatherStep t e r = Cert.Spec.gatherStep t' e' r' := by
  subst ht he hr; rfl
theorem scatter_congr {h h' : SRow.Idx → BitVec 32} {g g' : SEdge.Idx → EReal} {d d' : SDen.Idx → EReal}
    (hh : h = h') (hg : g = g') (hd : d = d') : Cert.Spec.scatterStep h g d = Cert.Spec.scatterStep h' g' d' := by
  subst hh hg hd; rfl

theorem W10_v28 (c : Dev nD) : (W10 m c (Proc.devRef .tc main_v28) : SEdge.Idx → EReal) = msg1 m c :=
  (W10_arr m c 3).trans <| (region0_out (rd (W9 m)) c).trans <|
    gather_congr (Glue.V9_v25 m c) (Glue.V9_v27 m c) (Glue.V9_v16 m c)
theorem W10_v25 (c : Dev nD) : (W10 m c (Proc.devRef .tc main_v25) : SRow.Idx → BitVec 32) = tailW m c :=
  (W10_arr m c 0).trans <| ((dat0 (rd (W9 m)) c).arrAt_in 0 rfl cfg0.N).trans <| (A_eq0 (rd (W9 m)) c 0).trans (Glue.V9_v25 m c)
theorem W10_v16 (c : Dev nD) : (W10 m c (Proc.devRef .tc main_v16) : SEdge.Idx → EReal) = relW m c :=
  (W10_arr m c 2).trans <| ((dat0 (rd (W9 m)) c).arrAt_in 2 rfl cfg0.N).trans <| (A_eq0 (rd (W9 m)) c 2).trans (Glue.V9_v16 m c)
theorem W10_v26 (c : Dev nD) : (W10 m c (Proc.devRef .tc main_v26) : SRow.Idx → BitVec 32) = headW m c :=
  (W10_of_ne m c main_v26 (by decide)).trans (Glue.V9_v26 m c)
theorem W10_v23 (c : Dev nD) : (W10 m c (Proc.devRef .tc main_v23) : SDen.Idx → EReal) = denW m c :=
  (W10_of_ne m c main_v23 (by decide)).trans (Glue.V9_v23 m c)
theorem W10_arg0 (c : Dev nD) : (W10 m c (Proc.devRef .tc main_arg0) : SArg0.Idx → EReal) = arg0 m c :=
  (W10_of_ne m c main_arg0 (by decide)).trans (Glue.V9_arg0 m c)

theorem W11_v29 (c : Dev nD) : (W11 m c (Proc.devRef .tc main_v29) : SEnt.Idx → EReal) = emb1 m c :=
  (W11_arr m c 3).trans <| (region1_out (rd (W10 m)) c).trans <|
    scatter_congr (W10_v26 m c) (W10_v28 m c) (W10_v23 m c)
theorem W11_v26 (c : Dev nD) : (W11 m c (Proc.devRef .tc main_v26) : SRow.Idx → BitVec 32) = headW m c :=
  (W11_arr m c 0).trans <| ((dat1 (rd (W10 m)) c).arrAt_in 0 rfl cfg1.N).trans <| (A_eq1 (rd (W10 m)) c 0).trans (W10_v26 m c)
theorem W11_v23 (c : Dev nD) : (W11 m c (Proc.devRef .tc main_v23) : SDen.Idx → EReal) = denW m c :=
  (W11_arr m c 2).trans <| ((dat1 (rd (W10 m)) c).arrAt_in 2 rfl cfg1.N).trans <| (A_eq1 (rd (W10 m)) c 2).trans (W10_v23 m c)
theorem W11_v25 (c : Dev nD) : (W11 m c (Proc.devRef .tc main_v25) : SRow.Idx → BitVec 32) = tailW m c :=
  (W11_of_ne m c main_v25 (by decide)).trans (W10_v25 m c)
theorem W11_v16 (c : Dev nD) : (W11 m c (Proc.devRef .tc main_v16) : SEdge.Idx → EReal) = relW m c :=
  (W11_of_ne m c main_v16 (by decide)).trans (W10_v16 m c)
theorem W11_arg0 (c : Dev nD) : (W11 m c (Proc.devRef .tc main_arg0) : SArg0.Idx → EReal) = arg0 m c :=
  (W11_of_ne m c main_arg0 (by decide)).trans (W10_arg0 m c)

theorem W12_v32 (c : Dev nD) : (W12 m c (Proc.devRef .tc main_v32) : SEnt.Idx → EReal) = emb1 m c :=
  (Glue.after2_v32 (W11 m c)).trans (W11_v29 m c)
theorem W12_v31 (c : Dev nD) : (W12 m c (Proc.devRef .tc main_v31) : SArg0.Idx → EReal) = sum1 m c :=
  (Glue.after2_v31 (W11 m c)).trans (congrArg₂ Glue.resid (W11_arg0 m c) (W11_v29 m c))
theorem W12_v25 (c : Dev nD) : (W12 m c (Proc.devRef .tc main_v25) : SRow.Idx → BitVec 32) = tailW m c :=
  (StableHlo.after_of_writes_sub hostOps2 _ Gen.hostOps2_writes (by decide : main_v25 ∉ Gen.hostOps2_W)).trans (W11_v25 m c)
theorem W12_v16 (c : Dev nD) : (W12 m c (Proc.devRef .tc main_v16) : SEdge.Idx → EReal) = relW m c :=
  (StableHlo.after_of_writes_sub hostOps2 _ Gen.hostOps2_writes (by decide : main_v16 ∉ Gen.hostOps2_W)).trans (W11_v16 m c)
theorem W12_v26 (c : Dev nD) : (W12 m c (Proc.devRef .tc main_v26) : SRow.Idx → BitVec 32) = headW m c :=
  (StableHlo.after_of_writes_sub hostOps2 _ Gen.hostOps2_writes (by decide : main_v26 ∉ Gen.hostOps2_W)).trans (W11_v26 m c)
theorem W12_v23 (c : Dev nD) : (W12 m c (Proc.devRef .tc main_v23) : SDen.Idx → EReal) = denW m c :=
  (StableHlo.after_of_writes_sub hostOps2 _ Gen.hostOps2_writes (by decide : main_v23 ∉ Gen.hostOps2_W)).trans (W11_v23 m c)

theorem W13_v33 (c : Dev nD) : (W13 m c (Proc.devRef .tc main_v33) : SEdge.Idx → EReal) = msg2 m c :=
  (W13_arr m c 3).trans <| (region2_out (rd (W12 m)) c).trans <|
    gather_congr (W12_v25 m c) (W12_v32 m c) (W12_v16 m c)
theorem W13_v25 (c : Dev nD) : (W13 m c (Proc.devRef .tc main_v25) : SRow.Idx → BitVec 32) = tailW m c :=
  (W13_arr m c 0).trans <| ((dat2 (rd (W12 m)) c).arrAt_in 0 rfl cfg2.N).trans <| (A_eq2 (rd (W12 m)) c 0).trans (W12_v25 m c)
theorem W13_v16 (c : Dev nD) : (W13 m c (Proc.devRef .tc main_v16) : SEdge.Idx → EReal) = relW m c :=
  (W13_arr m c 2).trans <| ((dat2 (rd (W12 m)) c).arrAt_in 2 rfl cfg2.N).trans <| (A_eq2 (rd (W12 m)) c 2).trans (W12_v16 m c)
theorem W13_v26 (c : Dev nD) : (W13 m c (Proc.devRef .tc main_v26) : SRow.Idx → BitVec 32) = headW m c :=
  (W13_of_ne m c main_v26 (by decide)).trans (W12_v26 m c)
theorem W13_v23 (c : Dev nD) : (W13 m c (Proc.devRef .tc main_v23) : SDen.Idx → EReal) = denW m c :=
  (W13_of_ne m c main_v23 (by decide)).trans (W12_v23 m c)
theorem W13_v31 (c : Dev nD) : (W13 m c (Proc.devRef .tc main_v31) : SArg0.Idx → EReal) = sum1 m c :=
  (W13_of_ne m c main_v31 (by decide)).trans (W12_v31 m c)

theorem W14_v34 (c : Dev nD) : (W14 m c (Proc.devRef .tc main_v34) : SEnt.Idx → EReal) = emb2 m c :=
  (W14_arr m c 3).trans <| (region3_out (rd (W13 m)) c).trans <|
    scatter_congr (W13_v26 m c) (W13_v33 m c) (W13_v23 m c)
theorem W14_v26 (c : Dev nD) : (W14 m c (Proc.devRef .tc main_v26) : SRow.Idx → BitVec 32) = headW m c :=
  (W14_arr m c 0).trans <| ((dat3 (rd (W13 m)) c).arrAt_in 0 rfl cfg3.N).trans <| (A_eq3 (rd (W13 m)) c 0).trans (W13_v26 m c)
theorem W14_v23 (c : Dev nD) : (W14 m c (Proc.devRef .tc main_v23) : SDen.Idx → EReal) = denW m c :=
  (W14_arr m c 2).trans <| ((dat3 (rd (W13 m)) c).arrAt_in 2 rfl cfg3.N).trans <| (A_eq3 (rd (W13 m)) c 2).trans (W13_v23 m c)
theorem W14_v25 (c : Dev nD) : (W14 m c (Proc.devRef .tc main_v25) : SRow.Idx → BitVec 32) = tailW m c :=
  (W14_of_ne m c main_v25 (by decide)).trans (W13_v25 m c)
theorem W14_v16 (c : Dev nD) : (W14 m c (Proc.devRef .tc main_v16) : SEdge.Idx → EReal) = relW m c :=
  (W14_of_ne m c main_v16 (by decide)).trans (W13_v16 m c)
theorem W14_v31 (c : Dev nD) : (W14 m c (Proc.devRef .tc main_v31) : SArg0.Idx → EReal) = sum1 m c :=
  (W14_of_ne m c main_v31 (by decide)).trans (W13_v31 m c)

theorem W15_v37 (c : Dev nD) : (W15 m c (Proc.devRef .tc main_v37) : SEnt.Idx → EReal) = emb2 m c :=
  (Glue.after4_v37 (W14 m c)).trans (W14_v34 m c)
theorem W15_v36 (c : Dev nD) : (W15 m c (Proc.devRef .tc main_v36) : SArg0.Idx → EReal) = sum2 m c :=
  (Glue.after4_v36 (W14 m c)).trans (congrArg₂ Glue.resid (W14_v31 m c) (W14_v34 m c))
theorem W15_v25 (c : Dev nD) : (W15 m c (Proc.devRef .tc main_v25) : SRow.Idx → BitVec 32) = tailW m c :=
  (StableHlo.after_of_writes_sub hostOps4 _ Gen.hostOps4_writes (by decide : main_v25 ∉ Gen.hostOps4_W)).trans (W14_v25 m c)
theorem W15_v16 (c : Dev nD) : (W15 m c (Proc.devRef .tc main_v16) : SEdge.Idx → EReal) = relW m c :=
  (StableHlo.after_of_writes_sub hostOps4 _ Gen.hostOps4_writes (by decide : main_v16 ∉ Gen.hostOps4_W)).trans (W14_v16 m c)
theorem W15_v26 (c : Dev nD) : (W15 m c (Proc.devRef .tc main_v26) : SRow.Idx → BitVec 32) = headW m c :=
  (StableHlo.after_of_writes_sub hostOps4 _ Gen.hostOps4_writes (by decide : main_v26 ∉ Gen.hostOps4_W)).trans (W14_v26 m c)
theorem W15_v23 (c : Dev nD) : (W15 m c (Proc.devRef .tc main_v23) : SDen.Idx → EReal) = denW m c :=
  (StableHlo.after_of_writes_sub hostOps4 _ Gen.hostOps4_writes (by decide : main_v23 ∉ Gen.hostOps4_W)).trans (W14_v23 m c)

theorem W16_v38 (c : Dev nD) : (W16 m c (Proc.devRef .tc main_v38) : SEdge.Idx → EReal) = msg3 m c :=
  (W16_arr m c 3).trans <| (region4_out (rd (W15 m)) c).trans <|
    gather_congr (W15_v25 m c) (W15_v37 m c) (W15_v16 m c)
theorem W16_v26 (c : Dev nD) : (W16 m c (Proc.devRef .tc main_v26) : SRow.Idx → BitVec 32) = headW m c :=
  (W16_of_ne m c main_v26 (by decide)).trans (W15_v26 m c)
theorem W16_v23 (c : Dev nD) : (W16 m c (Proc.devRef .tc main_v23) : SDen.Idx → EReal) = denW m c :=
  (W16_of_ne m c main_v23 (by decide)).trans (W15_v23 m c)
theorem W16_v36 (c : Dev nD) : (W16 m c (Proc.devRef .tc main_v36) : SArg0.Idx → EReal) = sum2 m c :=
  (W16_of_ne m c main_v36 (by decide)).trans (W15_v36 m c)

theorem W17_v39 (c : Dev nD) : (W17 m c (Proc.devRef .tc main_v39) : SEnt.Idx → EReal) = emb3 m c :=
  (W17_arr m c 3).trans <| (region5_out (rd (W16 m)) c).trans <|
    scatter_congr (W16_v26 m c) (W16_v38 m c) (W16_v23 m c)
theorem W17_v36 (c : Dev nD) : (W17 m c (Proc.devRef .tc main_v36) : SArg0.Idx → EReal) = sum2 m c :=
  (W17_of_ne m c main_v36 (by decide)).trans (W16_v36 m c)

theorem W18_v41 (c : Dev nD) :
    (W18 m c (Proc.devRef .tc main_v41) : SArg0.Idx → EReal) = Glue.resid (sum2 m c) (emb3 m c) :=
  (Glue.after6_v41 (W17 m c)).trans (congrArg₂ Glue.resid (W17_v36 m c) (W17_v39 m c))

end Cert.KernelIdeal.Hand.KV

namespace Cert.KernelIdeal.Hand

open Cert.KernelIdeal Cert.KernelIdeal.Gen
open Idealize.ShloMosaic Idealize.ShloMosaic.TcCoe Idealize.SL.Sem

theorem result_eq (m : (ℓ : Loc nD τ sig) → Buf (Elt Ideal) ℓ) (c : Dev nD) :
    (W18 (F := Ideal) m c (Proc.devRef .tc main_v41) : Cert.Spec.SArg0.Idx → EReal)
      = Cert.Spec.kernelResult (m ((c : Thread nD τ).loc main_arg0)) (m ((c : Thread nD τ).loc main_arg1))
          (m ((c : Thread nD τ).loc main_arg2)) (m ((c : Thread nD τ).loc main_arg3)) :=
  (KV.W18_v41 m c).trans rfl

end Cert.KernelIdeal.Hand

end
-- ==== Proof.RefVal.Prim.lean ====
import proofs.«428098_j75917841924563_1_alg».proof.ReferenceIdeal
import Idealize.ShloMosaic.Lib.ValueIdx
import Idealize.ShloMosaic.Lib.IdealHost
import Idealize.ShloMosaic.Lib.Pipeline.Value
import Idealize.ShloMosaic.PureOps.Ideal.Laws

noncomputable section

namespace Cert.RefVal

open Idealize.ShloMosaic Idealize.ShloMosaic.ValueIdx Cert.ReferenceIdeal
open scoped BigOperators

variable [Cert.ReferenceIdeal.Facts]

abbrev col {n : Nat} (e : Fin n) : (⟨2, ![n, 1]⟩ : Shape).Idx := ix2 e (0 : Fin 1)

theorem gatherEnt_apply {α : Type} (x : S50000x128.Idx → α) (idx : IVec S1600000x1 32) (e : Fin 1600000) (c : Fin 128) :
    Host.gather gather_S50000x128_S1600000x1_S1600000x128_1_0_n_n_0_1_1128 x idx (ix2 e c)
      = x (ix2 (⟨min (idx (col e)).toInt.toNat 49999, by omega⟩ : Fin 50000) c) := by
  unfold Host.gather
  congr 1
  funext a
  refine Fin.ext ?_
  match a with
  | ⟨0, _⟩ =>
    show gather_S50000x128_S1600000x1_S1600000x128_1_0_n_n_0_1_1128.start (ix2 e c) idx 0 + gather_S50000x128_S1600000x1_S1600000x128_1_0_n_n_0_1_1128.batchCoord (ix2 e c) 0 + gather_S50000x128_S1600000x1_S1600000x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S1600000x1_S1600000x128_1_0_n_n_0_1_1128.startIndexMap from List.mem_singleton.mpr rfl)]
    have hsi : gather_S50000x128_S1600000x1_S1600000x128_1_0_n_n_0_1_1128.siIdx (ix2 e c)
        ⟨List.idxOf (0 : Fin 2) gather_S50000x128_S1600000x1_S1600000x128_1_0_n_n_0_1_1128.startIndexMap, List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show gather_S50000x128_S1600000x1_S1600000x128_1_0_n_n_0_1_1128.start (ix2 e c) idx 1 + gather_S50000x128_S1600000x1_S1600000x128_1_0_n_n_0_1_1128.batchCoord (ix2 e c) 1 + gather_S50000x128_S1600000x1_S1600000x128_1_0_n_n_0_1_1128.offCoord (ix2 e c) 1 = _
    rw [GatherDims.batchCoord_eq_zero _ _ _ List.not_mem_nil]
    unfold GatherDims.start
    rw [dif_neg (show (1 : Fin 2) ∉ gather_S50000x128_S1600000x1_S1600000x128_1_0_n_n_0_1_1128.startIndexMap from fun h => absurd (List.mem_singleton.mp h) (by decide))]
    unfold GatherDims.offCoord
    rw [dif_pos (show (1 : Fin 2) ∈ gather_S50000x128_S1600000x1_S1600000x128_1_0_n_n_0_1_1128.sKept from
      (GatherDims.mem_sKept _ _).mpr ⟨fun h => absurd (List.mem_singleton.mp h) (by decide), List.not_mem_nil⟩)]
    show 0 + 0 + (ix2 e c ([(1 : Fin 2)][List.idxOf (1 : Fin 2) gather_S50000x128_S1600000x1_S1600000x128_1_0_n_n_0_1_1128.sKept]'_)).val = c.val
    exact (Nat.zero_add _).trans (congrArg (fun a : Fin 2 => (ix2 e c a).val) (List.getElem_singleton _))

theorem gatherRel_apply {α : Type} (x : S10x128.Idx → α) (idx : IVec S1600000x1 32) (e : Fin 1600000) (c : Fin 128) :
    Host.gather gather_S10x128_S1600000x1_S1600000x128_1_0_n_n_0_1_1128 x idx (ix2 e c)
      = x (ix2 (⟨min (idx (col e)).toInt.toNat 9, by omega⟩ : Fin 10) c) := by
  unfold Host.gather
  congr 1
  funext a
  refine Fin.ext ?_
  match a with
  | ⟨0, _⟩ =>
    show gather_S10x128_S1600000x1_S1600000x128_1_0_n_n_0_1_1128.start (ix2 e c) idx 0 + gather_S10x128_S1600000x1_S1600000x128_1_0_n_n_0_1_1128.batchCoord (ix2 e c) 0 + gather_S10x128_S1600000x1_S1600000x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10x128_S1600000x1_S1600000x128_1_0_n_n_0_1_1128.startIndexMap from List.mem_singleton.mpr rfl)]
    have hsi : gather_S10x128_S1600000x1_S1600000x128_1_0_n_n_0_1_1128.siIdx (ix2 e c)
        ⟨List.idxOf (0 : Fin 2) gather_S10x128_S1600000x1_S1600000x128_1_0_n_n_0_1_1128.startIndexMap, List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show gather_S10x128_S1600000x1_S1600000x128_1_0_n_n_0_1_1128.start (ix2 e c) idx 1 + gather_S10x128_S1600000x1_S1600000x128_1_0_n_n_0_1_1128.batchCoord (ix2 e c) 1 + gather_S10x128_S1600000x1_S1600000x128_1_0_n_n_0_1_1128.offCoord (ix2 e c) 1 = _
    rw [GatherDims.batchCoord_eq_zero _ _ _ List.not_mem_nil]
    unfold GatherDims.start
    rw [dif_neg (show (1 : Fin 2) ∉ gather_S10x128_S1600000x1_S1600000x128_1_0_n_n_0_1_1128.startIndexMap from fun h => absurd (List.mem_singleton.mp h) (by decide))]
    unfold GatherDims.offCoord
    rw [dif_pos (show (1 : Fin 2) ∈ gather_S10x128_S1600000x1_S1600000x128_1_0_n_n_0_1_1128.sKept from
      (GatherDims.mem_sKept _ _).mpr ⟨fun h => absurd (List.mem_singleton.mp h) (by decide), List.not_mem_nil⟩)]
    show 0 + 0 + (ix2 e c ([(1 : Fin 2)][List.idxOf (1 : Fin 2) gather_S10x128_S1600000x1_S1600000x128_1_0_n_n_0_1_1128.sKept]'_)).val = c.val
    exact (Nat.zero_add _).trans (congrArg (fun a : Fin 2 => (ix2 e c a).val) (List.getElem_singleton _))

theorem scat2_start0 (idx : IVec S1600000x1 32) (j : S1600000x128.Idx) :
    scatter_S50000x128_S1600000x1_S1600000x128_1_0_0_1.start j idx 0 = (idx (col (j 0))).toInt := by
  unfold ScatterDims.start
  rw [dif_pos (show (0 : Fin 2) ∈ scatter_S50000x128_S1600000x1_S1600000x128_1_0_0_1.scatterDimsToOperandDims from List.mem_singleton.mpr rfl)]
  have hsi : scatter_S50000x128_S1600000x1_S1600000x128_1_0_0_1.siIdx j
      ⟨List.idxOf (0 : Fin 2) scatter_S50000x128_S1600000x1_S1600000x128_1_0_0_1.scatterDimsToOperandDims,
        List.idxOf_lt_length_iff.2 (List.mem_singleton.mpr rfl)⟩ = col (j 0) := by
    funext b; refine Fin.ext ?_
    match b with
    | ⟨0, _⟩ => rfl
    | ⟨1, _⟩ => rfl
  rw [hsi]
  rfl

theorem scat2_start1 (idx : IVec S1600000x1 32) (j : S1600000x128.Idx) :
    scatter_S50000x128_S1600000x1_S1600000x128_1_0_0_1.start j idx 1 = 0 := by
  unfold ScatterDims.start
  rw [dif_neg (show (1 : Fin 2) ∉ scatter_S50000x128_S1600000x1_S1600000x128_1_0_0_1.scatterDimsToOperandDims from
    fun h => absurd (List.mem_singleton.mp h) (by decide))]

theorem scat2_kept : scatter_S50000x128_S1600000x1_S1600000x128_1_0_0_1.sKept = [(1 : Fin 2)] :=
  (by decide : S50000x128.kept [(0 : Fin 2)] = [(1 : Fin 2)])

theorem scat2_window0 (j : S1600000x128.Idx) : scatter_S50000x128_S1600000x1_S1600000x128_1_0_0_1.window j 0 = 0 := by
  unfold ScatterDims.window
  rw [dif_neg (by rw [scat2_kept]; exact fun h => absurd (List.mem_singleton.mp h) (by decide))]

theorem scat2_window1 (j : S1600000x128.Idx) : scatter_S50000x128_S1600000x1_S1600000x128_1_0_0_1.window j 1 = (j 1).val := by
  unfold ScatterDims.window
  rw [dif_pos (by rw [scat2_kept]; exact List.mem_singleton.mpr rfl)]
  show (j ([(1 : Fin 2)][List.idxOf (1 : Fin 2) scatter_S50000x128_S1600000x1_S1600000x128_1_0_0_1.sKept]'_)).val = _
  exact congrArg (fun a : Fin 2 => (j a).val) (List.getElem_singleton _)

theorem scat2_lands (idx : IVec S1600000x1 32) (j : S1600000x128.Idx) (n : Fin 50000) (c : Fin 128) :
    scatter_S50000x128_S1600000x1_S1600000x128_1_0_0_1.resultIdx? j idx = some (ix2 n c) ↔ (idx (col (j 0))).toInt = (n.val : ℤ) ∧ j 1 = c := by
  unfold ScatterDims.resultIdx?
  have h0 := scat2_start0 idx j
  have h1 := scat2_start1 idx j
  have w0 := scat2_window0 j
  have w1 := scat2_window1 j
  have hc := idx2_lt1 j
  split
  · rename_i h
    have r0 := h 0
    rw [h0, w0] at r0
    constructor
    · intro heq
      have heq' := Option.some.inj heq
      have e0 := congrArg (fun f : S50000x128.Idx => (f 0).val) heq'
      have e1 := congrArg (fun f : S50000x128.Idx => (f 1).val) heq'
      simp only [h0, h1, w0, w1] at e0 e1
      refine ⟨?_, Fin.ext ?_⟩
      · change ((idx (col (j 0))).toInt + ((0 : ℕ) : ℤ)).toNat = n.val at e0
        omega
      · change ((0 : ℤ) + ((j 1).val : ℤ)).toNat = c.val at e1
        omega
    · rintro ⟨e0, e1⟩
      congr 1
      funext a
      refine Fin.ext ?_
      match a with
      | ⟨0, _⟩ =>
        show (scatter_S50000x128_S1600000x1_S1600000x128_1_0_0_1.start j idx 0 + (scatter_S50000x128_S1600000x1_S1600000x128_1_0_0_1.window j 0 : ℤ)).toNat = n.val
        rw [h0, w0]; omega
      | ⟨1, _⟩ =>
        show (scatter_S50000x128_S1600000x1_S1600000x128_1_0_0_1.start j idx 1 + (scatter_S50000x128_S1600000x1_S1600000x128_1_0_0_1.window j 1 : ℤ)).toNat = c.val
        rw [h1, w1, ← e1]; omega
  · rename_i h
    constructor
    · intro heq; exact absurd heq (by simp)
    · rintro ⟨e0, e1⟩
      exfalso
      apply h
      intro a
      match a with
      | ⟨0, _⟩ =>
        show 0 ≤ scatter_S50000x128_S1600000x1_S1600000x128_1_0_0_1.start j idx 0 + (scatter_S50000x128_S1600000x1_S1600000x128_1_0_0_1.window j 0 : ℤ)
          ∧ scatter_S50000x128_S1600000x1_S1600000x128_1_0_0_1.start j idx 0 + (scatter_S50000x128_S1600000x1_S1600000x128_1_0_0_1.window j 0 : ℤ) < ((50000 : ℕ) : ℤ)
        rw [h0, w0]; have := n.isLt; omega
      | ⟨1, _⟩ =>
        show 0 ≤ scatter_S50000x128_S1600000x1_S1600000x128_1_0_0_1.start j idx 1 + (scatter_S50000x128_S1600000x1_S1600000x128_1_0_0_1.window j 1 : ℤ)
          ∧ scatter_S50000x128_S1600000x1_S1600000x128_1_0_0_1.start j idx 1 + (scatter_S50000x128_S1600000x1_S1600000x128_1_0_0_1.window j 1 : ℤ) < ((128 : ℕ) : ℤ)
        rw [h1, w1]; omega

theorem scatterEnt_apply (x : S50000x128.Idx → EReal) (idx : IVec S1600000x1 32) (upd : S1600000x128.Idx → EReal)
    (n : Fin 50000) (c : Fin 128) :
    Ideal.hostScatterAdd scatter_S50000x128_S1600000x1_S1600000x128_1_0_0_1 x idx upd (ix2 n c)
      = x (ix2 n c) + ∑ e ∈ Finset.univ.filter (fun e : Fin 1600000 => (idx (col e)).toInt = (n.val : ℤ)), upd (ix2 e c) := by
  unfold Ideal.hostScatterAdd
  refine congrArg (x (ix2 n c) + ·) ?_
  refine Finset.sum_nbij' (fun j => j 0) (fun e => ix2 e c) ?_ ?_ ?_ ?_ ?_
  · intro j hj
    have := (scat2_lands idx j n c).mp (Finset.mem_filter.mp hj).2
    exact Finset.mem_filter.mpr ⟨Finset.mem_univ _, this.1⟩
  · intro e he
    exact Finset.mem_filter.mpr ⟨Finset.mem_univ _,
      (scat2_lands idx (ix2 e c) n c).mpr ⟨(Finset.mem_filter.mp he).2, rfl⟩⟩
  · intro j hj
    have := (scat2_lands idx j n c).mp (Finset.mem_filter.mp hj).2
    rw [← this.2]; exact (eq_ix2 j).symm
  · intro e _; rfl
  · intro j hj
    have := (scat2_lands idx j n c).mp (Finset.mem_filter.mp hj).2
    rw [← this.2]; exact congrArg upd (eq_ix2 j)

theorem scat1_start0 (idx : IVec S1600000x1 32) (j : S1600000.Idx) :
    scatter_S50000_S1600000x1_S1600000_n_0_0_1.start j idx 0 = (idx (col (j 0))).toInt := by
  unfold ScatterDims.start
  rw [dif_pos (show (0 : Fin 1) ∈ scatter_S50000_S1600000x1_S1600000_n_0_0_1.scatterDimsToOperandDims from List.mem_singleton.mpr rfl)]
  have hsi : scatter_S50000_S1600000x1_S1600000_n_0_0_1.siIdx j
      ⟨List.idxOf (0 : Fin 1) scatter_S50000_S1600000x1_S1600000_n_0_0_1.scatterDimsToOperandDims,
        List.idxOf_lt_length_iff.2 (List.mem_singleton.mpr rfl)⟩ = col (j 0) := by
    funext b; refine Fin.ext ?_
    match b with
    | ⟨0, _⟩ => rfl
    | ⟨1, _⟩ => rfl
  rw [hsi]
  rfl

theorem scat1_kept : scatter_S50000_S1600000x1_S1600000_n_0_0_1.sKept = [] :=
  (by decide : S50000.kept [(0 : Fin 1)] = [])

theorem scat1_window0 (j : S1600000.Idx) : scatter_S50000_S1600000x1_S1600000_n_0_0_1.window j 0 = 0 := by
  unfold ScatterDims.window
  rw [dif_neg (by rw [scat1_kept]; exact List.not_mem_nil)]

theorem scat1_lands (idx : IVec S1600000x1 32) (j : S1600000.Idx) (n : Fin 50000) :
    scatter_S50000_S1600000x1_S1600000_n_0_0_1.resultIdx? j idx = some (ix1 n) ↔ (idx (col (j 0))).toInt = (n.val : ℤ) := by
  unfold ScatterDims.resultIdx?
  have h0 := scat1_start0 idx j
  have w0 := scat1_window0 j
  split
  · rename_i h
    have r0 := h 0
    rw [h0, w0] at r0
    constructor
    · intro heq
      have heq' := Option.some.inj heq
      have e0 := congrArg (fun f : S50000.Idx => (f 0).val) heq'
      simp only [h0, w0] at e0
      change ((idx (col (j 0))).toInt + ((0 : ℕ) : ℤ)).toNat = n.val at e0
      omega
    · intro e0
      congr 1
      funext a
      refine Fin.ext ?_
      match a with
      | ⟨0, _⟩ =>
        show (scatter_S50000_S1600000x1_S1600000_n_0_0_1.start j idx 0 + (scatter_S50000_S1600000x1_S1600000_n_0_0_1.window j 0 : ℤ)).toNat = n.val
        rw [h0, w0]; omega
  · rename_i h
    constructor
    · intro heq; exact absurd heq (by simp)
    · intro e0
      exfalso
      apply h
      intro a
      match a with
      | ⟨0, _⟩ =>
        show 0 ≤ scatter_S50000_S1600000x1_S1600000_n_0_0_1.start j idx 0 + (scatter_S50000_S1600000x1_S1600000_n_0_0_1.window j 0 : ℤ)
          ∧ scatter_S50000_S1600000x1_S1600000_n_0_0_1.start j idx 0 + (scatter_S50000_S1600000x1_S1600000_n_0_0_1.window j 0 : ℤ) < ((50000 : ℕ) : ℤ)
        rw [h0, w0]; have := n.isLt; omega

theorem scatterCnt_apply (x : S50000.Idx → EReal) (idx : IVec S1600000x1 32) (upd : S1600000.Idx → EReal) (n : Fin 50000) :
    Ideal.hostScatterAdd scatter_S50000_S1600000x1_S1600000_n_0_0_1 x idx upd (ix1 n)
      = x (ix1 n) + ∑ e ∈ Finset.univ.filter (fun e : Fin 1600000 => (idx (col e)).toInt = (n.val : ℤ)), upd (ix1 e) := by
  unfold Ideal.hostScatterAdd
  refine congrArg (x (ix1 n) + ·) ?_
  refine Finset.sum_nbij' (fun j => j 0) (fun e => ix1 e) ?_ ?_ ?_ ?_ ?_
  · intro j hj
    exact Finset.mem_filter.mpr ⟨Finset.mem_univ _, (scat1_lands idx j n).mp (Finset.mem_filter.mp hj).2⟩
  · intro e he
    exact Finset.mem_filter.mpr ⟨Finset.mem_univ _, (scat1_lands idx (ix1 e) n).mpr (Finset.mem_filter.mp he).2⟩
  · intro j _; exact (eq_ix1 j).symm
  · intro e _; rfl
  · intro j _; exact congrArg upd (eq_ix1 j)

end Cert.RefVal

end
-- ==== Proof.RefSpec.lean ====
import Idealize.ShloMosaic.Lib.ValueIdx
import proofs.«428098_j75917841924563_1_alg».proof.Proof.Spec

noncomputable section

namespace Cert.RefSpec

open Idealize.ShloMosaic Idealize.ShloMosaic.ValueIdx Cert.Spec
open scoped BigOperators

abbrev SMsg : Shape := ⟨2, ![1600000, 128]⟩

def lands (w : BitVec 32) (n : Fin 50000) : Prop := w.toInt = (n.val : ℤ)

instance (w : BitVec 32) (n : Fin 50000) : Decidable (lands w n) := by unfold lands; infer_instance

def head (a1 : SArg1.Idx → BitVec 32) (e : Fin 1600000) : BitVec 32 := a1 (ix2 (0 : Fin 2) e)

def tail (a1 : SArg1.Idx → BitVec 32) (e : Fin 1600000) : BitVec 32 := a1 (ix2 (1 : Fin 2) e)

def refRel (a2 : SArg2.Idx → BitVec 32) (a3 : SArg3.Idx → EReal) : SMsg.Idx → EReal :=
  fun j => a3 (ix2 (relRow (a2 (ix1 (j 0)))) (j 1))

def refDen (a1 : SArg1.Idx → BitVec 32) (n : Fin 50000) : EReal :=
  max (0 + ∑ _e ∈ Finset.univ.filter (fun e : Fin 1600000 => lands (head a1 e) n), (1 : EReal)) 1

def refMsg (a1 : SArg1.Idx → BitVec 32) (rel : SMsg.Idx → EReal) (emb : SArg0.Idx → EReal) : SMsg.Idx → EReal :=
  fun j => emb (ix2 (rowOf (tail a1 (j 0))) (j 1)) * rel j

def refAgg (a1 : SArg1.Idx → BitVec 32) (msg : SMsg.Idx → EReal) (den : Fin 50000 → EReal) (n : Fin 50000) (c : Fin 128) :
    EReal :=
  Ideal.div (0 + ∑ e ∈ Finset.univ.filter (fun e : Fin 1600000 => lands (head a1 e) n), msg (ix2 e c)) (den n)

def refNew (agg : Fin 50000 → Fin 128 → EReal) (n : Fin 50000) (c : Fin 128) : EReal :=
  Ideal.div (agg n c) (max (Ideal.sqrt (0 + ∑ c' : Fin 128, agg n c' * agg n c')) eps)

def refHop (a1 : SArg1.Idx → BitVec 32) (rel : SMsg.Idx → EReal) (den : Fin 50000 → EReal) (emb : SArg0.Idx → EReal) :
    SArg0.Idx → EReal :=
  fun j => refNew (refAgg a1 (refMsg a1 rel emb) den) (j 0) (j 1)

def refResult (a0 : SArg0.Idx → EReal) (a1 : SArg1.Idx → BitVec 32) (a2 : SArg2.Idx → BitVec 32) (a3 : SArg3.Idx → EReal) :
    SArg0.Idx → EReal :=
  fun j =>
    ((a0 j + refHop a1 (refRel a2 a3) (refDen a1) a0 j)
      + refHop a1 (refRel a2 a3) (refDen a1) (refHop a1 (refRel a2 a3) (refDen a1) a0) j)
      + refHop a1 (refRel a2 a3) (refDen a1)
          (refHop a1 (refRel a2 a3) (refDen a1) (refHop a1 (refRel a2 a3) (refDen a1) a0)) j

end Cert.RefSpec

end
-- ==== Proof.RefVal.Hop.lean ====
import proofs.«428098_j75917841924563_1_alg».proof.Proof.RefVal.Prim
import proofs.«428098_j75917841924563_1_alg».proof.Proof.RefSpec

noncomputable section

namespace Cert.RefVal

open Idealize.ShloMosaic Idealize.ShloMosaic.ValueIdx Cert.ReferenceIdeal Cert.ReferenceIdeal.Facts₀ Cert.Spec Cert.RefSpec
open scoped BigOperators

variable [Cert.ReferenceIdeal.Facts]

def aggOf {F : FTy → Type} [FloatOps F] (t h : IVec S1600000x1 32) (rel : FVec F S1600000x128 .f32) (den : FVec F S50000x1 .f32)
    (x : FVec F S50000x128 .f32) : FVec F S50000x128 .f32 :=
  Host.divf (F := F)
    (Host.scatterAdd (F := F) scatter_S50000x128_S1600000x1_S1600000x128_1_0_0_1
      (broadcastInDim S50000x128 ![] bcast_S_S50000x128 (constant (F := F) S_ .f32 0x00000000#32)) h
      (mulf (F := F) (Host.gather gather_S50000x128_S1600000x1_S1600000x128_1_0_n_n_0_1_1128 x t) rel))
    (broadcastInDim S50000x128 ![0, 1] bcast_S50000x1_S50000x128_0_1 den)

def normOf {F : FTy → Type} [FloatOps F] (y : FVec F S50000x128 .f32) : FVec F S50000x128 .f32 :=
  Host.divf (F := F) y (broadcastInDim S50000x128 ![0, 1] bcast_S50000x1_S50000x128_0_1
    (maximumf (F := F)
      (Host.sqrt (F := F) (broadcastInDim S50000x1 ![0] bcast_S50000_S50000x1_0
        (Host.reduceAdd (F := F) (mulf (F := F) y y) (constant (F := F) S_ .f32 0x00000000#32)
          reducesTo_S50000x128_S50000_d1 h_S_)))
      (broadcastInDim S50000x1 ![] bcast_S_S50000x1 (constant (F := F) S_ .f32 0x2B8CBCCC#32))))

theorem bcastCol_apply {α : Type} (v : S50000x1.Idx → α) (n : Fin 50000) (c : Fin 128) :
    broadcastInDim S50000x128 ![0, 1] bcast_S50000x1_S50000x128_0_1 v (ix2 n c) = v (ix2 n (0 : Fin 1)) :=
  broadcastInDim_apply _ bcast_S50000x1_S50000x128_0_1 v (ix2 n c) (ix2 n (0 : Fin 1)) (fun a => match a with
    | ⟨0, _⟩ => by show n.val = if (50000 : Nat) = 1 then 0 else n.val; rw [if_neg (by decide)]
    | ⟨1, _⟩ => by show 0 = if (1 : Nat) = 1 then 0 else c.val; rw [if_pos rfl])

theorem bcastUp_apply {α : Type} (v : S50000.Idx → α) (n : Fin 50000) :
    broadcastInDim S50000x1 ![0] bcast_S50000_S50000x1_0 v (ix2 n (0 : Fin 1)) = v (ix1 n) :=
  broadcastInDim_apply _ bcast_S50000_S50000x1_0 v (ix2 n (0 : Fin 1)) (ix1 n) (fun a => match a with
    | ⟨0, _⟩ => by show n.val = if (50000 : Nat) = 1 then 0 else n.val; rw [if_neg (by decide)])

theorem divf_at (a b : FVec Ideal S50000x128 .f32) (i : S50000x128.Idx) :
    Host.divf (F := Ideal) a b i = Ideal.div (a i) (b i) := rfl

theorem scatterAdd_at (x : FVec Ideal S50000x128 .f32) (idx : IVec S1600000x1 32) (upd : FVec Ideal S1600000x128 .f32) :
    Host.scatterAdd (F := Ideal) scatter_S50000x128_S1600000x1_S1600000x128_1_0_0_1 x idx upd = Ideal.hostScatterAdd scatter_S50000x128_S1600000x1_S1600000x128_1_0_0_1 x idx upd := rfl

theorem aggOf_apply (t h : IVec S1600000x1 32) (rel : FVec Ideal S1600000x128 .f32) (den : FVec Ideal S50000x1 .f32)
    (x : FVec Ideal S50000x128 .f32) (n : Fin 50000) (c : Fin 128) :
    aggOf t h rel den x (ix2 n c)
      = Ideal.div (0 + ∑ e ∈ Finset.univ.filter (fun e : Fin 1600000 => (h (col e)).toInt = (n.val : ℤ)),
          x (ix2 (⟨min (t (col e)).toInt.toNat 49999, by omega⟩ : Fin 50000) c) * rel (ix2 e c))
        (den (ix2 n (0 : Fin 1))) := by
  unfold aggOf
  rw [divf_at, scatterAdd_at, scatterEnt_apply, bcastCol_apply, broadcastInDim_scalar_apply, constant_apply,
    Ideal.ofBits_zero_f32]
  refine congrArg (fun s => Ideal.div (0 + s) (den (ix2 n (0 : Fin 1)))) (Finset.sum_congr rfl fun e _ => ?_)
  rw [mulf_apply, gatherEnt_apply]

theorem sqrt_at (a : FVec Ideal S50000x1 .f32) (i : S50000x1.Idx) : Host.sqrt (F := Ideal) a i = Ideal.sqrt (a i) := rfl

theorem reduce_at (y : FVec Ideal S50000x128 .f32) (init : FVec Ideal S_ .f32) (n : Fin 50000) :
    Host.reduceAdd (F := Ideal) y init reducesTo_S50000x128_S50000_d1 h_S_ (ix1 n)
      = init (Shape.Idx.first h_S_) + ∑ c' : Fin 128, y (ix2 n c') := by
  have hR : S50000x128.Reduces [(1 : Fin 2)] S50000 := by decide
  rw [hostReduceAdd_apply, Ideal.hostReduceAdd_single reducesTo_S50000x128_S50000_d1 hR]
  refine congrArg (_ + ·) (Finset.sum_congr rfl fun k _ => ?_)
  exact congrArg y (funext fun a => Fin.ext (by match a with | ⟨0, _⟩ => rfl | ⟨1, _⟩ => rfl))

theorem normOf_apply (y : FVec Ideal S50000x128 .f32) (n : Fin 50000) (c : Fin 128) :
    normOf y (ix2 n c)
      = Ideal.div (y (ix2 n c)) (max (Ideal.sqrt (0 + ∑ c' : Fin 128, y (ix2 n c') * y (ix2 n c'))) eps) := by
  unfold normOf
  rw [divf_at, bcastCol_apply, maximumf_apply, sqrt_at, bcastUp_apply, reduce_at, broadcastInDim_scalar_apply]
  simp only [constant_apply, mulf_apply, Ideal.ofBits_zero_f32]
  rfl

theorem hop_eq (a1 : SArg1.Idx → BitVec 32) (t h : IVec S1600000x1 32) (rel : FVec Ideal S1600000x128 .f32)
    (den : FVec Ideal S50000x1 .f32) (D : Fin 50000 → EReal) (x : FVec Ideal S50000x128 .f32)
    (ht : ∀ e : Fin 1600000, t (col e) = normIdx 50000 (tail a1 e))
    (hh : ∀ e : Fin 1600000, h (col e) = head a1 e)
    (hden : ∀ n : Fin 50000, den (ix2 n (0 : Fin 1)) = D n) :
    normOf (aggOf t h rel den x) = refHop a1 rel D x := by
  funext j
  obtain ⟨n, c, rfl⟩ : ∃ (n : Fin 50000) (c : Fin 128), j = ix2 n c := ⟨j 0, j 1, eq_ix2 j⟩
  have hagg : ∀ c' : Fin 128, aggOf t h rel den x (ix2 n c') = refAgg a1 (refMsg a1 rel x) D n c' := by
    intro c'
    rw [aggOf_apply, hden]
    unfold refAgg
    refine congrArg (fun s => Ideal.div (0 + s) (D n)) ?_
    refine Finset.sum_congr (Finset.filter_congr fun e _ => by rw [hh e]; exact Iff.rfl) (fun e _ => ?_)
    have hr : (⟨min (t (col e)).toInt.toNat 49999, by omega⟩ : Fin 50000) = rowOf (tail a1 e) :=
      Fin.ext (by
        show min (t (col e)).toInt.toNat 49999 = min (normIdx 50000 (tail a1 e)).toInt.toNat (50000 - 1)
        rw [ht e])
    rw [hr]
    rfl
  rw [normOf_apply]
  simp only [hagg]
  rfl

def upCol (w : IVec S1600000 32) : IVec S1600000x1 32 :=
  broadcastInDim S1600000x1 ![0] bcast_S1600000_S1600000x1_0 w

def wrapCol (N : ℕ) (w : IVec S1600000 32) : IVec S1600000x1 32 :=
  upCol (select (cmpi .slt w (broadcastInDim S1600000 ![] bcast_S_S1600000 (constantI S_ 32 0#32)))
    (addi w (broadcastInDim S1600000 ![] bcast_S_S1600000 (constantI S_ 32 (BitVec.ofNat 32 N)))) w)

theorem upCol_apply (w : IVec S1600000 32) (e : Fin 1600000) : upCol w (col e) = w (ix1 e) :=
  broadcastInDim_apply _ bcast_S1600000_S1600000x1_0 w (col e) (ix1 e) (fun a => match a with
    | ⟨0, _⟩ => by show e.val = if (1600000 : Nat) = 1 then 0 else e.val; rw [if_neg (by decide)])

theorem select_norm (N : ℕ) (w : BitVec 32) :
    Scalar.select (IntOp.cmpi .slt w 0#32) (IntOp.addi w (BitVec.ofNat 32 N)) w = normIdx N w := by
  unfold Scalar.select IntOp.cmpi IntOp.addi normIdx
  cases hs : w.slt 0#32 <;> simp [hs]

theorem cmpi_at (p : CmpIPredicate) (a b : IVec S1600000 32) (i : S1600000.Idx) : cmpi p a b i = IntOp.cmpi p (a i) (b i) := rfl
theorem addi_at (a b : IVec S1600000 32) (i : S1600000.Idx) : addi a b i = IntOp.addi (a i) (b i) := rfl
theorem constantI_at (b : BitVec 32) (i : S_.Idx) : constantI S_ 32 b i = b := rfl

theorem wrapCol_apply (N : ℕ) (w : IVec S1600000 32) (e : Fin 1600000) :
    wrapCol N w (col e) = normIdx N (w (ix1 e)) := by
  unfold wrapCol
  rw [upCol_apply, select_apply, cmpi_at, addi_at, broadcastInDim_scalar_apply, broadcastInDim_scalar_apply,
    constantI_at, constantI_at]
  exact select_norm N _

theorem rel_eq (a2 : SArg2.Idx → BitVec 32) (a3 : SArg3.Idx → EReal) (t : IVec S1600000x1 32)
    (ht : ∀ e : Fin 1600000, t (col e) = normIdx 10 (a2 (ix1 e) - 1#32)) :
    Host.gather gather_S10x128_S1600000x1_S1600000x128_1_0_n_n_0_1_1128 a3 t = refRel a2 a3 := by
  funext j
  obtain ⟨e, c, rfl⟩ : ∃ (e : Fin 1600000) (c : Fin 128), j = ix2 e c := ⟨j 0, j 1, eq_ix2 j⟩
  rw [gatherRel_apply]
  have hr : (⟨min (t (col e)).toInt.toNat 9, by omega⟩ : Fin 10) = relRow (a2 (ix1 e)) :=
    Fin.ext (by
      show min (t (col e)).toInt.toNat 9 = min (normIdx 10 (a2 (ix1 e) - 1#32)).toInt.toNat (10 - 1)
      rw [ht e])
  rw [hr]
  rfl

def denOf {F : FTy → Type} [FloatOps F] (h : IVec S1600000x1 32) : FVec F S50000x1 .f32 :=
  broadcastInDim S50000x1 ![0] bcast_S50000_S50000x1_0
    (maximumf (F := F)
      (Host.scatterAdd (F := F) scatter_S50000_S1600000x1_S1600000_n_0_0_1
        (broadcastInDim S50000 ![] bcast_S_S50000 (constant (F := F) S_ .f32 0x00000000#32)) h
        (broadcastInDim S1600000 ![] bcast_S_S1600000 (constant (F := F) S_ .f32 0x3F800000#32)))
      (broadcastInDim S50000 ![] bcast_S_S50000 (constant (F := F) S_ .f32 0x3F800000#32)))

theorem scatterAdd1_at (x : FVec Ideal S50000 .f32) (idx : IVec S1600000x1 32) (upd : FVec Ideal S1600000 .f32) :
    Host.scatterAdd (F := Ideal) scatter_S50000_S1600000x1_S1600000_n_0_0_1 x idx upd = Ideal.hostScatterAdd scatter_S50000_S1600000x1_S1600000_n_0_0_1 x idx upd := rfl

theorem denOf_apply (a1 : SArg1.Idx → BitVec 32) (h : IVec S1600000x1 32)
    (hh : ∀ e : Fin 1600000, h (col e) = head a1 e) (n : Fin 50000) :
    denOf (F := Ideal) h (ix2 n (0 : Fin 1)) = refDen a1 n := by
  unfold denOf
  rw [bcastUp_apply, maximumf_apply, scatterAdd1_at, scatterCnt_apply, broadcastInDim_scalar_apply,
    broadcastInDim_scalar_apply, constant_apply, constant_apply, Ideal.ofBits_zero_f32, Ideal.ofBits_one_f32]
  unfold refDen
  refine congrArg (fun s => max (0 + s) 1) ?_
  refine Finset.sum_congr (Finset.filter_congr fun e _ => by rw [hh e]; exact Iff.rfl) (fun e _ => ?_)
  rw [broadcastInDim_scalar_apply, constant_apply, Ideal.ofBits_one_f32]

end Cert.RefVal

end
-- ==== Proof.RefRun.lean ====
import proofs.«428098_j75917841924563_1_alg».proof.Proof.RefVal.Hop
import proofs.«428098_j75917841924563_1_alg».proof.Proof.Gen.ReferenceIdeal
import Idealize.ShloMosaic.Lib.StableHlo.Run

noncomputable section

namespace Cert.RefVal

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 1#32),
    unary main_c main_v4 (broadcastInDim S1600000 ![] bcast_S_S1600000 : (⟨S_, .i32⟩ : BufTy).Contents (Elt F) → (⟨S1600000, .i32⟩ : BufTy).Contents (Elt F)),
    binary main_arg2 main_v4 main_v5 (subi : (⟨S1600000, .i32⟩ : BufTy).Contents (Elt F) → (⟨S1600000, .i32⟩ : BufTy).Contents (Elt F) → (⟨S1600000, .i32⟩ : BufTy).Contents (Elt F)),
    nullary main_c_0 (constantI S_ 32 0#32),
    unary main_c_0 main_v6 (broadcastInDim S1600000 ![] bcast_S_S1600000 : (⟨S_, .i32⟩ : BufTy).Contents (Elt F) → (⟨S1600000, .i32⟩ : BufTy).Contents (Elt F)),
    binary main_v5 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 10#32),
    unary main_c_1 main_v8 (broadcastInDim S1600000 ![] bcast_S_S1600000 : (⟨S_, .i32⟩ : BufTy).Contents (Elt F) → (⟨S1600000, .i32⟩ : BufTy).Contents (Elt F)),
    binary main_v5 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v5 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_arg3 main_v11 main_v12 ((fun x i => Host.gather gather_S10x128_S1600000x1_S1600000x128_1_0_n_n_0_1_1128 x i) : (⟨S10x128, .f32⟩ : BufTy).Contents (Elt F) → (⟨S1600000x1, .i32⟩ : BufTy).Contents (Elt F) → (⟨S1600000x128, .f32⟩ : BufTy).Contents (Elt F)),
    nullary main_cst (constant S_ .f32 0x3F800000#32),
    unary main_cst main_v13 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v14 (broadcastInDim S50000 ![] bcast_S_S50000 : (⟨S_, .f32⟩ : BufTy).Contents (Elt F) → (⟨S50000, .f32⟩ : BufTy).Contents (Elt F)),
    unary main_v1 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_3 (constant S_ .f32 0x3F800000#32),
    unary main_cst_3 main_v17 (broadcastInDim S50000 ![] bcast_S_S50000 : (⟨S_, .f32⟩ : BufTy).Contents (Elt F) → (⟨S50000, .f32⟩ : BufTy).Contents (Elt F)),
    binary main_v16 main_v17 main_v18 (maximumf : (⟨S50000, .f32⟩ : BufTy).Contents (Elt F) → (⟨S50000, .f32⟩ : BufTy).Contents (Elt F) → (⟨S50000, .f32⟩ : BufTy).Contents (Elt F)),
    unary main_v18 main_v19 (broadcastInDim S50000x1 ![0] bcast_S50000_S50000x1_0 : (⟨S50000, .f32⟩ : BufTy).Contents (Elt F) → (⟨S50000x1, .f32⟩ : BufTy).Contents (Elt F)),
    nullary main_c_4 (constantI S_ 32 0#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 50000#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v3 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_arg0 main_v25 main_v26 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    binary main_v26 main_v12 main_v27 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v28 (broadcastInDim S50000x128 ![] bcast_S_S50000x128 : (⟨S_, .f32⟩ : BufTy).Contents (Elt F) → (⟨S50000x128, .f32⟩ : BufTy).Contents (Elt F)),
    unary main_v1 main_v29 (broadcastInDim S1600000x1 ![0] bcast_S1600000_S1600000x1_0 : (⟨S1600000, .i32⟩ : BufTy).Contents (Elt F) → (⟨S1600000x1, .i32⟩ : BufTy).Contents (Elt F)),
    ternary main_v28 main_v29 main_v27 main_v30 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v19 main_v31 (broadcastInDim S50000x128 ![0, 1] bcast_S50000x1_S50000x128_0_1 : (⟨S50000x1, .f32⟩ : BufTy).Contents (Elt F) → (⟨S50000x128, .f32⟩ : BufTy).Contents (Elt F)),
    binary main_v30 main_v31 main_v32 (Host.divf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v32) (TRef.of (T := ⟨S50000x128, .f32⟩) main_v32) (TRef.of (T := ⟨S50000x128, .f32⟩) main_call0_v0) mulf,
    TRef.nullary (TRef.of (T := ⟨S_, .f32⟩) main_call0_cst) (constant S_ .f32 0x00000000#32),
    TRef.binary (TRef.of (T := ⟨S50000x128, .f32⟩) main_call0_v0) (TRef.of (T := ⟨S_, .f32⟩) main_call0_cst) (TRef.of (T := ⟨S50000, .f32⟩) main_call0_v1) (fun x v => Host.reduceAdd x v reducesTo_S50000x128_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v33) Host.sqrt,
    nullary main_cst_7 (constant S_ .f32 0x2B8CBCCC#32),
    unary main_cst_7 main_v34 (broadcastInDim S50000x1 ![] bcast_S_S50000x1 : (⟨S_, .f32⟩ : BufTy).Contents (Elt F) → (⟨S50000x1, .f32⟩ : BufTy).Contents (Elt F)),
    binary main_v33 main_v34 main_v35 (maximumf : (⟨S50000x1, .f32⟩ : BufTy).Contents (Elt F) → (⟨S50000x1, .f32⟩ : BufTy).Contents (Elt F) → (⟨S50000x1, .f32⟩ : BufTy).Contents (Elt F)),
    unary main_v35 main_v36 (broadcastInDim S50000x128 ![0, 1] bcast_S50000x1_S50000x128_0_1 : (⟨S50000x1, .f32⟩ : BufTy).Contents (Elt F) → (⟨S50000x128, .f32⟩ : BufTy).Contents (Elt F)),
    binary main_v32 main_v36 main_v37 (Host.divf : (⟨S50000x128, .f32⟩ : BufTy).Contents (Elt F) → (⟨S50000x128, .f32⟩ : BufTy).Contents (Elt F) → (⟨S50000x128, .f32⟩ : BufTy).Contents (Elt F)),
    binary main_arg0 main_v37 main_v38 (addf : (⟨S50000x128, .f32⟩ : BufTy).Contents (Elt F) → (⟨S50000x128, .f32⟩ : BufTy).Contents (Elt F) → (⟨S50000x128, .f32⟩ : BufTy).Contents (Elt F)),
    nullary main_c_8 (constantI S_ 32 0#32),
    unary main_c_8 main_v39 (broadcastInDim S1600000 ![] bcast_S_S1600000 : (⟨S_, .i32⟩ : BufTy).Contents (Elt F) → (⟨S1600000, .i32⟩ : BufTy).Contents (Elt F)),
    binary main_v3 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 50000#32),
    unary main_c_9 main_v41 (broadcastInDim S1600000 ![] bcast_S_S1600000 : (⟨S_, .i32⟩ : BufTy).Contents (Elt F) → (⟨S1600000, .i32⟩ : BufTy).Contents (Elt F)),
    binary main_v3 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_v3 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_v37 main_v44 main_v45 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    binary main_v45 main_v12 main_v46 (mulf : (⟨S1600000x128, .f32⟩ : BufTy).Contents (Elt F) → (⟨S1600000x128, .f32⟩ : BufTy).Contents (Elt F) → (⟨S1600000x128, .f32⟩ : BufTy).Contents (Elt F)),
    nullary main_cst_10 (constant S_ .f32 0x00000000#32),
    unary main_cst_10 main_v47 (broadcastInDim S50000x128 ![] bcast_S_S50000x128 : (⟨S_, .f32⟩ : BufTy).Contents (Elt F) → (⟨S50000x128, .f32⟩ : BufTy).Contents (Elt F)),
    unary main_v1 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v19 main_v50 (broadcastInDim S50000x128 ![0, 1] bcast_S50000x1_S50000x128_0_1 : (⟨S50000x1, .f32⟩ : BufTy).Contents (Elt F) → (⟨S50000x128, .f32⟩ : BufTy).Contents (Elt F)),
    binary main_v49 main_v50 main_v51 (Host.divf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v51) (TRef.of (T := ⟨S50000x128, .f32⟩) main_v51) (TRef.of (T := ⟨S50000x128, .f32⟩) main_call1_v0) mulf,
    TRef.nullary (TRef.of (T := ⟨S_, .f32⟩) main_call1_cst) (constant S_ .f32 0x00000000#32),
    TRef.binary (TRef.of (T := ⟨S50000x128, .f32⟩) main_call1_v0) (TRef.of (T := ⟨S_, .f32⟩) main_call1_cst) (TRef.of (T := ⟨S50000, .f32⟩) main_call1_v1) (fun x v => Host.reduceAdd x v reducesTo_S50000x128_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v52) Host.sqrt,
    nullary main_cst_11 (constant S_ .f32 0x2B8CBCCC#32),
    unary main_cst_11 main_v53 (broadcastInDim S50000x1 ![] bcast_S_S50000x1 : (⟨S_, .f32⟩ : BufTy).Contents (Elt F) → (⟨S50000x1, .f32⟩ : BufTy).Contents (Elt F)),
    binary main_v52 main_v53 main_v54 (maximumf : (⟨S50000x1, .f32⟩ : BufTy).Contents (Elt F) → (⟨S50000x1, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v51 main_v55 main_v56 (Host.divf : (⟨S50000x128, .f32⟩ : BufTy).Contents (Elt F) → (⟨S50000x128, .f32⟩ : BufTy).Contents (Elt F) → (⟨S50000x128, .f32⟩ : BufTy).Contents (Elt F)),
    binary main_v38 main_v56 main_v57 (addf : (⟨S50000x128, .f32⟩ : BufTy).Contents (Elt F) → (⟨S50000x128, .f32⟩ : BufTy).Contents (Elt F) → (⟨S50000x128, .f32⟩ : BufTy).Contents (Elt F)),
    nullary main_c_12 (constantI S_ 32 0#32),
    unary main_c_12 main_v58 (broadcastInDim S1600000 ![] bcast_S_S1600000 : (⟨S_, .i32⟩ : BufTy).Contents (Elt F) → (⟨S1600000, .i32⟩ : BufTy).Contents (Elt F)),
    binary main_v3 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 50000#32),
    unary main_c_13 main_v60 (broadcastInDim S1600000 ![] bcast_S_S1600000 : (⟨S_, .i32⟩ : BufTy).Contents (Elt F) → (⟨S1600000, .i32⟩ : BufTy).Contents (Elt F)),
    binary main_v3 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_v3 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v56 main_v63 main_v64 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    binary main_v64 main_v12 main_v65 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v66 (broadcastInDim S50000x128 ![] bcast_S_S50000x128 : (⟨S_, .f32⟩ : BufTy).Contents (Elt F) → (⟨S50000x128, .f32⟩ : BufTy).Contents (Elt F)),
    unary main_v1 main_v67 (broadcastInDim S1600000x1 ![0] bcast_S1600000_S1600000x1_0 : (⟨S1600000, .i32⟩ : BufTy).Contents (Elt F) → (⟨S1600000x1, .i32⟩ : BufTy).Contents (Elt F)),
    ternary main_v66 main_v67 main_v65 main_v68 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_v19 main_v69 (broadcastInDim S50000x128 ![0, 1] bcast_S50000x1_S50000x128_0_1 : (⟨S50000x1, .f32⟩ : BufTy).Contents (Elt F) → (⟨S50000x128, .f32⟩ : BufTy).Contents (Elt F)),
    binary main_v68 main_v69 main_v70 (Host.divf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v70) (TRef.of (T := ⟨S50000x128, .f32⟩) main_v70) (TRef.of (T := ⟨S50000x128, .f32⟩) main_call2_v0) mulf,
    TRef.nullary (TRef.of (T := ⟨S_, .f32⟩) main_call2_cst) (constant S_ .f32 0x00000000#32),
    TRef.binary (TRef.of (T := ⟨S50000x128, .f32⟩) main_call2_v0) (TRef.of (T := ⟨S_, .f32⟩) main_call2_cst) (TRef.of (T := ⟨S50000, .f32⟩) main_call2_v1) (fun x v => Host.reduceAdd x v reducesTo_S50000x128_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v71) Host.sqrt,
    nullary main_cst_15 (constant S_ .f32 0x2B8CBCCC#32),
    unary main_cst_15 main_v72 (broadcastInDim S50000x1 ![] bcast_S_S50000x1 : (⟨S_, .f32⟩ : BufTy).Contents (Elt F) → (⟨S50000x1, .f32⟩ : BufTy).Contents (Elt F)),
    binary main_v71 main_v72 main_v73 (maximumf : (⟨S50000x1, .f32⟩ : BufTy).Contents (Elt F) → (⟨S50000x1, .f32⟩ : BufTy).Contents (Elt F) → (⟨S50000x1, .f32⟩ : BufTy).Contents (Elt F)),
    unary main_v73 main_v74 (broadcastInDim S50000x128 ![0, 1] bcast_S50000x1_S50000x128_0_1 : (⟨S50000x1, .f32⟩ : BufTy).Contents (Elt F) → (⟨S50000x128, .f32⟩ : BufTy).Contents (Elt F)),
    binary main_v70 main_v74 main_v75 (Host.divf : (⟨S50000x128, .f32⟩ : BufTy).Contents (Elt F) → (⟨S50000x128, .f32⟩ : BufTy).Contents (Elt F) → (⟨S50000x128, .f32⟩ : BufTy).Contents (Elt F)),
    binary main_v57 main_v75 main_v76 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub ..⟩

/-- Row r of the endpoint array, as the program slices and flattens it. -/
def rowVec (r : ℕ) (h : S2x1600000.Slices ![r, 0] S1x1600000) (a1 : IVec S2x1600000 32) : IVec S1600000 32 :=
  shapeCast _ (extractStridedSlice S1x1600000 ![r, 0] a1 h) shapeCasts_S1x1600000_S1600000

abbrev headVec (a1 : IVec S2x1600000 32) : IVec S1600000 32 := rowVec 0 slices_S2x1600000_S1x1600000_0_0 a1
abbrev tailVec (a1 : IVec S2x1600000 32) : IVec S1600000 32 := rowVec 1 slices_S2x1600000_S1x1600000_1_0 a1

def relOf (a2 : IVec S1600000 32) (a3 : FVec F S10x128 .f32) : FVec F S1600000x128 .f32 :=
  Host.gather gather_S10x128_S1600000x1_S1600000x128_1_0_n_n_0_1_1128 a3
    (wrapCol 10 (subi a2 (broadcastInDim S1600000 ![] bcast_S_S1600000 (constantI S_ 32 1#32))))

/-- One hop as printed: every hop reads the same tail, head, relation and in-degree columns. -/
def hopOf (a1 : IVec S2x1600000 32) (rel : FVec F S1600000x128 .f32) (x : FVec F S50000x128 .f32) : FVec F S50000x128 .f32 :=
  normOf (aggOf (wrapCol 50000 (tailVec a1)) (upCol (headVec a1)) rel (denOf (upCol (headVec a1))) x)

/-- The program's result: the input plus the three successive hops, added in order. -/
def resOf (a0 : FVec F S50000x128 .f32) (a1 : IVec S2x1600000 32) (a2 : IVec S1600000 32) (a3 : FVec F S10x128 .f32) :
    FVec F S50000x128 .f32 :=
  addf (addf (addf a0 (hopOf a1 (relOf a2 a3) a0)) (hopOf a1 (relOf a2 a3) (hopOf a1 (relOf a2 a3) a0)))
    (hopOf a1 (relOf a2 a3) (hopOf a1 (relOf a2 a3) (hopOf a1 (relOf a2 a3) a0)))

set_option maxRecDepth 8192 in
set_option maxHeartbeats 40000000 in
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = resOf (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v76).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RefVal

end
-- ==== Proof.RefVal.lean ====
import proofs.«428098_j75917841924563_1_alg».proof.Proof.RefRun
import Idealize.ShloMosaic.Lib.Pipeline.Value

noncomputable section

namespace Cert.RefVal

open Idealize.ShloMosaic Idealize.ShloMosaic.ValueIdx Idealize.ShloMosaic.TcCoe Idealize.SL.Sem
open Cert.ReferenceIdeal Cert.ReferenceIdeal.Gen Cert.Spec Cert.RefSpec
open scoped BigOperators

section Stages

variable (a0 : SArg0.Idx → EReal) (a1 : SArg1.Idx → BitVec 32) (a2 : SArg2.Idx → BitVec 32) (a3 : SArg3.Idx → EReal)

/-- Slicing row r out and flattening it reads the array at (r, e). -/
theorem rowVec_apply (r : Fin 2) (h : S2x1600000.Slices ![r.val, 0] S1x1600000) (e : Fin 1600000) :
    rowVec r.val h a1 (ix1 e) = a1 (ix2 r e) :=
  (shapeCast_apply _ shapeCasts_S1x1600000_S1600000 (ix1 e) (ix2 (0 : Fin 1) e)
      (by rewrite [Shape.rowMajor_val_two, Shape.rowMajor_val_one]; show 0 * 1600000 + e.val = e.val; omega)).trans
    (extractStridedSlice_apply ![r.val, 0] a1 h (ix2 (0 : Fin 1) e) (ix2 r e) fun a => match a with
      | ⟨0, _⟩ => rfl
      | ⟨1, _⟩ => (Nat.zero_add _).symm)

theorem typeRow (e : Fin 1600000) :
    subi a2 (broadcastInDim S1600000 ![] bcast_S_S1600000 (constantI S_ 32 1#32)) (ix1 e) = a2 (ix1 e) - 1#32 := by
  rw [show ∀ x y : IVec S1600000 32, subi x y (ix1 e) = IntOp.subi (x (ix1 e)) (y (ix1 e)) from fun _ _ => rfl,
    broadcastInDim_scalar_apply, constantI_at]
  rfl

theorem relOf_eq : relOf (F := Ideal) a2 a3 = refRel a2 a3 :=
  rel_eq a2 a3 _ fun e => by rw [wrapCol_apply, typeRow]

/-- The printed hop is the specification's, whatever the relation rows and the table it is applied to. -/
theorem hopOf_eq (rel : SMsg.Idx → EReal) (x : SArg0.Idx → EReal) :
    hopOf (F := Ideal) a1 rel x = refHop a1 rel (refDen a1) x :=
  hop_eq a1 _ _ rel _ (refDen a1) x (fun e => by rw [wrapCol_apply]; exact congrArg (normIdx 50000) (rowVec_apply a1 1 _ e))
    (fun e => by rw [upCol_apply]; exact rowVec_apply a1 0 _ e)
    (denOf_apply a1 _ fun e => by rw [upCol_apply]; exact rowVec_apply a1 0 _ e)

theorem result_eq : resOf (F := Ideal) a0 a1 a2 a3 = refResult a0 a1 a2 a3 := by
  unfold resOf
  rw [relOf_eq]
  simp only [hopOf_eq]
  rfl

end Stages

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76)
          = refResult (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq _ _ _ _), (h c).2⟩) (run_res (F := Ideal) m ρ)

end Cert.RefVal

end
-- ==== Proof.Bridge.Words.lean ====
import Idealize.ShloMosaic.Lib.ValueIdx

noncomputable section

namespace Cert.Bridge

open scoped BigOperators

theorem toInt_eq_toNat_of_nonneg (w : BitVec 32) (h : 0 ≤ w.toInt) : w.toInt = (w.toNat : ℤ) := by
  have hlt := w.isLt
  rw [BitVec.toInt_eq_toNat_cond] at h ⊢
  split_ifs at h ⊢ with hc
  · rfl
  · omega

theorem ofNat_eq_iff_toNat (n : ℕ) (hn : n < 2 ^ 32) (w : BitVec 32) :
    BitVec.ofNat 32 n = w ↔ n = w.toNat := by
  constructor
  · rintro rfl
    rw [BitVec.toNat_ofNat, Nat.mod_eq_of_lt hn]
  · intro h
    apply BitVec.eq_of_toNat_eq
    rw [BitVec.toNat_ofNat, Nat.mod_eq_of_lt hn, h]

theorem ofNat_eq_iff_toInt (n : ℕ) (hn : n < 2 ^ 31) (w : BitVec 32) :
    BitVec.ofNat 32 n = w ↔ w.toInt = (n : ℤ) := by
  rw [ofNat_eq_iff_toNat n (by omega) w]
  constructor
  · intro h
    rw [BitVec.toInt_eq_toNat_of_lt (by omega)]
    omega
  · intro h
    have := toInt_eq_toNat_of_nonneg w (by omega)
    omega

theorem sum_hot_eq {N : ℕ} (hN : N ≤ 2 ^ 32) (w : BitVec 32) (t : Fin N) (ht : w.toNat = t.val)
    (f : Fin N → EReal) :
    ∑ n : Fin N, (if BitVec.ofNat 32 n.val = w then (1 : EReal) else 0) * f n = f t := by
  rw [Finset.sum_eq_single t]
  · rw [if_pos ((ofNat_eq_iff_toNat _ (by have := t.isLt; omega) w).2 ht.symm), one_mul]
  · intro n _ hne
    rw [if_neg, zero_mul]
    intro h
    apply hne
    apply Fin.ext
    have := (ofNat_eq_iff_toNat _ (by have := n.isLt; omega) w).1 h
    omega
  · intro h
    exact absurd (Finset.mem_univ t) h

theorem sum_ite_one_mul {ι : Type*} (s : Finset ι) (P : ι → Prop) [DecidablePred P] (g : ι → EReal) :
    ∑ e ∈ s, (if P e then (1 : EReal) else 0) * g e = ∑ e ∈ s.filter P, g e := by
  rw [Finset.sum_filter]
  refine Finset.sum_congr rfl (fun e _ => ?_)
  by_cases hp : P e
  · rw [if_pos hp, if_pos hp, one_mul]
  · rw [if_neg hp, if_neg hp, zero_mul]

theorem sum_filter_pad {M : Type*} [AddCommMonoid M] {m n : ℕ} (h : m ≤ n)
    (P : Fin n → Prop) [DecidablePred P] (Q : Fin m → Prop) [DecidablePred Q]
    (hpad : ∀ e : Fin n, m ≤ e.val → ¬ P e) (hPQ : ∀ e : Fin m, Q e ↔ P (Fin.castLE h e))
    (g : Fin n → M) (g' : Fin m → M) (hg : ∀ e : Fin m, Q e → g' e = g (Fin.castLE h e)) :
    ∑ e ∈ Finset.univ.filter P, g e = ∑ e ∈ Finset.univ.filter Q, g' e := by
  symm
  refine Finset.sum_bij (fun e _ => Fin.castLE h e) ?_ ?_ ?_ ?_
  · intro e he
    rw [Finset.mem_filter] at he ⊢
    exact ⟨Finset.mem_univ _, (hPQ e).1 he.2⟩
  · intro a _ b _ hab
    have hv : (Fin.castLE h a).val = (Fin.castLE h b).val := congrArg Fin.val hab
    exact Fin.ext hv
  · intro b hb
    rw [Finset.mem_filter] at hb
    have hbm : b.val < m := by
      by_contra hc
      exact hpad b (by omega) hb.2
    refine ⟨⟨b.val, hbm⟩, ?_, rfl⟩
    rw [Finset.mem_filter]
    exact ⟨Finset.mem_univ _, (hPQ _).2 hb.2⟩
  · intro e he
    rw [Finset.mem_filter] at he
    exact hg e he.2

theorem sum_hot_pad {m n : ℕ} (h : m ≤ n) (k : ℕ) (hk : k < 2 ^ 31) (hw : Fin n → BitVec 32)
    (hpad : ∀ e : Fin n, m ≤ e.val → ¬ (hw e).toInt = (k : ℤ))
    (Q : Fin m → Prop) [DecidablePred Q] (hQ : ∀ e : Fin m, Q e ↔ (hw (Fin.castLE h e)).toInt = (k : ℤ))
    (g : Fin n → EReal) (g' : Fin m → EReal) (hg : ∀ e : Fin m, Q e → g' e = g (Fin.castLE h e)) :
    ∑ e : Fin n, (if BitVec.ofNat 32 k = hw e then (1 : EReal) else 0) * g e
      = ∑ e ∈ Finset.univ.filter Q, g' e := by
  have h1 : ∀ e : Fin n, (if BitVec.ofNat 32 k = hw e then (1 : EReal) else 0)
      = if (hw e).toInt = (k : ℤ) then (1 : EReal) else 0 :=
    fun e => if_congr (ofNat_eq_iff_toInt k hk (hw e)) rfl rfl
  rw [Finset.sum_congr rfl (fun e _ => by rw [h1 e]), sum_ite_one_mul]
  exact sum_filter_pad h _ Q hpad hQ g g' hg

end Cert.Bridge

end
-- ==== Proof.Bridge.lean ====
import proofs.«428098_j75917841924563_1_alg».proof.Proof.Spec
import proofs.«428098_j75917841924563_1_alg».proof.Proof.RefSpec
import proofs.«428098_j75917841924563_1_alg».proof.Proof.Bridge.Words

noncomputable section

namespace Cert.Bridge

open Idealize.ShloMosaic Idealize.ShloMosaic.ValueIdx Cert.Spec Cert.RefSpec
open scoped BigOperators

abbrev padE (e : Fin 1600000) : Fin 1601536 := Fin.castLE (by omega) e

theorem top_embP (a0 : SArg0.Idx → EReal) : top (embP a0) = a0 := by
  funext j
  have h : (j 0).val < 50000 := idx2_lt0 j
  show (if h : (j 0).val < 50000 then a0 (ix2 (⟨(j 0).val, h⟩ : Fin 50000) (j 1)) else 0) = a0 j
  rw [dif_pos h]
  exact (congrArg a0 (eq_ix2 j)).symm

theorem tailP_pad (a1 : SArg1.Idx → BitVec 32) (e : Fin 1600000) :
    tailP a1 (ix2 (0 : Fin 1) (padE e)) = tail a1 e := by
  have h : (padE e).val < 1600000 := e.isLt
  show (if h : (padE e).val < 1600000 then a1 (ix2 (1 : Fin 2) (⟨(padE e).val, h⟩ : Fin 1600000)) else 0#32)
    = a1 (ix2 (1 : Fin 2) e)
  rw [dif_pos h]
  rfl

theorem headP_pad (a1 : SArg1.Idx → BitVec 32) (e : Fin 1600000) :
    headP a1 (ix2 (0 : Fin 1) (padE e)) = head a1 e := by
  have h : (padE e).val < 1600000 := e.isLt
  show (if h : (padE e).val < 1600000 then a1 (ix2 (0 : Fin 2) (⟨(padE e).val, h⟩ : Fin 1600000)) else 51199#32)
    = a1 (ix2 (0 : Fin 2) e)
  rw [dif_pos h]
  rfl

theorem headP_padding (a1 : SArg1.Idx → BitVec 32) (e : Fin 1601536) (he : 1600000 ≤ e.val) :
    headP a1 (ix2 (0 : Fin 1) e) = 51199#32 := by
  have h : ¬ e.val < 1600000 := by omega
  show (if h : e.val < 1600000 then a1 (ix2 (0 : Fin 2) (⟨e.val, h⟩ : Fin 1600000)) else 51199#32) = 51199#32
  rw [dif_neg h]

theorem typeP_pad (a2 : SArg2.Idx → BitVec 32) (e : Fin 1600000) : typeP a2 (padE e) = a2 (ix1 e) := by
  have h : (padE e).val < 1600000 := e.isLt
  show (if h : (padE e).val < 1600000 then a2 (ix1 (⟨(padE e).val, h⟩ : Fin 1600000)) else 1#32) = a2 (ix1 e)
  rw [dif_pos h]
  rfl

theorem toInt_51199 : (51199#32 : BitVec 32).toInt = 51199 := by decide

theorem rowOf_val (w : BitVec 32) (h0 : 0 ≤ w.toInt) (h1 : w.toInt < 50000) : (rowOf w).val = w.toNat := by
  have hw := toInt_eq_toNat_of_nonneg w h0
  have hn : normIdx 50000 w = w := by
    unfold normIdx
    rw [if_neg]
    rw [BitVec.slt_eq_decide, BitVec.toInt_zero, decide_eq_true_eq]
    omega
  show min (normIdx 50000 w).toInt.toNat (50000 - 1) = w.toNat
  rw [hn]
  omega

theorem gather_pad (a1 : SArg1.Idx → BitVec 32) (a2 : SArg2.Idx → BitVec 32) (a3 : SArg3.Idx → EReal)
    (htail : ∀ e : Fin 1600000, 0 ≤ (tail a1 e).toInt ∧ (tail a1 e).toInt < 50000)
    (emb : SEnt.Idx → EReal) (e : Fin 1600000) (c : Fin 128) :
    gatherStep (tailP a1) emb (relP a2 a3) (ix2 (padE e) c)
      = refMsg a1 (refRel a2 a3) (top emb) (ix2 e c) := by
  obtain ⟨h0, h1⟩ := htail e
  have hrow := rowOf_val _ h0 h1
  have hlt : (rowOf (tail a1 e)).val < 51200 := by have := (rowOf (tail a1 e)).isLt; omega
  show (∑ n : Fin 51200, hot n.val (tailP a1 (ix2 (0 : Fin 1) (padE e))) * emb (ix2 n c))
        * a3 (ix2 (relRow (typeP a2 (padE e))) c)
     = emb (ix2 (⟨(rowOf (tail a1 e)).val, hlt⟩ : Fin 51200) c) * a3 (ix2 (relRow (a2 (ix1 e))) c)
  rw [tailP_pad, typeP_pad]
  have hs : ∑ n : Fin 51200, hot n.val (tail a1 e) * emb (ix2 n c)
      = emb (ix2 (⟨(rowOf (tail a1 e)).val, hlt⟩ : Fin 51200) c) :=
    sum_hot_eq (by norm_num) (tail a1 e) ⟨(rowOf (tail a1 e)).val, hlt⟩ hrow.symm (fun n => emb (ix2 n c))
  exact congrArg (fun s => s * a3 (ix2 (relRow (a2 (ix1 e))) c)) hs

theorem head_padding_ne (a1 : SArg1.Idx → BitVec 32) (n : Fin 50000) (e : Fin 1601536) (he : 1600000 ≤ e.val) :
    ¬ (headP a1 (ix2 (0 : Fin 1) e)).toInt = (n.val : ℤ) := by
  rw [headP_padding a1 e he, toInt_51199]
  have := n.isLt
  omega

theorem scatter_sum (a1 : SArg1.Idx → BitVec 32) (n : Fin 50000) (g : Fin 1601536 → EReal)
    (g' : Fin 1600000 → EReal) (hg : ∀ e : Fin 1600000, g' e = g (padE e)) :
    ∑ e : Fin 1601536, hot n.val (headP a1 (ix2 (0 : Fin 1) e)) * g e
      = ∑ e ∈ Finset.univ.filter (fun e : Fin 1600000 => lands (head a1 e) n), g' e :=
  sum_hot_pad (by omega : 1600000 ≤ 1601536) n.val (by have := n.isLt; omega)
    (fun e => headP a1 (ix2 (0 : Fin 1) e)) (head_padding_ne a1 n)
    (fun e : Fin 1600000 => lands (head a1 e) n) (fun e => by rw [← headP_pad a1 e]; rfl) g g'
    (fun e _ => hg e)

theorem denP_top (a1 : SArg1.Idx → BitVec 32) (n : Fin 50000) (hn : n.val < 51200) :
    denP a1 (ix2 (⟨n.val, hn⟩ : Fin 51200) (0 : Fin 1)) = refDen a1 n := by
  show max (0 + ∑ _e ∈ Finset.univ.filter
        (fun e : Fin 1601536 => (headP a1 (ix2 (0 : Fin 1) e)).toInt = (n.val : ℤ)), (1 : EReal)) 1
     = max (0 + ∑ _e ∈ Finset.univ.filter (fun e : Fin 1600000 => lands (head a1 e) n), (1 : EReal)) 1
  rw [sum_filter_pad (by omega : 1600000 ≤ 1601536)
    (fun e : Fin 1601536 => (headP a1 (ix2 (0 : Fin 1) e)).toInt = (n.val : ℤ))
    (fun e : Fin 1600000 => lands (head a1 e) n) (head_padding_ne a1 n)
    (fun e => by rw [← headP_pad a1 e]; rfl) (fun _ => (1 : EReal)) (fun _ => (1 : EReal)) (fun _ _ => rfl)]

theorem agg_bridge (a1 : SArg1.Idx → BitVec 32) (a2 : SArg2.Idx → BitVec 32) (a3 : SArg3.Idx → EReal)
    (htail : ∀ e : Fin 1600000, 0 ≤ (tail a1 e).toInt ∧ (tail a1 e).toInt < 50000)
    (emb : SEnt.Idx → EReal) (n : Fin 50000) (hn : n.val < 51200) (c : Fin 128) :
    aggAt (headP a1) (gatherStep (tailP a1) emb (relP a2 a3)) (denP a1) ⟨n.val, hn⟩ c
      = refAgg a1 (refMsg a1 (refRel a2 a3) (top emb)) (refDen a1) n c := by
  unfold aggAt refAgg
  rw [denP_top a1 n hn, zero_add]
  have hs := scatter_sum a1 n (fun e => gatherStep (tailP a1) emb (relP a2 a3) (ix2 e c))
    (fun e => refMsg a1 (refRel a2 a3) (top emb) (ix2 e c))
    (fun e => (gather_pad a1 a2 a3 htail emb e c).symm)
  exact congrArg (fun s => Ideal.div s (refDen a1 n)) hs

theorem hop_bridge (a1 : SArg1.Idx → BitVec 32) (a2 : SArg2.Idx → BitVec 32) (a3 : SArg3.Idx → EReal)
    (htail : ∀ e : Fin 1600000, 0 ≤ (Cert.RefSpec.tail a1 e).toInt ∧ (Cert.RefSpec.tail a1 e).toInt < 50000)
    (emb : Cert.Spec.SEnt.Idx → EReal) :
    Cert.Spec.top (Cert.Spec.hopP a1 a2 a3 emb)
      = Cert.RefSpec.refHop a1 (Cert.RefSpec.refRel a2 a3) (Cert.RefSpec.refDen a1) (Cert.Spec.top emb) := by
  funext j
  have hn : (j 0).val < 51200 := by have := idx2_lt0 j; omega
  show scatterAt (headP a1) (gatherStep (tailP a1) emb (relP a2 a3)) (denP a1) ⟨(j 0).val, hn⟩ (j 1)
    = refNew (refAgg a1 (refMsg a1 (refRel a2 a3) (top emb)) (refDen a1)) (j 0) (j 1)
  have hc : ∀ c : Fin 128, aggAt (headP a1) (gatherStep (tailP a1) emb (relP a2 a3)) (denP a1) ⟨(j 0).val, hn⟩ c
      = refAgg a1 (refMsg a1 (refRel a2 a3) (top emb)) (refDen a1) (j 0) c :=
    agg_bridge a1 a2 a3 htail emb (j 0) hn
  unfold scatterAt refNew
  rw [hc (j 1)]
  simp only [hc, zero_add]

theorem bridge (a0 : SArg0.Idx → EReal) (a1 : SArg1.Idx → BitVec 32) (a2 : SArg2.Idx → BitVec 32)
    (a3 : SArg3.Idx → EReal)
    (htail : ∀ e : Fin 1600000, 0 ≤ (Cert.RefSpec.tail a1 e).toInt ∧ (Cert.RefSpec.tail a1 e).toInt < 50000) :
    Cert.Spec.kernelResult a0 a1 a2 a3 = Cert.RefSpec.refResult a0 a1 a2 a3 := by
  have h1 := hop_bridge a1 a2 a3 htail (embP a0)
  rw [top_embP] at h1
  have h2 := hop_bridge a1 a2 a3 htail (hopP a1 a2 a3 (embP a0))
  rw [h1] at h2
  have h3 := hop_bridge a1 a2 a3 htail (hopP a1 a2 a3 (hopP a1 a2 a3 (embP a0)))
  rw [h2] at h3
  funext j
  show ((a0 j + top (hopP a1 a2 a3 (embP a0)) j) + top (hopP a1 a2 a3 (hopP a1 a2 a3 (embP a0))) j)
      + top (hopP a1 a2 a3 (hopP a1 a2 a3 (hopP a1 a2 a3 (embP a0)))) j = refResult a0 a1 a2 a3 j
  rw [h1, h2, h3]
  rfl

end Cert.Bridge

end
-- ==== Proof.PreTail.lean ====
import proofs.«428098_j75917841924563_1_alg».proof.Pre_finite_inputs
import Idealize.ShloMosaic.Lib.ReduceAll
import Idealize.ShloMosaic.Lib.ValueLayout

noncomputable section

namespace Cert.PreTail

open Idealize.ShloMosaic Idealize.ShloMosaic.ValueIdx
open Cert.Pre_finite_inputs

instance subsingleton_S_ : Subsingleton S_.Idx := ⟨fun a b => funext fun d => d.elim0⟩

theorem ofBool_eq_one (b : Bool) : BitVec.ofBool b = 1#1 ↔ b = true := by cases b <;> decide

theorem word_range (w : BitVec 32) (h0 : IntOp.cmpi .sge w (0#32) = 1#1) (h1 : IntOp.cmpi .slt w (50000#32) = 1#1) :
    0 ≤ w.toInt ∧ w.toInt < 50000 := by
  unfold IntOp.cmpi at h0 h1
  rw [ofBool_eq_one] at h0 h1
  simp only [BitVec.sle, BitVec.slt, decide_eq_true_eq] at h0 h1
  have z0 : (0#32 : BitVec 32).toInt = 0 := by decide
  have z1 : (50000#32 : BitVec 32).toInt = 50000 := by decide
  rw [z0] at h0
  rw [z1] at h1
  exact ⟨h0, h1⟩

variable [Cert.Pre_finite_inputs.Facts]

theorem row1_apply (a1 : IVec S2x1600000 32) (e : Fin 1600000) :
    shapeCast S1600000 (extractStridedSlice S1x1600000 ![1, 0] a1 Facts.slices_S2x1600000_S1x1600000_1_0)
        Facts.shapeCasts_S1x1600000_S1600000 (ix1 e)
      = a1 (ix2 (1 : Fin 2) e) :=
  (shapeCast_1a_a_apply _ _ e).trans (slice2_axis0_apply 1 a1 _ (0 : Fin 1) e (1 : Fin 2) rfl)

theorem tail_range {F : FTy → Type} [FloatOps F] (a0 : FVec F S50000x128 .f32) (a1 : IVec S2x1600000 32)
    (a2 : IVec S1600000 32) (a3 : FVec F S10x128 .f32)
    (h : Cert.Pre_finite_inputs.fn (F := F) a0 a1 a2 a3 = (fun _ => 1#1)) (e : Fin 1600000) :
    0 ≤ (a1 (ix2 (1 : Fin 2) e)).toInt ∧ (a1 (ix2 (1 : Fin 2) e)).toInt < 50000 := by
  have h0 := congrFun h ix0
  dsimp only [Cert.Pre_finite_inputs.fn, Cert.Pre_finite_inputs.fn_part1] at h0
  obtain ⟨h14, h19⟩ := IntOp.andi_eq_one.1 h0
  obtain ⟨-, h13⟩ := IntOp.andi_eq_one.1 h14
  have g0 := Host.reduce_andi_all _ _ _ _ _ h13 (ix1 e)
  have g1 := Host.reduce_andi_all _ _ _ _ _ h19 (ix1 e)
  have w0 : IntOp.cmpi .sge (a1 (ix2 (1 : Fin 2) e)) (0#32) = 1#1 := by
    rw [← row1_apply a1 e]; exact g0
  have w1 : IntOp.cmpi .slt (a1 (ix2 (1 : Fin 2) e)) (50000#32) = 1#1 := by
    rw [← row1_apply a1 e]; exact g1
  exact word_range _ w0 w1

end Cert.PreTail

end
-- ==== Proof.lean ====
/-
  Three rounds of message passing over 50000 entities and 1600000 edges: the kernel's one-hot sums over all rows and
  over all edges are the reference's gathered row and scattered sum once every tail word is a row number, so both
  programs end with the same table. Only 0 · x = 0, 1 · x = x and commutativity of + on the extended reals are used.
-/
import proofs.«428098_j75917841924563_1_alg».proof.Defs
import proofs.«428098_j75917841924563_1_alg».proof.Proof.Gen.Kernel
import proofs.«428098_j75917841924563_1_alg».proof.Proof.Gen.KernelIdeal
import proofs.«428098_j75917841924563_1_alg».proof.Proof.Gen.ReferenceIdeal
import proofs.«428098_j75917841924563_1_alg».proof.Proof.Gen.Pre_finite_inputs
import proofs.«428098_j75917841924563_1_alg».proof.Proof.K.Launch
import proofs.«428098_j75917841924563_1_alg».proof.Proof.KI.Launch
import proofs.«428098_j75917841924563_1_alg».proof.Proof.KI.KernelVal
import proofs.«428098_j75917841924563_1_alg».proof.Proof.RefVal
import proofs.«428098_j75917841924563_1_alg».proof.Proof.Bridge
import proofs.«428098_j75917841924563_1_alg».proof.Proof.PreTail

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.RefVal.run m ρ)

theorem algebraic : Cert.algebraic_KernelIdeal_ReferenceIdeal := by
  intro m ρ m' ρ' hpre hagree
  refine ⟨fun c => Cert.Spec.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Hand.mem_uc Cert.KernelIdeal.main_v41 (by decide))).trans (Cert.KernelIdeal.Hand.result_eq m c),
       (h c _ (Cert.KernelIdeal.Hand.mem_uc Cert.KernelIdeal.main_arg0 (by decide))).trans (Cert.KernelIdeal.Hand.W18_main_arg0 m c),
       (h c _ (Cert.KernelIdeal.Hand.mem_uc Cert.KernelIdeal.main_arg1 (by decide))).trans (Cert.KernelIdeal.Hand.W18_main_arg1 m c),
       (h c _ (Cert.KernelIdeal.Hand.mem_uc Cert.KernelIdeal.main_arg2 (by decide))).trans (Cert.KernelIdeal.Hand.W18_main_arg2 m c),
       (h c _ (Cert.KernelIdeal.Hand.mem_uc Cert.KernelIdeal.main_arg3 (by decide))).trans (Cert.KernelIdeal.Hand.W18_main_arg3 m c)⟩)
      (Cert.KernelIdeal.Hand.run_all (F := Ideal) m ρ)
  · refine (θ_run Cert.ReferenceIdeal.defs _ _).mono (fun _ h c => ⟨(h c).1.trans ?_, (h c).2⟩) (Cert.RefVal.run m' ρ')
    refine (congr (congr (congr (congrArg Cert.RefSpec.refResult (hagree c).1) (hagree c).2.1) (hagree c).2.2.1) (hagree c).2.2.2).trans ?_
    exact (Cert.Bridge.bridge _ _ _ _ (fun e => Cert.PreTail.tail_range _ _ _ _ (hpre c) e)).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
